-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S4x64x64 : Shape := ⟨3, ![4, 64, 64]⟩
abbrev S4x64 : Shape := ⟨2, ![4, 64]⟩
abbrev S320x64 : Shape := ⟨2, ![320, 64]⟩
abbrev S64x10 : Shape := ⟨2, ![64, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S320x64 : S_.BroadcastsInDim S320x64 (![] : Fin 0 → Fin S320x64.rank)
  reducesTo_S320x64_S_d0_1 : S320x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S64 .f32) (main_arg17 : FVec F S64x10 .f32) (main_arg18 : FVec F S10 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x10 .f32 := Host.absf main_arg17
  let main_cst_28 : FVec F S_ .f32 := constant S_ .f32 0x7F800000#32
  let main_v75 : FVec F S64x10 .f32 := broadcastInDim S64x10 ![] bcast_S_S64x10 main_cst_28
  let main_v76 : IVec S64x10 1 := cmpf .olt main_v74 main_v75
  let main_c_29 : IVec S_ 1 := constantI S_ 1 1#1
  let main_v77 : IVec S_ 1 := (fun x v => Host.reduce IntOp.andi x v reducesTo_S64x10_S_d0_1 h_S_) main_v76 main_c_29
  let main_v78 : IVec S_ 1 := andi main_v73 main_v77
  let main_v79 : FVec F S10 .f32 := Host.absf main_arg18
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  main_v83

def fn_part3 {F : FTy → Type} [FloatOps F] (main_arg13 : FVec F S64x64 .f32) (main_arg14 : FVec F S64 .f32) (main_arg15 : FVec F S64 .f32) (main_arg16 : FVec F S64 .f32) (main_arg17 : FVec F S64x10 .f32) (main_arg18 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_v63 main_v67

def fn_part2 {F : FTy → Type} [FloatOps F] (main_arg9 : FVec F S4x64x64 .f32) (main_arg10 : FVec F S4x64 .f32) (main_arg11 : FVec F S320x64 .f32) (main_arg12 : FVec F S64 .f32) (main_arg13 : FVec F S64x64 .f32) (main_arg14 : FVec F S64 .f32) (main_arg15 : FVec F S64 .f32) (main_arg16 : FVec F S64 .f32) (main_arg17 : FVec F S64x10 .f32) (main_arg18 : FVec F S10 .f32) (main_v33 : IVec S_ 1) : IVec S_ 1 :=
  let main_v34 : FVec F S4x64x64 .f32 := Host.absf main_arg9
  let main_cst_12 : FVec F S_ .f32 := constant S_ .f32 0x7F800000#32
  let main_v35 : FVec F S4x64x64 .f32 := broadcastInDim S4x64x64 ![] bcast_S_S4x64x64 main_cst_12
  let main_v36 : IVec S4x64x64 1 := cmpf .olt main_v34 main_v35
  let main_c_13 : IVec S_ 1 := constantI S_ 1 1#1
  let main_v37 : IVec S_ 1 := (fun x v => Host.reduce IntOp.andi x v reducesTo_S4x64x64_S_d0_1_2 h_S_) main_v36 main_c_13
  let main_v38 : IVec S_ 1 := andi main_v33 main_v37
  let main_v39 : FVec F S4x64 .f32 := Host.absf main_arg10
  let main_cst_14 : FVec F S_ .f32 := constant S_ .f32 0x7F800000#32
  let main_v40 : FVec F S4x64 .f32 := broadcastInDim S4x64 ![] bcast_S_S4x64 main_cst_14
  let main_v41 : IVec S4x64 1 := cmpf .olt main_v39 main_v40
  let main_c_15 : IVec S_ 1 := constantI S_ 1 1#1
  let main_v42 : IVec S_ 1 := (fun x v => Host.reduce IntOp.andi x v reducesTo_S4x64_S_d0_1 h_S_) main_v41 main_c_15
  let main_v43 : IVec S_ 1 := andi main_v38 main_v42
  let main_v44 : FVec F S320x64 .f32 := Host.absf main_arg11
  let main_cst_16 : FVec F S_ .f32 := constant S_ .f32 0x7F800000#32
  let main_v45 : FVec F S320x64 .f32 := broadcastInDim S320x64 ![] bcast_S_S320x64 main_cst_16
  let main_v46 : IVec S320x64 1 := cmpf .olt main_v44 main_v45
  let main_c_17 : IVec S_ 1 := constantI S_ 1 1#1
  let main_v47 : IVec S_ 1 := (fun x v => Host.reduce IntOp.andi x v reducesTo_S320x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_v48 main_v49 main_v50

def fn_part1 {F : FTy → Type} [FloatOps F] (main_arg6 : FVec F S64 .f32) (main_arg7 : FVec F S4x64x64 .f32) (main_arg8 : FVec F S4x64 .f32) (main_arg9 : FVec F S4x64x64 .f32) (main_arg10 : FVec F S4x64 .f32) (main_arg11 : FVec F S320x64 .f32) (main_arg12 : FVec F S64 .f32) (main_arg13 : FVec F S64x64 .f32) (main_arg14 : FVec F S64 .f32) (main_arg15 : FVec F S64 .f32) (main_arg16 : FVec F S64 .f32) (main_arg17 : FVec F S64x10 .f32) (main_arg18 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S4x64x64 .f32 := Host.absf main_arg7
  let main_cst_8 : FVec F S_ .f32 := constant S_ .f32 0x7F800000#32
  let main_v25 : FVec F S4x64x64 .f32 := broadcastInDim S4x64x64 ![] bcast_S_S4x64x64 main_cst_8
  let main_v26 : IVec S4x64x64 1 := cmpf .olt main_v24 main_v25
  let main_c_9 : IVec S_ 1 := constantI S_ 1 1#1
  let main_v27 : IVec S_ 1 := (fun x v => Host.reduce IntOp.andi x v reducesTo_S4x64x64_S_d0_1_2 h_S_) main_v26 main_c_9
  let main_v28 : IVec S_ 1 := andi main_v23 main_v27
  let main_v29 : FVec F S4x64 .f32 := Host.absf main_arg8
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S64x64 .f32) (main_arg6 : FVec F S64 .f32) (main_arg7 : FVec F S4x64x64 .f32) (main_arg8 : FVec F S4x64 .f32) (main_arg9 : FVec F S4x64x64 .f32) (main_arg10 : FVec F S4x64 .f32) (main_arg11 : FVec F S320x64 .f32) (main_arg12 : FVec F S64 .f32) (main_arg13 : FVec F S64x64 .f32) (main_arg14 : FVec F S64 .f32) (main_arg15 : FVec F S64 .f32) (main_arg16 : FVec F S64 .f32) (main_arg17 : FVec F S64x10 .f32) (main_arg18 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S4x64x64 : Shape := ⟨3, ![4, 64, 64]⟩
abbrev S4x64 : Shape := ⟨2, ![4, 64]⟩
abbrev S320x64 : Shape := ⟨2, ![320, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S50000x64 : Shape := ⟨2, ![50000, 64]⟩
abbrev S5000x128 : Shape := ⟨2, ![5000, 128]⟩
abbrev S5000x64 : Shape := ⟨2, ![5000, 64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S1x64x64 : Shape := ⟨3, ![1, 64, 64]⟩
abbrev S50000x1 : Shape := ⟨2, ![50000, 1]⟩
abbrev S1x10 : Shape := ⟨2, ![1, 10]⟩
abbrev S128x10 : Shape := ⟨2, ![128, 10]⟩
abbrev S2000x64 : Shape := ⟨2, ![2000, 64]⟩
abbrev S2000x1 : Shape := ⟨2, ![2000, 1]⟩
abbrev S2000x128 : Shape := ⟨2, ![2000, 128]⟩

abbrev nBuf : Space → Nat
  | .hbm => 143
  | .vmem => 76
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S64x64, .f32⟩
  | 6 => ⟨S64, .f32⟩
  | 7 => ⟨S4x64x64, .f32⟩
  | 8 => ⟨S4x64, .f32⟩
  | 9 => ⟨S4x64x64, .f32⟩
  | 10 => ⟨S4x64, .f32⟩
  | 11 => ⟨S320x64, .f32⟩
  | 12 => ⟨S64, .f32⟩
  | 13 => ⟨S64x64, .f32⟩
  | 14 => ⟨S64, .f32⟩
  | 15 => ⟨S64, .f32⟩
  | 16 => ⟨S64, .f32⟩
  | 17 => ⟨S64x10, .f32⟩
  | 18 => ⟨S10, .f32⟩
  | 19 => ⟨S1x800000, .i32⟩
  | 20 => ⟨S800000, .i32⟩
  | 21 => ⟨S1x800000, .i32⟩
  | 22 => ⟨S800000, .i32⟩
  | 23 => ⟨S50000x64, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x64, .f32⟩
  | 33 => ⟨S_, .f32⟩
  | 34 => ⟨S50000x64, .f32⟩
  | 35 => ⟨S800000x1, .i32⟩
  | 36 => ⟨S50000x64, .f32⟩
  | 37 => ⟨S1x64, .f32⟩
  | 38 => ⟨S1x64, .f32⟩
  | 39 => ⟨S50000x64, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x64, .f32⟩
  | 49 => ⟨S_, .f32⟩
  | 50 => ⟨S50000x64, .f32⟩
  | 51 => ⟨S800000x1, .i32⟩
  | 52 => ⟨S50000x64, .f32⟩
  | 53 => ⟨S1x64x64, .f32⟩
  | 54 => ⟨S64x64, .f32⟩
  | 55 => ⟨S1x64, .f32⟩
  | 56 => ⟨S64, .f32⟩
  | 57 => ⟨S1x64x64, .f32⟩
  | 58 => ⟨S64x64, .f32⟩
  | 59 => ⟨S1x64, .f32⟩
  | 60 => ⟨S64, .f32⟩
  | 61 => ⟨S1x64, .f32⟩
  | 62 => ⟨S1x64, .f32⟩
  | 63 => ⟨S50000x64, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x64, .f32⟩
  | 73 => ⟨S_, .f32⟩
  | 74 => ⟨S50000x64, .f32⟩
  | 75 => ⟨S800000x1, .i32⟩
  | 76 => ⟨S50000x64, .f32⟩
  | 77 => ⟨S1x64x64, .f32⟩
  | 78 => ⟨S64x64, .f32⟩
  | 79 => ⟨S1x64, .f32⟩
  | 80 => ⟨S64, .f32⟩
  | 81 => ⟨S1x64x64, .f32⟩
  | 82 => ⟨S64x64, .f32⟩
  | 83 => ⟨S1x64, .f32⟩
  | 84 => ⟨S64, .f32⟩
  | 85 => ⟨S1x64, .f32⟩
  | 86 => ⟨S1x64, .f32⟩
  | 87 => ⟨S50000x64, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x64, .f32⟩
  | 97 => ⟨S_, .f32⟩
  | 98 => ⟨S50000x64, .f32⟩
  | 99 => ⟨S800000x1, .i32⟩
  | 100 => ⟨S50000x64, .f32⟩
  | 101 => ⟨S1x64x64, .f32⟩
  | 102 => ⟨S64x64, .f32⟩
  | 103 => ⟨S1x64, .f32⟩
  | 104 => ⟨S64, .f32⟩
  | 105 => ⟨S1x64x64, .f32⟩
  | 106 => ⟨S64x64, .f32⟩
  | 107 => ⟨S1x64, .f32⟩
  | 108 => ⟨S64, .f32⟩
  | 109 => ⟨S1x64, .f32⟩
  | 110 => ⟨S1x64, .f32⟩
  | 111 => ⟨S50000x64, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x64, .f32⟩
  | 121 => ⟨S_, .f32⟩
  | 122 => ⟨S50000x64, .f32⟩
  | 123 => ⟨S800000x1, .i32⟩
  | 124 => ⟨S50000x64, .f32⟩
  | 125 => ⟨S1x64x64, .f32⟩
  | 126 => ⟨S64x64, .f32⟩
  | 127 => ⟨S1x64, .f32⟩
  | _ => ⟨S50000x128, .f32⟩

abbrev hbmTy0_1 (i : Nat) : BufTy := match i % 128 with
  | 0 => ⟨S64, .f32⟩
  | 1 => ⟨S1x64x64, .f32⟩
  | 2 => ⟨S64x64, .f32⟩
  | 3 => ⟨S1x64, .f32⟩
  | 4 => ⟨S64, .f32⟩
  | 5 => ⟨S1x64, .f32⟩
  | 6 => ⟨S1x64, .f32⟩
  | 7 => ⟨S50000x64, .f32⟩
  | 8 => ⟨S50000x1, .i32⟩
  | 9 => ⟨S1x64, .f32⟩
  | 10 => ⟨S1x64, .f32⟩
  | 11 => ⟨S1x64, .f32⟩
  | 12 => ⟨S1x64, .f32⟩
  | 13 => ⟨S1x10, .f32⟩
  | 14 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x64, .f32⟩
  | .local _ .vmem, ⟨39, _⟩ => ⟨S1x64, .f32⟩
  | .local _ .vmem, ⟨40, _⟩ => ⟨S64x64, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S64x64, .f32⟩
  | .local _ .vmem, ⟨49, _⟩ => ⟨S1x64, .f32⟩
  | .local _ .vmem, ⟨50, _⟩ => ⟨S64x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S2000x64, .f32⟩
  | .local _ .vmem, ⟨55, _⟩ => ⟨S2000x64, .f32⟩
  | .local _ .vmem, ⟨56, _⟩ => ⟨S2000x64, .f32⟩
  | .local _ .vmem, ⟨57, _⟩ => ⟨S2000x64, .f32⟩
  | .local _ .vmem, ⟨58, _⟩ => ⟨S2000x64, .f32⟩
  | .local _ .vmem, ⟨59, _⟩ => ⟨S2000x64, .f32⟩
  | .local _ .vmem, ⟨60, _⟩ => ⟨S2000x64, .f32⟩
  | .local _ .vmem, ⟨61, _⟩ => ⟨S2000x64, .f32⟩
  | .local _ .vmem, ⟨62, _⟩ => ⟨S2000x64, .f32⟩
  | .local _ .vmem, ⟨63, _⟩ => ⟨S2000x64, .f32⟩
  | .local _ .vmem, ⟨64, _⟩ => ⟨S320x64, .f32⟩
  | .local _ .vmem, ⟨65, _⟩ => ⟨S1x64, .f32⟩
  | .local _ .vmem, ⟨66, _⟩ => ⟨S2000x1, .i32⟩
  | .local _ .vmem, ⟨67, _⟩ => ⟨S2000x1, .i32⟩
  | .local _ .vmem, ⟨68, _⟩ => ⟨S64x64, .f32⟩
  | .local _ .vmem, ⟨69, _⟩ => ⟨S1x64, .f32⟩
  | .local _ .vmem, ⟨70, _⟩ => ⟨S1x64, .f32⟩
  | .local _ .vmem, ⟨71, _⟩ => ⟨S1x64, .f32⟩
  | .local _ .vmem, ⟨72, _⟩ => ⟨S64x10, .f32⟩
  | .local _ .vmem, ⟨73, _⟩ => ⟨S1x10, .f32⟩
  | .local _ .vmem, ⟨74, _⟩ => ⟨S128x10, .f32⟩
  | .local _ .vmem, ⟨75, _⟩ => ⟨S128x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_1 : Ref sig .tc := ⟨.hbm, 40, rfl⟩
abbrev main_v18 : Ref sig .tc := ⟨.hbm, 41, rfl⟩
abbrev main_v19 : Ref sig .tc := ⟨.hbm, 42, rfl⟩
abbrev main_c_2 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_4 : Ref sig .tc := ⟨.hbm, 64, rfl⟩
abbrev main_v39 : Ref sig .tc := ⟨.hbm, 65, rfl⟩
abbrev main_v40 : Ref sig .tc := ⟨.hbm, 66, rfl⟩
abbrev main_c_5 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_6 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_7 : Ref sig .tc := ⟨.hbm, 88, rfl⟩
abbrev main_v60 : Ref sig .tc := ⟨.hbm, 89, rfl⟩
abbrev main_v61 : Ref sig .tc := ⟨.hbm, 90, rfl⟩
abbrev main_c_8 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_9 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_10 : Ref sig .tc := ⟨.hbm, 112, rfl⟩
abbrev main_v81 : Ref sig .tc := ⟨.hbm, 113, rfl⟩
abbrev main_v82 : Ref sig .tc := ⟨.hbm, 114, rfl⟩
abbrev main_c_11 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_12 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg6_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg6_0 : Ref sig .tc := ⟨.vmem, 52, rfl⟩
abbrev cc5_stg6_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg2_1 : Ref sig .tc := ⟨.vmem, 59, rfl⟩
abbrev cc6_stg3_0 : Ref sig .tc := ⟨.vmem, 60, rfl⟩
abbrev cc6_stg3_1 : Ref sig .tc := ⟨.vmem, 61, rfl⟩
abbrev cc6_stg4_0 : Ref sig .tc := ⟨.vmem, 62, rfl⟩
abbrev cc6_stg4_1 : Ref sig .tc := ⟨.vmem, 63, rfl⟩
abbrev cc6_stg5_0 : Ref sig .tc := ⟨.vmem, 64, rfl⟩
abbrev cc6_stg6_0 : Ref sig .tc := ⟨.vmem, 65, rfl⟩
abbrev cc6_stg7_0 : Ref sig .tc := ⟨.vmem, 66, rfl⟩
abbrev cc6_stg7_1 : Ref sig .tc := ⟨.vmem, 67, rfl⟩
abbrev cc6_stg8_0 : Ref sig .tc := ⟨.vmem, 68, rfl⟩
abbrev cc6_stg9_0 : Ref sig .tc := ⟨.vmem, 69, rfl⟩
abbrev cc6_stg10_0 : Ref sig .tc := ⟨.vmem, 70, rfl⟩
abbrev cc6_stg11_0 : Ref sig .tc := ⟨.vmem, 71, rfl⟩
abbrev cc6_stg12_0 : Ref sig .tc := ⟨.vmem, 72, rfl⟩
abbrev cc6_stg13_0 : Ref sig .tc := ⟨.vmem, 73, rfl⟩
abbrev cc6_stg14_0 : Ref sig .tc := ⟨.vmem, 74, rfl⟩
abbrev cc6_scratch0 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem6_0 : DmaSem sig := 42
abbrev cc4_sem6_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem3_0 : DmaSem sig := 49
abbrev cc5_sem4_0 : DmaSem sig := 50
abbrev cc5_sem5_0 : DmaSem sig := 51
abbrev cc5_sem6_0 : DmaSem sig := 52
abbrev cc5_sem6_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem2_1 : DmaSem sig := 59
abbrev cc6_sem3_0 : DmaSem sig := 60
abbrev cc6_sem3_1 : DmaSem sig := 61
abbrev cc6_sem4_0 : DmaSem sig := 62
abbrev cc6_sem4_1 : DmaSem sig := 63
abbrev cc6_sem5_0 : DmaSem sig := 64
abbrev cc6_sem6_0 : DmaSem sig := 65
abbrev cc6_sem7_0 : DmaSem sig := 66
abbrev cc6_sem7_1 : DmaSem sig := 67
abbrev cc6_sem8_0 : DmaSem sig := 68
abbrev cc6_sem9_0 : DmaSem sig := 69
abbrev cc6_sem10_0 : DmaSem sig := 70
abbrev cc6_sem11_0 : DmaSem sig := 71
abbrev cc6_sem12_0 : DmaSem sig := 72
abbrev cc6_sem13_0 : DmaSem sig := 73
abbrev cc6_sem14_0 : DmaSem sig := 74

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![25], ![false]⟩

def k6_cond2 (i : grid6.Coords) : BitVec 1 :=
  let arg0 : BitVec 32 := BitVec.ofNat 32 (i 0).val
  let c24_i32 : BitVec 32 := 24#32
  let v59 : BitVec 1 := Scalar.cmpi .eq arg0 c24_i32
  let v60 : BitVec 32 := Scalar.extui v59
  let c0_i32_26 : BitVec 32 := 0#32
  let v61 : BitVec 1 := Scalar.cmpi .ne v60 c0_i32_26
  v61

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_12 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_13 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_14 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S2000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S320x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S2000x1 .i32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 1 → Memref sig .tc .vmem S64x64 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x64 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x64 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S1x64 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 1 → Memref sig .tc .vmem S64x10 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
abbrev reads6_12 : Fin grid6.rank → Bool := ![false]

abbrev stage6_13 : Fin 1 → Memref sig .tc .vmem S1x10 .f32 := fun | 0 => Memref.whole cc6_stg13_0 | ⟨_ + 1, h⟩ => absurd h (Nat.not_lt.2 (Nat.le_add_left _ _))
abbrev sem6_13 : Fin 1 → DmaSem sig := fun | 0 => cc6_sem13_0 | ⟨_ + 1, h⟩ => absurd h (Nat.not_lt.2 (Nat.le_add_left _ _))
abbrev reads6_13 : Fin grid6.rank → Bool := ![false]

abbrev stage6_14 : Fin 1 → Memref sig .tc .vmem S128x10 .f32 := fun | 0 => Memref.whole cc6_stg14_0 | ⟨_ + 1, h⟩ => absurd h (Nat.not_lt.2 (Nat.le_add_left _ _))
abbrev sem6_14 : Fin 1 → DmaSem sig := fun | 0 => cc6_sem14_0 | ⟨_ + 1, h⟩ => absurd h (Nat.not_lt.2 (Nat.le_add_left _ _))
abbrev reads6_14 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  shapeCasts_S64x64_S64x64 : S64x64.ShapeCasts S64x64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  shapeCasts_S50000_S50000x1 : S50000.ShapeCasts S50000x1
  shapeCasts_S10_S1x10 : S10.ShapeCasts S1x10
  shapeCasts_S128x64_S128x64 : S128x64.ShapeCasts S128x64
  inb_S320x64_S320x64_0_0 : ∀ a, (![0, 0] : Fin 2 → Nat) a + S320x64.size a ≤ S320x64.size a
  h_S320x64 : 0 < S320x64.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  slices_S320x64_o0_0_S64x64 : S320x64.Slices ![0, 0] S64x64
  slices_S320x64_o64_0_S64x64 : S320x64.Slices ![64, 0] S64x64
  slices_S320x64_o128_0_S64x64 : S320x64.Slices ![128, 0] S64x64
  slices_S320x64_o192_0_S64x64 : S320x64.Slices ![192, 0] S64x64
  slices_S320x64_o256_0_S64x64 : S320x64.Slices ![256, 0] S64x64
  broadcasts_S1x64_S2000x64 : S1x64.Broadcasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x128_d1_w32 : S2000x128.Iotas .tc 32 [1]
  broadcasts_S2000x1_S2000x128 : S2000x1.Broadcasts S2000x128
  natLt_1_32 : 1 < 32
  broadcasts_S1x64_S128x64 : S1x64.Broadcasts S128x64
  reduces_S128x64_S64 : S128x64.Reduces [0] S64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  inb_S128x10_S128x10_0_0 : ∀ a, (![0, 0] : Fin 2 → Nat) a + S128x10.size a ≤ S128x10.size a
  h_S128x10 : 0 < S128x10.numel
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S2000x64_S64x64_S2000x64_1_0_0_1_n_n_wf : DotDims.WF S2000x64 S64x64 S2000x64 [1] [0] [0] [1] [] []
  dot_S2000x128_S2000x64_S128x64_0_0_1_1_n_n_wf : DotDims.WF S2000x128 S2000x64 S128x64 [0] [0] [1] [1] [] []
  dot_S128x64_S64x64_S128x64_1_0_0_1_n_n_wf : DotDims.WF S128x64 S64x64 S128x64 [1] [0] [0] [1] [] []
  dot_S128x64_S64x10_S128x10_1_0_0_1_n_n_wf : DotDims.WF S128x64 S64x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S50000x64.size a
  hwx4_6 : ∀ i : grid4.Coords, EltTy.bits .f32 = 32 ∨ (Rect.block (s := S50000x64) S5000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S50000x64.size a
  hwx5_6 : ∀ i : grid5.Coords, EltTy.bits .f32 = 32 ∨ (Rect.block (s := S50000x64) S5000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x64.size a ≤ S50000x64.size a
  hwx6_1 : ∀ i : grid6.Coords, EltTy.bits .f32 = 32 ∨ (Rect.block (s := S50000x64) S2000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S50000x64.size a
  hwx6_2 : ∀ i : grid6.Coords, EltTy.bits .f32 = 32 ∨ (Rect.block (s := S50000x64) S2000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x64.size a ≤ S50000x64.size a
  hwx6_3 : ∀ i : grid6.Coords, EltTy.bits .f32 = 32 ∨ (Rect.block (s := S50000x64) S2000x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x64.size a ≤ S50000x64.size a
  hwx6_4 : ∀ i : grid6.Coords, EltTy.bits .f32 = 32 ∨ (Rect.block (s := S50000x64) S2000x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S320x64.size a ≤ S320x64.size a
  hwx6_5 : ∀ i : grid6.Coords, EltTy.bits .f32 = 32 ∨ (Rect.block (s := S320x64) S320x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S2000x1.size a ≤ S50000x1.size a
  hwx6_7 : ∀ i : grid6.Coords, EltTy.bits .i32 = 32 ∨ (Rect.block (s := S50000x1) S2000x1.size (cc6_transform_7 i) (hinb6_7 i)).WholeWords (EltTy.packing .i32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S64x64.size a ≤ S64x64.size a
  hwx6_8 : ∀ i : grid6.Coords, EltTy.bits .f32 = 32 ∨ (Rect.block (s := S64x64) S64x64.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x64.size a ≤ S1x64.size a
  hwx6_9 : ∀ i : grid6.Coords, EltTy.bits .f32 = 32 ∨ (Rect.block (s := S1x64) S1x64.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1x64.size a ≤ S1x64.size a
  hwx6_10 : ∀ i : grid6.Coords, EltTy.bits .f32 = 32 ∨ (Rect.block (s := S1x64) S1x64.size (cc6_transform_10 i) (hinb6_10 i)).WholeWords (EltTy.packing .f32)
  hstage6_11 : ∀ j, (stage6_11 j).IsWhole
  nbuf6_11 : grid6.bufCount reads6_11 true = 1
  hreads6_11 : ∀ i i' : grid6.Coords, (∀ a, reads6_11 a = true → i a = i' a) → cc6_transform_11 i = cc6_transform_11 i'
  hinb6_11 : ∀ (i : grid6.Coords) a, (cc6_transform_11 i a + 1) * S1x64.size a ≤ S1x64.size a
  hwx6_11 : ∀ i : grid6.Coords, EltTy.bits .f32 = 32 ∨ (Rect.block (s := S1x64) S1x64.size (cc6_transform_11 i) (hinb6_11 i)).WholeWords (EltTy.packing .f32)
  hstage6_12 : ∀ j, (stage6_12 j).IsWhole
  nbuf6_12 : grid6.bufCount reads6_12 true = 1
  hreads6_12 : ∀ i i' : grid6.Coords, (∀ a, reads6_12 a = true → i a = i' a) → cc6_transform_12 i = cc6_transform_12 i'
  hinb6_12 : ∀ (i : grid6.Coords) a, (cc6_transform_12 i a + 1) * S64x10.size a ≤ S64x10.size a
  hwx6_12 : ∀ i : grid6.Coords, EltTy.bits .f32 = 32 ∨ (Rect.block (s := S64x10) S64x10.size (cc6_transform_12 i) (hinb6_12 i)).WholeWords (EltTy.packing .f32)
  hstage6_13 : ∀ j, (stage6_13 j).IsWhole
  nbuf6_13 : grid6.bufCount reads6_13 true = 1
  hreads6_13 : ∀ i i' : grid6.Coords, (∀ a, reads6_13 a = true → i a = i' a) → cc6_transform_13 i = cc6_transform_13 i'
  hinb6_13 : ∀ (i : grid6.Coords) a, (cc6_transform_13 i a + 1) * S1x10.size a ≤ S1x10.size a
  hwx6_13 : ∀ i : grid6.Coords, EltTy.bits .f32 = 32 ∨ (Rect.block (s := S1x10) S1x10.size (cc6_transform_13 i) (hinb6_13 i)).WholeWords (EltTy.packing .f32)
  hstage6_14 : ∀ j, (stage6_14 j).IsWhole
  nbuf6_14 : grid6.bufCount reads6_14 true = 1
  hreads6_14 : ∀ i i' : grid6.Coords, (∀ a, reads6_14 a = true → i a = i' a) → cc6_transform_14 i = cc6_transform_14 i'
  hinb6_14 : ∀ (i : grid6.Coords) a, (cc6_transform_14 i a + 1) * S128x10.size a ≤ S128x10.size a
  hwx6_14 : ∀ i : grid6.Coords, EltTy.bits .f32 = 32 ∨ (Rect.block (s := S128x10) S128x10.size (cc6_transform_14 i) (hinb6_14 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x128_S2000x64_S128x64_0_0_1_1_n_n : DotDims S2000x128 S2000x64 S128x64 where
  lhsContracting := [0]
  rhsContracting := [0]
  lhsNonContracting := [1]
  rhsNonContracting := [1]
  lhsBatch := []
  rhsBatch := []
  wf := dot_S2000x128_S2000x64_S128x64_0_0_1_1_n_n_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v27) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v38) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v48) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v50) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v58) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v59) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v69) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v71) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v78) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v75) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v79) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v80) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v90) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v92) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v99) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v96) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v100) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v101) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v17) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v38) S2000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v59) S2000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v80) S2000x64.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v101) S2000x64.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_arg11) S320x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v103) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v102) S2000x1.size cc6_transform_7 reads6_7 false false 2 stage6_7 sem6_7
    hrank6 hreads6_7 hinb6_7 nbuf6_7 (Memref.isWhole_whole _) hwx6_7 hstage6_7

abbrev win6_8 : Pipeline.Window sig grid6 :=
  Pipeline.Window.ofSpec (Memref.whole main_arg13) S64x64.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v104) S1x64.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v105) S1x64.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v106) S1x64.size cc6_transform_11 reads6_11 false true 1 stage6_11 sem6_11
    hrank6 hreads6_11 hinb6_11 nbuf6_11 (Memref.isWhole_whole _) hwx6_11 hstage6_11

abbrev win6_12 : Pipeline.Window sig grid6 :=
  Pipeline.Window.ofSpec (Memref.whole main_arg17) S64x10.size cc6_transform_12 reads6_12 false true 1 stage6_12 sem6_12
    hrank6 hreads6_12 hinb6_12 nbuf6_12 (Memref.isWhole_whole _) hwx6_12 hstage6_12

abbrev win6_13 : Pipeline.Window sig grid6 :=
  Pipeline.Window.ofSpec (Memref.whole main_v107) S1x10.size cc6_transform_13 reads6_13 false true 1 stage6_13 sem6_13
    hrank6 hreads6_13 hinb6_13 nbuf6_13 (Memref.isWhole_whole _) hwx6_13 hstage6_13

abbrev win6_14 : Pipeline.Window sig grid6 :=
  Pipeline.Window.ofSpec (Memref.whole main_v108) S128x10.size cc6_transform_14 reads6_14 true true 1 stage6_14 sem6_14
    hrank6 hreads6_14 hinb6_14 nbuf6_14 (Memref.isWhole_whole _) hwx6_14 hstage6_14

abbrev win6 : Fin 15 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | 13 => win6_13 | 14 => win6_14 | ⟨_ + 15, h⟩ => absurd h (Nat.not_lt.2 (Nat.le_add_left _ _))
abbrev spec6 : Fin 15 → Pipeline.WinSpec sig grid6.rank := fun w => (win6 w).toWinSpec

abbrev idle6 : Fin 15 → grid6.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k6_cond2 i == 1#1) | ⟨_ + 15, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S4x64x64 : Shape := ⟨3, ![4, 64, 64]⟩
abbrev S4x64 : Shape := ⟨2, ![4, 64]⟩
abbrev S320x64 : Shape := ⟨2, ![320, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x64 : Shape := ⟨2, ![50000, 64]⟩
abbrev S1x64 : Shape := ⟨2, ![1, 64]⟩
abbrev S800000x64 : Shape := ⟨2, ![800000, 64]⟩
abbrev S1x64x64 : Shape := ⟨3, ![1, 64, 64]⟩
abbrev S50000x320 : Shape := ⟨2, ![50000, 320]⟩
abbrev S50000x1 : Shape := ⟨2, ![50000, 1]⟩
abbrev S128x10 : Shape := ⟨2, ![128, 10]⟩
abbrev S1x10 : Shape := ⟨2, ![1, 10]⟩

abbrev nBuf : Space → Nat
  | .hbm => 245
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S64x64, .f32⟩
  | 6 => ⟨S64, .f32⟩
  | 7 => ⟨S4x64x64, .f32⟩
  | 8 => ⟨S4x64, .f32⟩
  | 9 => ⟨S4x64x64, .f32⟩
  | 10 => ⟨S4x64, .f32⟩
  | 11 => ⟨S320x64, .f32⟩
  | 12 => ⟨S64, .f32⟩
  | 13 => ⟨S64x64, .f32⟩
  | 14 => ⟨S64, .f32⟩
  | 15 => ⟨S64, .f32⟩
  | 16 => ⟨S64, .f32⟩
  | 17 => ⟨S64x10, .f32⟩
  | 18 => ⟨S10, .f32⟩
  | 19 => ⟨S1x800000, .i32⟩
  | 20 => ⟨S800000, .i32⟩
  | 21 => ⟨S1x800000, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S_, .f32⟩
  | 33 => ⟨S50000x128, .f32⟩
  | 34 => ⟨S800000x1, .i32⟩
  | 35 => ⟨S50000x128, .f32⟩
  | 36 => ⟨S50000x128, .f32⟩
  | 37 => ⟨S50000x64, .f32⟩
  | 38 => ⟨S1x64, .f32⟩
  | 39 => ⟨S50000x64, .f32⟩
  | 40 => ⟨S50000x64, .f32⟩
  | 41 => ⟨S_, .f32⟩
  | 42 => ⟨S50000x64, .f32⟩
  | 43 => ⟨S50000x64, .f32⟩
  | 44 => ⟨S50000x64, .f32⟩
  | 45 => ⟨S1x64, .f32⟩
  | 46 => ⟨S50000x64, .f32⟩
  | 47 => ⟨S50000x64, .f32⟩
  | 48 => ⟨S_, .f32⟩
  | 49 => ⟨S50000x64, .f32⟩
  | 50 => ⟨S50000x64, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x64, .f32⟩
  | 60 => ⟨S_, .f32⟩
  | 61 => ⟨S50000x64, .f32⟩
  | 62 => ⟨S800000x1, .i32⟩
  | 63 => ⟨S50000x64, .f32⟩
  | 64 => ⟨S50000x64, .f32⟩
  | 65 => ⟨S1x64x64, .f32⟩
  | 66 => ⟨S64x64, .f32⟩
  | 67 => ⟨S1x64, .f32⟩
  | 68 => ⟨S64, .f32⟩
  | 69 => ⟨S1x64x64, .f32⟩
  | 70 => ⟨S64x64, .f32⟩
  | 71 => ⟨S1x64, .f32⟩
  | 72 => ⟨S64, .f32⟩
  | 73 => ⟨S50000x64, .f32⟩
  | 74 => ⟨S1x64, .f32⟩
  | 75 => ⟨S50000x64, .f32⟩
  | 76 => ⟨S50000x64, .f32⟩
  | 77 => ⟨S_, .f32⟩
  | 78 => ⟨S50000x64, .f32⟩
  | 79 => ⟨S50000x64, .f32⟩
  | 80 => ⟨S50000x64, .f32⟩
  | 81 => ⟨S1x64, .f32⟩
  | 82 => ⟨S50000x64, .f32⟩
  | 83 => ⟨S50000x64, .f32⟩
  | 84 => ⟨S_, .f32⟩
  | 85 => ⟨S50000x64, .f32⟩
  | 86 => ⟨S50000x64, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x64, .f32⟩
  | 96 => ⟨S_, .f32⟩
  | 97 => ⟨S50000x64, .f32⟩
  | 98 => ⟨S800000x1, .i32⟩
  | 99 => ⟨S50000x64, .f32⟩
  | 100 => ⟨S50000x64, .f32⟩
  | 101 => ⟨S1x64x64, .f32⟩
  | 102 => ⟨S64x64, .f32⟩
  | 103 => ⟨S1x64, .f32⟩
  | 104 => ⟨S64, .f32⟩
  | 105 => ⟨S1x64x64, .f32⟩
  | 106 => ⟨S64x64, .f32⟩
  | 107 => ⟨S1x64, .f32⟩
  | 108 => ⟨S64, .f32⟩
  | 109 => ⟨S50000x64, .f32⟩
  | 110 => ⟨S1x64, .f32⟩
  | 111 => ⟨S50000x64, .f32⟩
  | 112 => ⟨S50000x64, .f32⟩
  | 113 => ⟨S_, .f32⟩
  | 114 => ⟨S50000x64, .f32⟩
  | 115 => ⟨S50000x64, .f32⟩
  | 116 => ⟨S50000x64, .f32⟩
  | 117 => ⟨S1x64, .f32⟩
  | 118 => ⟨S50000x64, .f32⟩
  | 119 => ⟨S50000x64, .f32⟩
  | 120 => ⟨S_, .f32⟩
  | 121 => ⟨S50000x64, .f32⟩
  | 122 => ⟨S50000x64, .f32⟩
  | 123 => ⟨S_, .i32⟩
  | 124 => ⟨S800000, .i32⟩
  | 125 => ⟨S800000, .i1⟩
  | 126 => ⟨S_, .i32⟩
  | 127 => ⟨S800000, .i32⟩
  | _ => ⟨S50000x128, .f32⟩

abbrev hbmTy0_1 (i : Nat) : BufTy := match i % 128 with
  | 0 => ⟨S800000, .i32⟩
  | 1 => ⟨S800000, .i32⟩
  | 2 => ⟨S800000x1, .i32⟩
  | 3 => ⟨S800000x64, .f32⟩
  | 4 => ⟨S_, .f32⟩
  | 5 => ⟨S50000x64, .f32⟩
  | 6 => ⟨S800000x1, .i32⟩
  | 7 => ⟨S50000x64, .f32⟩
  | 8 => ⟨S50000x64, .f32⟩
  | 9 => ⟨S1x64x64, .f32⟩
  | 10 => ⟨S64x64, .f32⟩
  | 11 => ⟨S1x64, .f32⟩
  | 12 => ⟨S64, .f32⟩
  | 13 => ⟨S1x64x64, .f32⟩
  | 14 => ⟨S64x64, .f32⟩
  | 15 => ⟨S1x64, .f32⟩
  | 16 => ⟨S64, .f32⟩
  | 17 => ⟨S50000x64, .f32⟩
  | 18 => ⟨S1x64, .f32⟩
  | 19 => ⟨S50000x64, .f32⟩
  | 20 => ⟨S50000x64, .f32⟩
  | 21 => ⟨S_, .f32⟩
  | 22 => ⟨S50000x64, .f32⟩
  | 23 => ⟨S50000x64, .f32⟩
  | 24 => ⟨S50000x64, .f32⟩
  | 25 => ⟨S1x64, .f32⟩
  | 26 => ⟨S50000x64, .f32⟩
  | 27 => ⟨S50000x64, .f32⟩
  | 28 => ⟨S_, .f32⟩
  | 29 => ⟨S50000x64, .f32⟩
  | 30 => ⟨S50000x64, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x64, .f32⟩
  | 40 => ⟨S_, .f32⟩
  | 41 => ⟨S50000x64, .f32⟩
  | 42 => ⟨S800000x1, .i32⟩
  | 43 => ⟨S50000x64, .f32⟩
  | 44 => ⟨S50000x64, .f32⟩
  | 45 => ⟨S1x64x64, .f32⟩
  | 46 => ⟨S64x64, .f32⟩
  | 47 => ⟨S1x64, .f32⟩
  | 48 => ⟨S64, .f32⟩
  | 49 => ⟨S1x64x64, .f32⟩
  | 50 => ⟨S64x64, .f32⟩
  | 51 => ⟨S1x64, .f32⟩
  | 52 => ⟨S64, .f32⟩
  | 53 => ⟨S50000x64, .f32⟩
  | 54 => ⟨S1x64, .f32⟩
  | 55 => ⟨S50000x64, .f32⟩
  | 56 => ⟨S50000x64, .f32⟩
  | 57 => ⟨S_, .f32⟩
  | 58 => ⟨S50000x64, .f32⟩
  | 59 => ⟨S50000x64, .f32⟩
  | 60 => ⟨S50000x64, .f32⟩
  | 61 => ⟨S1x64, .f32⟩
  | 62 => ⟨S50000x64, .f32⟩
  | 63 => ⟨S50000x64, .f32⟩
  | 64 => ⟨S_, .f32⟩
  | 65 => ⟨S50000x64, .f32⟩
  | 66 => ⟨S50000x64, .f32⟩
  | 67 => ⟨S50000x320, .f32⟩
  | 68 => ⟨S50000x64, .f32⟩
  | 69 => ⟨S1x64, .f32⟩
  | 70 => ⟨S50000x64, .f32⟩
  | 71 => ⟨S50000x64, .f32⟩
  | 72 => ⟨S_, .f32⟩
  | 73 => ⟨S128x64, .f32⟩
  | 74 => ⟨S50000x1, .i32⟩
  | 75 => ⟨S128x64, .f32⟩
  | 76 => ⟨S128x64, .f32⟩
  | 77 => ⟨S1x64, .f32⟩
  | 78 => ⟨S128x64, .f32⟩
  | 79 => ⟨S128x64, .f32⟩
  | 80 => ⟨S_, .f32⟩
  | 81 => ⟨S64, .f32⟩
  | 82 => ⟨S_, .f32⟩
  | 83 => ⟨S64, .f32⟩
  | 84 => ⟨S64, .f32⟩
  | 85 => ⟨S1x64, .f32⟩
  | 86 => ⟨S128x64, .f32⟩
  | 87 => ⟨S128x64, .f32⟩
  | 88 => ⟨S128x64, .f32⟩
  | 89 => ⟨S_, .f32⟩
  | 90 => ⟨S64, .f32⟩
  | 91 => ⟨S_, .f32⟩
  | 92 => ⟨S64, .f32⟩
  | 93 => ⟨S64, .f32⟩
  | 94 => ⟨S1x64, .f32⟩
  | 95 => ⟨S128x64, .f32⟩
  | 96 => ⟨S128x64, .f32⟩
  | 97 => ⟨S_, .f32⟩
  | 98 => ⟨S64, .f32⟩
  | 99 => ⟨S64, .f32⟩
  | 100 => ⟨S64, .f32⟩
  | 101 => ⟨S1x64, .f32⟩
  | 102 => ⟨S128x64, .f32⟩
  | 103 => ⟨S128x64, .f32⟩
  | 104 => ⟨S1x64, .f32⟩
  | 105 => ⟨S128x64, .f32⟩
  | 106 => ⟨S128x64, .f32⟩
  | 107 => ⟨S1x64, .f32⟩
  | 108 => ⟨S128x64, .f32⟩
  | 109 => ⟨S128x64, .f32⟩
  | 110 => ⟨S_, .f32⟩
  | 111 => ⟨S128x64, .f32⟩
  | 112 => ⟨S128x64, .f32⟩
  | 113 => ⟨S128x10, .f32⟩
  | 114 => ⟨S1x10, .f32⟩
  | 115 => ⟨S128x10, .f32⟩
  | 116 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call0_cst : Ref sig .tc := ⟨.hbm, 41, rfl⟩
abbrev main_call0_v0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_call1_cst : Ref sig .tc := ⟨.hbm, 48, rfl⟩
abbrev main_call1_v0 : Ref sig .tc := ⟨.hbm, 49, rfl⟩
abbrev main_v24 : Ref sig .tc := ⟨.hbm, 50, rfl⟩
abbrev main_c_1 : Ref sig .tc := ⟨.hbm, 51, rfl⟩
abbrev main_v25 : Ref sig .tc := ⟨.hbm, 52, rfl⟩
abbrev main_v26 : Ref sig .tc := ⟨.hbm, 53, rfl⟩
abbrev main_c_2 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_3 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_call2_cst : Ref sig .tc := ⟨.hbm, 77, rfl⟩
abbrev main_call2_v0 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_call3_cst : Ref sig .tc := ⟨.hbm, 84, rfl⟩
abbrev main_call3_v0 : Ref sig .tc := ⟨.hbm, 85, rfl⟩
abbrev main_v53 : Ref sig .tc := ⟨.hbm, 86, rfl⟩
abbrev main_c_4 : Ref sig .tc := ⟨.hbm, 87, rfl⟩
abbrev main_v54 : Ref sig .tc := ⟨.hbm, 88, rfl⟩
abbrev main_v55 : Ref sig .tc := ⟨.hbm, 89, rfl⟩
abbrev main_c_5 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_6 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_call4_cst : Ref sig .tc := ⟨.hbm, 113, rfl⟩
abbrev main_call4_v0 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_call5_cst : Ref sig .tc := ⟨.hbm, 120, rfl⟩
abbrev main_call5_v0 : Ref sig .tc := ⟨.hbm, 121, rfl⟩
abbrev main_v82 : Ref sig .tc := ⟨.hbm, 122, rfl⟩
abbrev main_c_7 : Ref sig .tc := ⟨.hbm, 123, rfl⟩
abbrev main_v83 : Ref sig .tc := ⟨.hbm, 124, rfl⟩
abbrev main_v84 : Ref sig .tc := ⟨.hbm, 125, rfl⟩
abbrev main_c_8 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_9 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_call6_cst : Ref sig .tc := ⟨.hbm, 149, rfl⟩
abbrev main_call6_v0 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_call7_cst : Ref sig .tc := ⟨.hbm, 156, rfl⟩
abbrev main_call7_v0 : Ref sig .tc := ⟨.hbm, 157, rfl⟩
abbrev main_v111 : Ref sig .tc := ⟨.hbm, 158, rfl⟩
abbrev main_c_10 : Ref sig .tc := ⟨.hbm, 159, rfl⟩
abbrev main_v112 : Ref sig .tc := ⟨.hbm, 160, rfl⟩
abbrev main_v113 : Ref sig .tc := ⟨.hbm, 161, rfl⟩
abbrev main_c_11 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_cst_12 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_call8_cst : Ref sig .tc := ⟨.hbm, 185, rfl⟩
abbrev main_call8_v0 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_call9_cst : Ref sig .tc := ⟨.hbm, 192, rfl⟩
abbrev main_call9_v0 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_cst_13 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_cst_14 : Ref sig .tc := ⟨.hbm, 208, rfl⟩
abbrev main_v153 : Ref sig .tc := ⟨.hbm, 209, rfl⟩
abbrev main_cst_15 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_cst_16 : Ref sig .tc := ⟨.hbm, 217, rfl⟩
abbrev main_v160 : Ref sig .tc := ⟨.hbm, 218, rfl⟩
abbrev main_cst_17 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_cst_18 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_call10_cst : Ref sig .tc := ⟨.hbm, 238, rfl⟩
abbrev main_call10_v0 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  concatenates_S50000x64_S50000x64_S50000x64_S50000x64_S50000x64_S50000x320_d1 : Shape.Concatenates [S50000x64, S50000x64, S50000x64, S50000x64, S50000x64] S50000x320 1
  bcast_S_S128x64 : S_.BroadcastsInDim S128x64 (![] : Fin 0 → Fin S128x64.rank)
  bcast_S50000_S50000x1_0 : S50000.BroadcastsInDim S50000x1 (![0] : Fin 1 → Fin S50000x1.rank)
  bcast_S1x64_S128x64_0_1 : S1x64.BroadcastsInDim S128x64 (![0, 1] : Fin 2 → Fin S128x64.rank)
  reducesTo_S128x64_S64_d0 : S128x64.ReducesTo [0] S64
  h_S_ : 0 < S_.numel
  bcast_S_S64 : S_.BroadcastsInDim S64 (![] : Fin 0 → Fin S64.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x320_S320x64_S50000x64_1_0_0_1_n_n_wf : DotDims.WF S50000x320 S320x64 S50000x64 [1] [0] [0] [1] [] []
  scatter_S128x64_S50000x1_S50000x64_1_0_0_1_wf : ScatterDims.WF S128x64 S50000x1 S50000x64 [1] [0] [0] 1
  dot_S128x64_S64x64_S128x64_1_0_0_1_n_n_wf : DotDims.WF S128x64 S64x64 S128x64 [1] [0] [0] [1] [] []
  dot_S128x64_S64x10_S128x10_1_0_0_1_n_n_wf : DotDims.WF S128x64 S64x10 S128x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x320_S320x64_S50000x64_1_0_0_1_n_n : DotDims S50000x320 S320x64 S50000x64 where
  lhsContracting := [1]
  rhsContracting := [0]
  lhsNonContracting := [0]
  rhsNonContracting := [1]
  lhsBatch := []
  rhsBatch := []
  wf := dot_S50000x320_S320x64_S50000x64_1_0_0_1_n_n_wf
def scatter_S128x64_S50000x1_S50000x64_1_0_0_1 : ScatterDims S128x64 S50000x1 S50000x64 where
  updateWindowDims := [1]
  insertedWindowDims := [0]
  scatterDimsToOperandDims := [0]
  indexVectorDim := 1
  wf := scatter_S128x64_S50000x1_S50000x64_1_0_0_1_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

class Facts : Prop extends Facts₀ where

variable [Facts]
-- ==== Proof.Spec.lean ====
import Idealize.ShloMosaic.PureOps.Ideal
import Idealize.ShloMosaic.Lib.ValueIdx

noncomputable section

namespace Cert.Spec

open Idealize.ShloMosaic Idealize.ShloMosaic.ValueIdx
open scoped BigOperators

abbrev Mat (n c : Nat) : Type := (⟨2, ![n, c]⟩ : Shape).Idx → EReal

abbrev Row (c : Nat) : Type := (⟨1, ![c]⟩ : Shape).Idx → EReal

abbrev ICol (n : Nat) : Type := (⟨2, ![n, 1]⟩ : Shape).Idx → BitVec 32

abbrev Stack : Type := (⟨3, ![4, 64, 64]⟩ : Shape).Idx → EReal

def mm {n k c : Nat} (a : Mat n k) (b : Mat k c) : Mat n c := fun i => ∑ j : Fin k, a (ix2 (i 0) j) * b (ix2 j (i 1))

def addRow {n c : Nat} (a : Mat n c) (b : Row c) : Mat n c := fun i => a i + b (ix1 (i 1))

def addRow1 {n c : Nat} (a : Mat n c) (b : Mat 1 c) : Mat n c := fun i => a i + b (ix2 (0 : Fin 1) (i 1))

def relu {n c : Nat} (a : Mat n c) : Mat n c := fun i => max (a i) 0

def add {n c : Nat} (a b : Mat n c) : Mat n c := fun i => a i + b i

def rowOf (N : Nat) (hN : 0 < N) (s : BitVec 32) : Fin N := ⟨min s.toInt.toNat (N - 1), by omega⟩

def gatherRows {N R c : Nat} (hN : 0 < N) (sI : ICol R) (h : Mat N c) : Mat R c :=
  fun i => h (ix2 (rowOf N hN (sI (ix2 (i 0) (0 : Fin 1)))) (i 1))

def segSum {N R c : Nat} (dI : ICol R) (u : Mat R c) : Mat N c :=
  fun i => (0 : EReal) + ∑ j : Fin R, if (dI (ix2 j (0 : Fin 1))).toInt = ((i 0).val : Int) then u (ix2 j (i 1)) else 0

def agg (sI dI : ICol 800000) {c : Nat} (h : Mat 50000 c) : Mat 50000 c :=
  segSum dI (gatherRows (by decide) sI h)

def layer (sI dI : ICol 800000) {d : Nat} (w1 : Mat d 64) (b1 : Row 64) (w2 : Mat 64 64) (b2 : Row 64)
    (h : Mat 50000 d) : Mat 50000 64 :=
  relu (addRow (mm (relu (addRow (mm (add (agg sI dI h) h) w1) b1)) w2) b2)

def slab (w : Stack) (k : Fin 4) : Mat 64 64 := fun i => w (ix3 k (i 0) (i 1))

def srow (b : Mat 4 64) (k : Fin 4) : Row 64 := fun i => b (ix2 k (i 0))

def cat5 (hs : Fin 5 → Mat 50000 64) : Mat 50000 320 := fun i =>
  hs ⟨(i 1).val / 64, by have h : (i 1).val < 320 := (i 1).isLt; omega⟩
    (ix2 (i 0) ⟨(i 1).val % 64, Nat.mod_lt _ (by decide)⟩)

def c128 : EReal := Ideal.ofBits .f32 0x43000000#32

def eps : EReal := Ideal.ofBits .f32 0x3727C5AC#32

def colMean {n c : Nat} (t : Mat n c) (den : EReal) : Row c :=
  fun q => Ideal.div ((0 : EReal) + ∑ r : Fin n, t (ix2 r (q 0))) den

def clf (w1 : Mat 64 64) (b1 gamma beta : Row 64) (w2 : Mat 64 10) (b2 : Row 10) (g : Mat 128 64) : Mat 128 10 :=
  let t : Mat 128 64 := addRow (mm g w1) b1
  let mu : Row 64 := colMean t c128
  let d : Mat 128 64 := fun i => t i - mu (ix1 (i 1))
  let var : Row 64 := colMean (fun i => d i * d i) c128
  let y : Mat 128 64 := fun i => d i * Ideal.rsqrt (var (ix1 (i 1)) + eps) * gamma (ix1 (i 1)) + beta (ix1 (i 1))
  addRow (mm (relu y) w2) b2

def hidden (sI dI : ICol 800000) (x : Mat 50000 128) (w1_0 : Mat 128 64) (b1_0 : Row 64) (w2_0 : Mat 64 64) (b2_0 : Row 64)
    (w1r : Stack) (b1r : Mat 4 64) (w2r : Stack) (b2r : Mat 4 64) : Fin 5 → Mat 50000 64
  | ⟨0, _⟩ => layer sI dI w1_0 b1_0 w2_0 b2_0 x
  | ⟨k + 1, hk⟩ =>
    layer sI dI (slab w1r ⟨k, by omega⟩) (srow b1r ⟨k, by omega⟩) (slab w2r ⟨k, by omega⟩) (srow b2r ⟨k, by omega⟩)
      (hidden sI dI x w1_0 b1_0 w2_0 b2_0 w1r b1r w2r b2r ⟨k, by omega⟩)

def net (sI dI : ICol 800000) (bI : ICol 50000) (x : Mat 50000 128) (w1_0 : Mat 128 64) (b1_0 : Row 64) (w2_0 : Mat 64 64)
    (b2_0 : Row 64) (w1r : Stack) (b1r : Mat 4 64) (w2r : Stack) (b2r : Mat 4 64) (jkw : Mat 320 64) (jkb : Row 64)
    (cw1 : Mat 64 64) (cb1 gamma beta : Row 64) (cw2 : Mat 64 10) (cb2 : Row 10) : Mat 128 10 :=
  clf cw1 cb1 gamma beta cw2 cb2
    (segSum bI (addRow (mm (cat5 (hidden sI dI x w1_0 b1_0 w2_0 b2_0 w1r b1r w2r b2r)) jkw) jkb))

def layer0K (sI dI : ICol 800000) (w1 : Mat 128 64) (b1 : Mat 1 64) (w2 : Mat 64 64) (b2 : Mat 1 64)
    (x : Mat 50000 128) : Mat 50000 64 :=
  relu (addRow1 (mm (relu (addRow1 (add (agg sI dI (mm x w1)) (mm x w1)) b1)) w2) b2)

def layerK (sI dI : ICol 800000) (w1 : Mat 64 64) (b1 : Mat 1 64) (w2 : Mat 64 64) (b2 : Mat 1 64)
    (h : Mat 50000 64) : Mat 50000 64 :=
  relu (addRow1 (mm (relu (addRow1 (mm (add (agg sI dI h) h) w1) b1)) w2) b2)

def blk (jkw : Mat 320 64) (k : Fin 5) : Mat 64 64 :=
  fun i => jkw (ix2 ⟨64 * k.val + (i 0).val, by have h : (i 0).val < 64 := (i 0).isLt; omega⟩ (i 1))

def jkK (hs : Fin 5 → Mat 50000 64) (jkw : Mat 320 64) (jkb : Mat 1 64) : Mat 50000 64 := fun i =>
  (((((0 : EReal) + mm (hs 0) (blk jkw 0) i) + mm (hs 1) (blk jkw 1) i) + mm (hs 2) (blk jkw 2) i)
    + mm (hs 3) (blk jkw 3) i) + mm (hs 4) (blk jkw 4) i + jkb (ix2 (0 : Fin 1) (i 1))

def member (b : BitVec 32) (g : Fin 128) : EReal := if b = BitVec.ofNat 32 g.val then 1 else 0

def part (bI : ICol 50000) (h : Mat 50000 64) (t : Fin 25) : Mat 128 64 := fun i =>
  ∑ r : Fin 2000, member (bI (ix2 ⟨2000 * t.val + r.val, by omega⟩ (0 : Fin 1))) (i 0)
    * h (ix2 ⟨2000 * t.val + r.val, by omega⟩ (i 1))

def accK (bI : ICol 50000) (h : Mat 50000 64) : (t : ℕ) → t < 25 → Mat 128 64
  | 0, ht => fun i => (0 : EReal) + part bI h ⟨0, ht⟩ i
  | t + 1, ht => fun i => accK bI h t (by omega) i + part bI h ⟨t + 1, ht⟩ i

def clfK (w1 : Mat 64 64) (b1 gamma beta : Mat 1 64) (w2 : Mat 64 10) (b2 : Mat 1 10) (g : Mat 128 64) : Mat 128 10 :=
  clf w1 (fun q => b1 (ix2 (0 : Fin 1) (q 0))) (fun q => gamma (ix2 (0 : Fin 1) (q 0))) (fun q => beta (ix2 (0 : Fin 1) (q 0)))
    w2 (fun q => b2 (ix2 (0 : Fin 1) (q 0))) g

end Cert.Spec

end
-- ==== Proof.Pre.Finite.lean ====
import proofs.«400867_j53901839564968_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Proof.Finite

open Idealize.ShloMosaic Idealize.ShloMosaic.ValueIdx
open Cert.Pre_finite_inputs

instance : Subsingleton S_.Idx := ⟨fun a b => funext fun d => d.elim0⟩

theorem inf_pattern : (FloatOps.ofBits (F := Ideal) .f32 0x7F800000#32 : EReal) = ⊤ := by
  show Ideal.ofBits .f32 0x7F800000#32 = ⊤
  simp [Ideal.ofBits, Ideal.ieee]

-- |x| = max x (-x) is below ⊤ only when x is neither ⊤ nor ⊥.
theorem elt_finite (x : Ideal .f32)
    (h : FloatOps.cmpf .olt (FloatOps.hostAbsf x) (FloatOps.ofBits (F := Ideal) .f32 0x7F800000#32) = 1#1) :
    x ≠ (⊤ : EReal) ∧ x ≠ (⊥ : EReal) := by
  rw [inf_pattern] at h
  induction x using EReal.rec with
  | bot => exact absurd h (by simp [Ideal.hostAbsf_def, Ideal.cmpf_def, Ideal.absf_def, Ideal.cmp])
  | top => exact absurd h (by simp [Ideal.hostAbsf_def, Ideal.cmpf_def, Ideal.absf_def, Ideal.cmp])
  | coe r => exact ⟨EReal.coe_ne_top r, EReal.coe_ne_bot r⟩

-- A conjunction over all entries that came out 1 gives the bound at every entry.
theorem all_finite {s : Shape} {axes : List (Fin s.rank)} (hb : S_.BroadcastsInDim s (![] : Fin 0 → Fin s.rank))
    (hr : s.ReducesTo axes S_) (hu : 0 < S_.numel) (a : FVec Ideal s .f32) (init : IVec S_ 1)
    (e : Host.reduce IntOp.andi (cmpf .olt (Host.absf a) (broadcastInDim s ![] hb (constant S_ .f32 0x7F800000#32)))
      init hr hu ix0 = 1#1) (i : s.Idx) : a i ≠ (⊤ : EReal) ∧ a i ≠ (⊥ : EReal) :=
  elt_finite (a i) (Host.reduce_andi_all _ init hr hu ix0 e i)

variable [Facts]

-- The precondition is a conjunction with one such fact per float argument; the first two are the node features and the first weights.
theorem x_w1_finite (a0 : FVec Ideal S50000x128 .f32) (a1 : IVec S2x800000 32) (a2 : IVec S50000 32) (a3 : FVec Ideal S128x64 .f32) (a4 : FVec Ideal S64 .f32) (a5 : FVec Ideal S64x64 .f32) (a6 : FVec Ideal S64 .f32) (a7 : FVec Ideal S4x64x64 .f32) (a8 : FVec Ideal S4x64 .f32) (a9 : FVec Ideal S4x64x64 .f32) (a10 : FVec Ideal S4x64 .f32) (a11 : FVec Ideal S320x64 .f32) (a12 : FVec Ideal S64 .f32) (a13 : FVec Ideal S64x64 .f32) (a14 : FVec Ideal S64 .f32) (a15 : FVec Ideal S64 .f32) (a16 : FVec Ideal S64 .f32) (a17 : FVec Ideal S64x10 .f32) (a18 : FVec Ideal S10 .f32)
    (h : fn (F := Ideal) a0 a1 a2 a3 a4 a5 a6 a7 a8 a9 a10 a11 a12 a13 a14 a15 a16 a17 a18 = (fun _ => 1#1)) :
    (∀ i, a0 i ≠ (⊤ : EReal) ∧ a0 i ≠ (⊥ : EReal)) ∧ (∀ i, a3 i ≠ (⊤ : EReal) ∧ a3 i ≠ (⊥ : EReal)) := by
  have h0 := congrFun h ix0
  dsimp only [fn, fn_part1, fn_part2, fn_part3, fn_part4, andi] at h0
  simp only [IntOp.andi_eq_one] at h0
  obtain ⟨⟨⟨⟨⟨⟨⟨⟨⟨⟨⟨⟨⟨⟨⟨⟨h0, h3⟩, -⟩, -⟩, -⟩, -⟩, -⟩, -⟩, -⟩, -⟩, -⟩, -⟩, -⟩, -⟩, -⟩, -⟩, -⟩ := h0
  exact ⟨all_finite _ _ _ a0 _ h0, all_finite _ _ _ a3 _ h3⟩

end Cert.Proof.Finite
-- ==== Proof.K.Reg0.lean ====
import proofs.«400867_j53901839564968_2_alg».proof.Proof.Gen.Kernel.Launch
import proofs.«400867_j53901839564968_2_alg».proof.Proof.Gen.Kernel.Skeleton
import proofs.«400867_j53901839564968_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.Kernel.Hand
open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S5000x128 := Rect.unit (s := S5000x128) ![0, 0] S5000x128.size inb_S5000x128_S5000x128_0_0
abbrev rW0 : Rect S128x64 := Rect.unit (s := S128x64) ![0, 0] S128x64.size inb_S128x64_S128x64_0_0
abbrev rP0 : Rect S5000x64 := Rect.unit (s := S5000x64) ![0, 0] S5000x64.size inb_S5000x64_S5000x64_0_0

def out0_2 (x0 : Vec F S5000x128 .f32) (x1 : Vec F S128x64 .f32) : Vec F S5000x64 .f32 :=
  View.canon [⟨rP0, k0_pay1 (View.ld x0 rX0) (View.ld x1 rW0)⟩]

-- The one store covers the whole shape, so what is read back is its payload alone.
theorem sound_kernel0 (c : Dev nD) (E : Set ℕ) (i : grid0.Coords) (arg1 : Memref sig .tc .vmem S5000x128 .f32) (arg2 : Memref sig .tc .vmem S128x64 .f32) (arg3 : Memref sig .tc .vmem S5000x64 .f32)
    (harg1 : arg1.IsWhole) (harg2 : arg2.IsWhole) (harg3 : arg3.IsWhole)
    (x0 : Vec F S5000x128 .f32) (x1 : Vec F S128x64 .f32) (K : PUnit → sProp 𝕄) :
    iprop(owns c arg1 fullShare x0 ∗ owns c arg2 fullShare x1 ∗ (∃ d, owns c arg3 fullShare d)
        ∗ (iprop(owns c arg1 fullShare x0 ∗ owns c arg2 fullShare x1 ∗ owns c arg3 fullShare (out0_2 x0 x1)) -∗ K ⟨⟩))
      ⊢ wp frame (wpE (defs₀ (F := F)) Variants.none c none) E (cc0__project0_kernel i arg1 harg1 arg2 harg2 arg3 harg3) K := by
  simp only [cc0__project0_kernel_eq_skeleton]; unfold cc0__project0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by dsimp only [dat0]

theorem before0 (c : Dev nD) (t : Fin cfg0.N) :
    (∀ d, (dat0 V c).before 0 t d = iblk0 V c 0 t) ∧
    (∀ d, (dat0 V c).before 1 t d = iblk0 V c 1 t) := by
  refine ⟨?_, ?_⟩ <;> exact (dat0 V c).before_in_eq_fetched _ rfl (fun _ => rfl) (fun _ _ _ => rfl) (fun _ => rfl) t

-- The body's triple at the point's blocks; the invariant and the debts pass through untouched.
theorem body_obligation0 (c : Dev nD) : BodyObligation (dat0 (F := F) V c) (defs₀ (F := F)) Variants.none () Set.univ := fun t => by
  rw [bigSep_W0, bigSep_W0]
  refine (?_ : iprop((?R : sProp 𝕄) ∗ ?O ∗ ?P) ⊢ wp frame (wpE (defs₀ (F := F)) Variants.none c none) Set.univ (bodyAt0 t) fun _ => iprop(?R ∗ ?O
        ∗ owns c (st0_0 t) fullShare (iblk0 V c 0 t)
        ∗ owns c (st0_1 t) fullShare (iblk0 V c 1 t)
        ∗ owns c (st0_2 t) fullShare ((dat0 V c).after 2 t)))
  simp only [before0 V c t, after0_2]
  iintro ⟨HΦ, Ho, ⟨%d0, H0⟩, ⟨%d1, H1⟩, ⟨%d2, H2⟩⟩
  iapply sound_kernel0
  iframe
  isplitl [H2]; · iexists _; iexact H2
  iintro ⟨H0, H1, H2⟩
  iframe

end Cert.Kernel.Hand
-- ==== Proof.K.Reg1.lean ====
import proofs.«400867_j53901839564968_2_alg».proof.Proof.Gen.Kernel.Launch
import proofs.«400867_j53901839564968_2_alg».proof.Proof.Gen.Kernel.Skeleton
import proofs.«400867_j53901839564968_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.Kernel.Hand
open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rN1 : Rect S5000x64 := Rect.unit (s := S5000x64) ![0, 0] S5000x64.size inb_S5000x64_S5000x64_0_0
abbrev rB1 : Rect S1x64 := Rect.unit (s := S1x64) ![0, 0] S1x64.size inb_S1x64_S1x64_0_0
abbrev rM1 : Rect S64x64 := Rect.unit (s := S64x64) ![0, 0] S64x64.size inb_S64x64_S64x64_0_0

def out1_5 (x0 : Vec F S5000x64 .f32) (x1 : Vec F S5000x64 .f32) (x2 : Vec F S1x64 .f32) (x3 : Vec F S64x64 .f32)
    (x4 : Vec F S1x64 .f32) : Vec F S5000x64 .f32 :=
  View.canon [⟨rN1, k1_pay1 (View.ld x0 rN1) (View.ld x1 rN1) (View.ld x2 rB1) (View.ld x3 rM1) (View.ld x4 rB1)⟩]

-- The one store covers the whole shape, so what is read back is its payload alone.
theorem sound_kernel1 (c : Dev nD) (E : Set ℕ) (i : grid1.Coords) (arg1 arg2 arg6 : Memref sig .tc .vmem S5000x64 .f32) (arg3 arg5 : Memref sig .tc .vmem S1x64 .f32) (arg4 : Memref sig .tc .vmem S64x64 .f32)
    (harg1 : arg1.IsWhole) (harg2 : arg2.IsWhole) (harg3 : arg3.IsWhole) (harg4 : arg4.IsWhole) (harg5 : arg5.IsWhole) (harg6 : arg6.IsWhole)
    (x0 x1 : Vec F S5000x64 .f32) (x2 x4 : Vec F S1x64 .f32) (x3 : Vec F S64x64 .f32) (K : PUnit → sProp 𝕄) :
    iprop(owns c arg1 fullShare x0 ∗ owns c arg2 fullShare x1 ∗ owns c arg3 fullShare x2 ∗ owns c arg4 fullShare x3 ∗ owns c arg5 fullShare x4 ∗ (∃ d, owns c arg6 fullShare d)
        ∗ (iprop(owns c arg1 fullShare x0 ∗ owns c arg2 fullShare x1 ∗ owns c arg3 fullShare x2 ∗ owns c arg4 fullShare x3 ∗ owns c arg5 fullShare x4 ∗ owns c arg6 fullShare (out1_5 x0 x1 x2 x3 x4)) -∗ K ⟨⟩))
      ⊢ wp frame (wpE (defs₀ (F := F)) Variants.none c none) E (cc1__gin_layer0_kernel i arg1 harg1 arg2 harg2 arg3 harg3 arg4 harg4 arg5 harg5 arg6 harg6) K := by
  simp only [cc1__gin_layer0_kernel_eq_skeleton]; unfold cc1__gin_layer0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S5000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

theorem before1 (c : Dev nD) (t : Fin cfg1.N) :
    (∀ d, (dat1 V c).before 0 t d = iblk1 V c 0 t) ∧
    (∀ d, (dat1 V c).before 1 t d = iblk1 V c 1 t) ∧
    (∀ d, (dat1 V c).before 2 t d = iblk1 V c 2 t) ∧
    (∀ d, (dat1 V c).before 3 t d = iblk1 V c 3 t) ∧
    (∀ d, (dat1 V c).before 4 t d = iblk1 V c 4 t) := by
  refine ⟨?_, ?_, ?_, ?_, ?_⟩ <;> exact (dat1 V c).before_in_eq_fetched _ rfl (fun _ => rfl) (fun _ _ _ => rfl) (fun _ => rfl) t

-- The body's triple at the point's blocks; the invariant and the debts pass through untouched.
theorem body_obligation1 (c : Dev nD) : BodyObligation (dat1 (F := F) V c) (defs₀ (F := F)) Variants.none () Set.univ := fun t => by
  rw [bigSep_W1, bigSep_W1]
  refine (?_ : iprop((?R : sProp 𝕄) ∗ ?O ∗ ?P) ⊢ wp frame (wpE (defs₀ (F := F)) Variants.none c none) Set.univ (bodyAt1 t) fun _ => iprop(?R ∗ ?O
        ∗ owns c (st1_0 t) fullShare (iblk1 V c 0 t)
        ∗ owns c (st1_1 t) fullShare (iblk1 V c 1 t)
        ∗ owns c (st1_2 t) fullShare (iblk1 V c 2 t)
        ∗ owns c (st1_3 t) fullShare (iblk1 V c 3 t)
        ∗ owns c (st1_4 t) fullShare (iblk1 V c 4 t)
        ∗ owns c (st1_5 t) fullShare ((dat1 V c).after 5 t)))
  simp only [before1 V c t, after1_5]
  iintro ⟨HΦ, Ho, ⟨%d0, H0⟩, ⟨%d1, H1⟩, ⟨%d2, H2⟩, ⟨%d3, H3⟩, ⟨%d4, H4⟩, ⟨%d5, H5⟩⟩
  iapply sound_kernel1
  iframe
  isplitl [H5]; · iexists _; iexact H5
  iintro ⟨H0, H1, H2, H3, H4, H5⟩
  iframe

end Cert.Kernel.Hand
-- ==== Proof.K.Reg2.lean ====
import proofs.«400867_j53901839564968_2_alg».proof.Proof.Gen.Kernel.Launch
import proofs.«400867_j53901839564968_2_alg».proof.Proof.Gen.Kernel.Skeleton
import proofs.«400867_j53901839564968_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.Kernel.Hand
open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S5000x64 := Rect.unit (s := S5000x64) ![0, 0] S5000x64.size inb_S5000x64_S5000x64_0_0
abbrev r2_b : Rect S64x64 := Rect.unit (s := S64x64) ![0, 0] S64x64.size inb_S64x64_S64x64_0_0
abbrev r2_c : Rect S1x64 := Rect.unit (s := S1x64) ![0, 0] S1x64.size inb_S1x64_S1x64_0_0

def out2_6 (x0 x1 : Vec F S5000x64 .f32) (x2 : Vec F S64x64 .f32) (x3 : Vec F S1x64 .f32) (x4 : Vec F S64x64 .f32)
    (x5 : Vec F S1x64 .f32) : Vec F S5000x64 .f32 :=
  View.canon [⟨r2_a, k2_pay1 (View.ld x0 r2_a) (View.ld x1 r2_a) (View.ld x2 r2_b) (View.ld x3 r2_c) (View.ld x4 r2_b) (View.ld x5 r2_c)⟩]

-- The one store covers the whole shape, so what is read back is its payload alone.
theorem sound_kernel2 (c : Dev nD) (E : Set ℕ) (i : grid2.Coords) (arg1 arg2 arg7 : Memref sig .tc .vmem S5000x64 .f32) (arg3 arg5 : Memref sig .tc .vmem S64x64 .f32) (arg4 arg6 : Memref sig .tc .vmem S1x64 .f32)
    (harg1 : arg1.IsWhole) (harg2 : arg2.IsWhole) (harg3 : arg3.IsWhole) (harg4 : arg4.IsWhole) (harg5 : arg5.IsWhole) (harg6 : arg6.IsWhole) (harg7 : arg7.IsWhole)
    (x0 x1 : Vec F S5000x64 .f32) (x2 x4 : Vec F S64x64 .f32) (x3 x5 : Vec F S1x64 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare (out2_6 x0 x1 x2 x3 x4 x5)) -∗ K ⟨⟩))
      ⊢ wp frame (wpE (defs₀ (F := F)) Variants.none c none) E (cc2__gin_layer_kernel i arg1 harg1 arg2 harg2 arg3 harg3 arg4 harg4 arg5 harg5 arg6 harg6 arg7 harg7) K := by
  simp only [cc2__gin_layer_kernel_eq_skeleton]; unfold cc2__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S5000x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t =
    out2_6 (iblk2 V c 0 t) (iblk2 V c 1 t) (iblk2 V c 2 t) (iblk2 V c 3 t) (iblk2 V c 4 t) (iblk2 V c 5 t) := by dsimp only [dat2]

theorem before2 (c : Dev nD) (t : Fin cfg2.N) :
    (∀ d, (dat2 V c).before 0 t d = iblk2 V c 0 t) ∧
    (∀ d, (dat2 V c).before 1 t d = iblk2 V c 1 t) ∧
    (∀ d, (dat2 V c).before 2 t d = iblk2 V c 2 t) ∧
    (∀ d, (dat2 V c).before 3 t d = iblk2 V c 3 t) ∧
    (∀ d, (dat2 V c).before 4 t d = iblk2 V c 4 t) ∧
    (∀ d, (dat2 V c).before 5 t d = iblk2 V c 5 t) := by
  refine ⟨?_, ?_, ?_, ?_, ?_, ?_⟩ <;> exact (dat2 V c).before_in_eq_fetched _ rfl (fun _ => rfl) (fun _ _ _ => rfl) (fun _ => rfl) t

-- The body's triple at the point's blocks; the invariant and the debts pass through untouched.
theorem body_obligation2 (c : Dev nD) : BodyObligation (dat2 (F := F) V c) (defs₀ (F := F)) Variants.none () Set.univ := fun t => by
  rw [bigSep_W2, bigSep_W2]
  refine (?_ : iprop((?R : sProp 𝕄) ∗ ?O ∗ ?P) ⊢ wp frame (wpE (defs₀ (F := F)) Variants.none c none) Set.univ (bodyAt2 t) fun _ => iprop(?R ∗ ?O
        ∗ owns c (st2_0 t) fullShare (iblk2 V c 0 t)
        ∗ owns c (st2_1 t) fullShare (iblk2 V c 1 t)
        ∗ owns c (st2_2 t) fullShare (iblk2 V c 2 t)
        ∗ owns c (st2_3 t) fullShare (iblk2 V c 3 t)
        ∗ owns c (st2_4 t) fullShare (iblk2 V c 4 t)
        ∗ owns c (st2_5 t) fullShare (iblk2 V c 5 t)
        ∗ owns c (st2_6 t) fullShare ((dat2 V c).after 6 t)))
  simp only [before2 V c t, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel2
  iframe
  isplitl [H6]; · iexists _; iexact H6
  iintro ⟨H0, H1, H2, H3, H4, H5, H6⟩
  iframe

end Cert.Kernel.Hand
-- ==== Proof.K.Reg3.lean ====
import proofs.«400867_j53901839564968_2_alg».proof.Proof.K.Reg2
noncomputable section
namespace Cert.Kernel.Hand
open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a : Rect S5000x64 := Rect.unit (s := S5000x64) ![0, 0] S5000x64.size inb_S5000x64_S5000x64_0_0
abbrev r3_b : Rect S64x64 := Rect.unit (s := S64x64) ![0, 0] S64x64.size inb_S64x64_S64x64_0_0
abbrev r3_c : Rect S1x64 := Rect.unit (s := S1x64) ![0, 0] S1x64.size inb_S1x64_S1x64_0_0

def out3_6 (x0 x1 : Vec F S5000x64 .f32) (x2 : Vec F S64x64 .f32) (x3 : Vec F S1x64 .f32) (x4 : Vec F S64x64 .f32)
    (x5 : Vec F S1x64 .f32) : Vec F S5000x64 .f32 :=
  View.canon [⟨r3_a, k3_pay1 (View.ld x0 r3_a) (View.ld x1 r3_a) (View.ld x2 r3_b) (View.ld x3 r3_c) (View.ld x4 r3_b) (View.ld x5 r3_c)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t =
    out3_6 (iblk3 V c 0 t) (iblk3 V c 1 t) (iblk3 V c 2 t) (iblk3 V c 3 t) (iblk3 V c 4 t) (iblk3 V c 5 t) := by dsimp only [dat3]

theorem before3 (c : Dev nD) (t : Fin cfg3.N) :
    (∀ d, (dat3 V c).before 0 t d = iblk3 V c 0 t) ∧
    (∀ d, (dat3 V c).before 1 t d = iblk3 V c 1 t) ∧
    (∀ d, (dat3 V c).before 2 t d = iblk3 V c 2 t) ∧
    (∀ d, (dat3 V c).before 3 t d = iblk3 V c 3 t) ∧
    (∀ d, (dat3 V c).before 4 t d = iblk3 V c 4 t) ∧
    (∀ d, (dat3 V c).before 5 t d = iblk3 V c 5 t) := by
  refine ⟨?_, ?_, ?_, ?_, ?_, ?_⟩ <;> exact (dat3 V c).before_in_eq_fetched _ rfl (fun _ => rfl) (fun _ _ _ => rfl) (fun _ => rfl) t

-- The body's triple at the point's blocks (the layers run one program: region 2's triple); the invariant and the debts pass through untouched.
theorem body_obligation3 (c : Dev nD) : BodyObligation (dat3 (F := F) V c) (defs₀ (F := F)) Variants.none () Set.univ := fun t => by
  rw [bigSep_W3, bigSep_W3]
  refine (?_ : iprop((?R : sProp 𝕄) ∗ ?O ∗ ?P) ⊢ wp frame (wpE (defs₀ (F := F)) Variants.none c none) Set.univ (bodyAt3 t) fun _ => iprop(?R ∗ ?O
        ∗ owns c (st3_0 t) fullShare (iblk3 V c 0 t)
        ∗ owns c (st3_1 t) fullShare (iblk3 V c 1 t)
        ∗ owns c (st3_2 t) fullShare (iblk3 V c 2 t)
        ∗ owns c (st3_3 t) fullShare (iblk3 V c 3 t)
        ∗ owns c (st3_4 t) fullShare (iblk3 V c 4 t)
        ∗ owns c (st3_5 t) fullShare (iblk3 V c 5 t)
        ∗ owns c (st3_6 t) fullShare ((dat3 V c).after 6 t)))
  simp only [before3 V c t, after3_6, bodyAt3,
    show cc3__gin_layer_kernel (F := F) = cc2__gin_layer_kernel (F := F) from rfl, show out3_6 (F := F) = out2_6 (F := F) from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel2
  iframe
  isplitl [H6]; · iexists _; iexact H6
  iintro ⟨H0, H1, H2, H3, H4, H5, H6⟩
  iframe

end Cert.Kernel.Hand
-- ==== Proof.K.Reg4.lean ====
import proofs.«400867_j53901839564968_2_alg».proof.Proof.K.Reg2
noncomputable section
namespace Cert.Kernel.Hand
open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_a : Rect S5000x64 := Rect.unit (s := S5000x64) ![0, 0] S5000x64.size inb_S5000x64_S5000x64_0_0
abbrev r4_b : Rect S64x64 := Rect.unit (s := S64x64) ![0, 0] S64x64.size inb_S64x64_S64x64_0_0
abbrev r4_c : Rect S1x64 := Rect.unit (s := S1x64) ![0, 0] S1x64.size inb_S1x64_S1x64_0_0

def out4_6 (x0 x1 : Vec F S5000x64 .f32) (x2 : Vec F S64x64 .f32) (x3 : Vec F S1x64 .f32) (x4 : Vec F S64x64 .f32)
    (x5 : Vec F S1x64 .f32) : Vec F S5000x64 .f32 :=
  View.canon [⟨r4_a, k4_pay1 (View.ld x0 r4_a) (View.ld x1 r4_a) (View.ld x2 r4_b) (View.ld x3 r4_c) (View.ld x4 r4_b) (View.ld x5 r4_c)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_6 (c : Dev nD) (t : Fin cfg4.N) : (dat4 V c).after 6 t =
    out4_6 (iblk4 V c 0 t) (iblk4 V c 1 t) (iblk4 V c 2 t) (iblk4 V c 3 t) (iblk4 V c 4 t) (iblk4 V c 5 t) := by dsimp only [dat4]

theorem before4 (c : Dev nD) (t : Fin cfg4.N) :
    (∀ d, (dat4 V c).before 0 t d = iblk4 V c 0 t) ∧
    (∀ d, (dat4 V c).before 1 t d = iblk4 V c 1 t) ∧
    (∀ d, (dat4 V c).before 2 t d = iblk4 V c 2 t) ∧
    (∀ d, (dat4 V c).before 3 t d = iblk4 V c 3 t) ∧
    (∀ d, (dat4 V c).before 4 t d = iblk4 V c 4 t) ∧
    (∀ d, (dat4 V c).before 5 t d = iblk4 V c 5 t) := by
  refine ⟨?_, ?_, ?_, ?_, ?_, ?_⟩ <;> exact (dat4 V c).before_in_eq_fetched _ rfl (fun _ => rfl) (fun _ _ _ => rfl) (fun _ => rfl) t

-- The body's triple at the point's blocks (the layers run one program: region 2's triple); the invariant and the debts pass through untouched.
theorem body_obligation4 (c : Dev nD) : BodyObligation (dat4 (F := F) V c) (defs₀ (F := F)) Variants.none () Set.univ := fun t => by
  rw [bigSep_W4, bigSep_W4]
  refine (?_ : iprop((?R : sProp 𝕄) ∗ ?O ∗ ?P) ⊢ wp frame (wpE (defs₀ (F := F)) Variants.none c none) Set.univ (bodyAt4 t) fun _ => iprop(?R ∗ ?O
        ∗ owns c (st4_0 t) fullShare (iblk4 V c 0 t)
        ∗ owns c (st4_1 t) fullShare (iblk4 V c 1 t)
        ∗ owns c (st4_2 t) fullShare (iblk4 V c 2 t)
        ∗ owns c (st4_3 t) fullShare (iblk4 V c 3 t)
        ∗ owns c (st4_4 t) fullShare (iblk4 V c 4 t)
        ∗ owns c (st4_5 t) fullShare (iblk4 V c 5 t)
        ∗ owns c (st4_6 t) fullShare ((dat4 V c).after 6 t)))
  simp only [before4 V c t, after4_6, bodyAt4,
    show cc4__gin_layer_kernel (F := F) = cc2__gin_layer_kernel (F := F) from rfl, show out4_6 (F := F) = out2_6 (F := F) from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel2
  iframe
  isplitl [H6]; · iexists _; iexact H6
  iintro ⟨H0, H1, H2, H3, H4, H5, H6⟩
  iframe

end Cert.Kernel.Hand
-- ==== Proof.K.Reg5.lean ====
import proofs.«400867_j53901839564968_2_alg».proof.Proof.K.Reg2
noncomputable section
namespace Cert.Kernel.Hand
open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_a : Rect S5000x64 := Rect.unit (s := S5000x64) ![0, 0] S5000x64.size inb_S5000x64_S5000x64_0_0
abbrev r5_b : Rect S64x64 := Rect.unit (s := S64x64) ![0, 0] S64x64.size inb_S64x64_S64x64_0_0
abbrev r5_c : Rect S1x64 := Rect.unit (s := S1x64) ![0, 0] S1x64.size inb_S1x64_S1x64_0_0

def out5_6 (x0 x1 : Vec F S5000x64 .f32) (x2 : Vec F S64x64 .f32) (x3 : Vec F S1x64 .f32) (x4 : Vec F S64x64 .f32)
    (x5 : Vec F S1x64 .f32) : Vec F S5000x64 .f32 :=
  View.canon [⟨r5_a, k5_pay1 (View.ld x0 r5_a) (View.ld x1 r5_a) (View.ld x2 r5_b) (View.ld x3 r5_c) (View.ld x4 r5_b) (View.ld x5 r5_c)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_6 (c : Dev nD) (t : Fin cfg5.N) : (dat5 V c).after 6 t =
    out5_6 (iblk5 V c 0 t) (iblk5 V c 1 t) (iblk5 V c 2 t) (iblk5 V c 3 t) (iblk5 V c 4 t) (iblk5 V c 5 t) := by dsimp only [dat5]

theorem before5 (c : Dev nD) (t : Fin cfg5.N) :
    (∀ d, (dat5 V c).before 0 t d = iblk5 V c 0 t) ∧
    (∀ d, (dat5 V c).before 1 t d = iblk5 V c 1 t) ∧
    (∀ d, (dat5 V c).before 2 t d = iblk5 V c 2 t) ∧
    (∀ d, (dat5 V c).before 3 t d = iblk5 V c 3 t) ∧
    (∀ d, (dat5 V c).before 4 t d = iblk5 V c 4 t) ∧
    (∀ d, (dat5 V c).before 5 t d = iblk5 V c 5 t) := by
  refine ⟨?_, ?_, ?_, ?_, ?_, ?_⟩ <;> exact (dat5 V c).before_in_eq_fetched _ rfl (fun _ => rfl) (fun _ _ _ => rfl) (fun _ => rfl) t

-- The body's triple at the point's blocks (the layers run one program: region 2's triple); the invariant and the debts pass through untouched.
theorem body_obligation5 (c : Dev nD) : BodyObligation (dat5 (F := F) V c) (defs₀ (F := F)) Variants.none () Set.univ := fun t => by
  rw [bigSep_W5, bigSep_W5]
  refine (?_ : iprop((?R : sProp 𝕄) ∗ ?O ∗ ?P) ⊢ wp frame (wpE (defs₀ (F := F)) Variants.none c none) Set.univ (bodyAt5 t) fun _ => iprop(?R ∗ ?O
        ∗ owns c (st5_0 t) fullShare (iblk5 V c 0 t)
        ∗ owns c (st5_1 t) fullShare (iblk5 V c 1 t)
        ∗ owns c (st5_2 t) fullShare (iblk5 V c 2 t)
        ∗ owns c (st5_3 t) fullShare (iblk5 V c 3 t)
        ∗ owns c (st5_4 t) fullShare (iblk5 V c 4 t)
        ∗ owns c (st5_5 t) fullShare (iblk5 V c 5 t)
        ∗ owns c (st5_6 t) fullShare ((dat5 V c).after 6 t)))
  simp only [before5 V c t, after5_6, bodyAt5,
    show cc5__gin_layer_kernel (F := F) = cc2__gin_layer_kernel (F := F) from rfl, show out5_6 (F := F) = out2_6 (F := F) from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel2
  iframe
  isplitl [H6]; · iexists _; iexact H6
  iintro ⟨H0, H1, H2, H3, H4, H5, H6⟩
  iframe

end Cert.Kernel.Hand
-- ==== Proof.K.Reg6Runs.lean ====
import proofs.«400867_j53901839564968_2_alg».proof.Proof.Gen.Kernel.Launch
import proofs.«400867_j53901839564968_2_alg».proof.Proof.Gen.Kernel.Skeleton
import proofs.«400867_j53901839564968_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

abbrev cond6_0 (i : grid6.Coords) : Prop :=
  (Scalar.cmpi .ne (Scalar.extui (Scalar.cmpi .eq (BitVec.ofNat 32 (i 0).val) 0#32)) 0#32) = 1#1

theorem hcond6_0 : ∀ t : Fin cfg6.N, cond6_0 (grid6.coords t) ↔ t.val = 0 :=
  (by decide +kernel : ∀ t : Fin grid6.N, cond6_0 (grid6.coords t) ↔ t.val = 0)

abbrev cond6_1 (i : grid6.Coords) : Prop := k6_cond2 i = 1#1

theorem hcond6_1 : ∀ t : Fin cfg6.N, cond6_1 (grid6.coords t) ↔ t.val = 24 :=
  (by decide +kernel : ∀ t : Fin grid6.N, cond6_1 (grid6.coords t) ↔ t.val = 24)

theorem idleAt6_14 : ∀ t : Fin cfg6.N, ¬cond6_1 (grid6.coords t) → cfg6.idle 14 (grid6.coords t) = true := by decide +kernel

theorem noFlush6_14 : ∀ t : Fin cfg6.N, ¬cond6_1 (grid6.coords t) → (cfg6.win 14).flush t = false := by decide +kernel

theorem liveAt6_14 : ∀ t : Fin cfg6.N, cond6_1 (grid6.coords t) → cfg6.idle 14 (grid6.coords t) = false := by decide +kernel

abbrev VO6_14 : View sig .tc .vmem S128x10 .f32 := (Memref.whole cc6_stg14_0 : Memref sig .tc .vmem S128x10 .f32).view

abbrev scM6_0 : Memref sig .tc .vmem S128x64 .f32 := Memref.whole cc6_scratch0

abbrev VS6_0 : View sig .tc .vmem S128x64 .f32 := scM6_0.view
theorem hscM6_0 : (scM6_0).IsWhole := Memref.isWhole_whole _

theorem PhiA6_eq (c : Dev nD) :
    (Pipeline.ΦA spec6 c : sProp 𝕄)
      = iprop(iprop(iprop((∃ d, owns (c : Thread nD τ) scM6_0 fullShare d))
            ∗ Pipeline.scopedRestBut (Ix := Unit) (Name := ℕ) (U := UR sig nD τ) (Lvl := ℕ) (Val := Elt F) spec6 c [cc6_scratch0])
          ∗ (∃ r, prngReg c r)) := by
  unfold Pipeline.ΦA; rw [scopedRest6_split]; simp only [scM6_0, owns_whole]; try rfl

theorem owns_wu {sp : Space} {sh : Shape} {e : EltTy} (c : Dev nD) {m : Memref sig .tc sp sh e} (h : m.IsWhole) (q : PosShare TreeShare)
    (X : sh.Idx → Elt F e) : (owns (c : Thread nD τ) m q X : sProp 𝕄) = (m.view.loc (c : Thread nD τ) ↦[m.view.set]{q} h.unread X) := by
  unfold owns
  have h₁ : iprop(∃ f, ⌜m.view.read (Elt F) f = X⌝ ∗ (m.view.loc (c : Thread nD τ) ↦[m.view.set]{q} f)) ⊢ (m.view.loc (c : Thread nD τ) ↦[m.view.set]{q} h.unread X : sProp 𝕄) := by
    iintro ⟨%f, %hf, H⟩; obtain rfl := h.eq_unread hf; iexact H
  have h₂ : (m.view.loc (c : Thread nD τ) ↦[m.view.set]{q} h.unread X : sProp 𝕄) ⊢ iprop(∃ f, ⌜m.view.read (Elt F) f = X⌝ ∗ (m.view.loc (c : Thread nD τ) ↦[m.view.set]{q} f)) := by
    iintro H; iexists _; isplitr; · ipureintro; exact h.read_unread _
    iexact H
  exact BI.equiv_iff.mp ⟨h₁, h₂⟩

end Cert.Kernel.Hand
end
-- ==== Proof.K.Reg6RunA.lean ====
import proofs.«400867_j53901839564968_2_alg».proof.Proof.K.Reg6Runs
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 4000000 in

noncomputable def kernelRun6_A (c : Dev nD) (i : grid6.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S320x64 .f32) (harg6 : arg6.IsWhole) (arg7 : Memref sig .tc .vmem S1x64 .f32) (harg7 : arg7.IsWhole) (arg8 : Memref sig .tc .vmem S2000x1 .i32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S64x10 .f32) (harg13 : arg13.IsWhole) (arg14 : Memref sig .tc .vmem S1x10 .f32) (harg14 : arg14.IsWhole) (arg15 : Memref sig .tc .vmem S128x10 .f32) (harg15 : arg15.IsWhole) (arg16 : Memref sig .tc .vmem S128x64 .f32) (harg16 : arg16.IsWhole) (hc0 : cond6_0 i) (hc1 : ¬cond6_1 i)
    (x0 x1 x2 x3 x4 : Vec F S2000x64 .f32) (x5 : Vec F S320x64 .f32) (x6 : Vec F S1x64 .f32) (x7 : Vec F S2000x1 .i32) (x8 : Vec F S64x64 .f32) (x9 x10 x11 : Vec F S1x64 .f32) (x12 : Vec F S64x10 .f32) (x13 : Vec F S1x10 .f32) :
    Σ' (L14 : List (View.Piece (Elt F) S128x10 .f32)), { LS0 : List (View.Piece (Elt F) S128x64 .f32) //
      ∀ (xi14 : Vec F S128x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ f, arg16.view.loc (c : Thread nD τ) ↦[arg16.view.set]{fullShare} arg16.view.writes (Elt F) f LS0)) -∗ K ⟨⟩))
          ⊢ wp frame (wpE (defs₀ (F := F)) Variants.none c none) E (cc6__jk_pool_clf_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, fun xi14 E K => ?run⟩
  case run =>
    simp only [owns_wu c harg1, owns_wu c harg2, owns_wu c harg3, owns_wu c harg4, owns_wu c harg5, owns_wu c harg6, owns_wu c harg7, owns_wu c harg8, owns_wu c harg9, owns_wu c harg10, owns_wu c harg11, owns_wu c harg12, owns_wu c harg13, owns_wu c harg14, owns_wu c harg15, owns_wu c harg16]
    simp only [cc6__jk_pool_clf_kernel_eq_skeleton]; unfold cc6__jk_pool_clf_kernel_skel
    simp only [k6_part2_eq_skeleton]; unfold k6_part2_skel
    iintro ⟨H0, H1, H2, H3, H4, H5, H6, H7, H8, H9, H10, H11, H12, H13, H14, ⟨%d, HS0⟩, Hk⟩
    sl_exec (disch := first | exact hc0 | exact hc1)
    sl_step
    iapply Hk
    iframe H0 H1 H2 H3 H4 H5 H6 H7 H8 H9 H10 H11 H12 H13 H14
    iexists _; iexact HS0

end Cert.Kernel.Hand
end
-- ==== Proof.K.Reg6RunB.lean ====
import proofs.«400867_j53901839564968_2_alg».proof.Proof.K.Reg6RunA
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 4000000 in

noncomputable def kernelRun6_B (c : Dev nD) (i : grid6.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S320x64 .f32) (harg6 : arg6.IsWhole) (arg7 : Memref sig .tc .vmem S1x64 .f32) (harg7 : arg7.IsWhole) (arg8 : Memref sig .tc .vmem S2000x1 .i32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S64x10 .f32) (harg13 : arg13.IsWhole) (arg14 : Memref sig .tc .vmem S1x10 .f32) (harg14 : arg14.IsWhole) (arg15 : Memref sig .tc .vmem S128x10 .f32) (harg15 : arg15.IsWhole) (arg16 : Memref sig .tc .vmem S128x64 .f32) (harg16 : arg16.IsWhole) (hc0 : ¬cond6_0 i) (hc1 : ¬cond6_1 i)
    (x0 x1 x2 x3 x4 : Vec F S2000x64 .f32) (x5 : Vec F S320x64 .f32) (x6 : Vec F S1x64 .f32) (x7 : Vec F S2000x1 .i32) (x8 : Vec F S64x64 .f32) (x9 x10 x11 : Vec F S1x64 .f32) (x12 : Vec F S64x10 .f32) (x13 : Vec F S1x10 .f32) (xs0 : Vec F S128x64 .f32) :
    Σ' (L14 : List (View.Piece (Elt F) S128x10 .f32)), { LS0 : List (View.Piece (Elt F) S128x64 .f32) //
      ∀ (xi14 : Vec F S128x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ owns (c : Thread nD τ) arg16 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ f, arg16.view.loc (c : Thread nD τ) ↦[arg16.view.set]{fullShare} arg16.view.writes (Elt F) f LS0)) -∗ K ⟨⟩))
          ⊢ wp frame (wpE (defs₀ (F := F)) Variants.none c none) E (cc6__jk_pool_clf_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, fun xi14 E K => ?run⟩
  case run =>
    simp only [owns_wu c harg1, owns_wu c harg2, owns_wu c harg3, owns_wu c harg4, owns_wu c harg5, owns_wu c harg6, owns_wu c harg7, owns_wu c harg8, owns_wu c harg9, owns_wu c harg10, owns_wu c harg11, owns_wu c harg12, owns_wu c harg13, owns_wu c harg14, owns_wu c harg15, owns_wu c harg16]
    simp only [cc6__jk_pool_clf_kernel_eq_skeleton]; unfold cc6__jk_pool_clf_kernel_skel
    simp only [k6_part2_eq_skeleton]; unfold k6_part2_skel
    iintro ⟨H0, H1, H2, H3, H4, H5, H6, H7, H8, H9, H10, H11, H12, H13, H14, HS0, Hk⟩
    sl_exec (disch := first | exact hc0 | exact hc1)
    sl_step
    iapply Hk
    iframe H0 H1 H2 H3 H4 H5 H6 H7 H8 H9 H10 H11 H12 H13 H14
    iexists _; iexact HS0

end Cert.Kernel.Hand
end
-- ==== Proof.K.Reg6RunC.lean ====
import proofs.«400867_j53901839564968_2_alg».proof.Proof.K.Reg6RunB
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 4000000 in

noncomputable def kernelRun6_C (c : Dev nD) (i : grid6.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S320x64 .f32) (harg6 : arg6.IsWhole) (arg7 : Memref sig .tc .vmem S1x64 .f32) (harg7 : arg7.IsWhole) (arg8 : Memref sig .tc .vmem S2000x1 .i32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S64x10 .f32) (harg13 : arg13.IsWhole) (arg14 : Memref sig .tc .vmem S1x10 .f32) (harg14 : arg14.IsWhole) (arg15 : Memref sig .tc .vmem S128x10 .f32) (harg15 : arg15.IsWhole) (arg16 : Memref sig .tc .vmem S128x64 .f32) (harg16 : arg16.IsWhole) (hc0 : ¬cond6_0 i) (hc1 : cond6_1 i)
    (x0 x1 x2 x3 x4 : Vec F S2000x64 .f32) (x5 : Vec F S320x64 .f32) (x6 : Vec F S1x64 .f32) (x7 : Vec F S2000x1 .i32) (x8 : Vec F S64x64 .f32) (x9 x10 x11 : Vec F S1x64 .f32) (x12 : Vec F S64x10 .f32) (x13 : Vec F S1x10 .f32) (xs0 : Vec F S128x64 .f32) :
    Σ' (L14 : List (View.Piece (Elt F) S128x10 .f32)), { LS0 : List (View.Piece (Elt F) S128x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg16 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LS0)) -∗ K ⟨⟩))
          ⊢ wp frame (wpE (defs₀ (F := F)) Variants.none c none) E (cc6__jk_pool_clf_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [owns_wu c harg1, owns_wu c harg2, owns_wu c harg3, owns_wu c harg4, owns_wu c harg5, owns_wu c harg6, owns_wu c harg7, owns_wu c harg8, owns_wu c harg9, owns_wu c harg10, owns_wu c harg11, owns_wu c harg12, owns_wu c harg13, owns_wu c harg14, owns_wu c harg15, owns_wu c harg16]
    simp only [cc6__jk_pool_clf_kernel_eq_skeleton]; unfold cc6__jk_pool_clf_kernel_skel
    simp only [k6_part2_eq_skeleton, k6_part1_eq_skeleton]; unfold k6_part2_skel k6_part1_skel
    iintro ⟨H0, H1, H2, H3, H4, H5, H6, H7, H8, H9, H10, H11, H12, H13, ⟨%d, H14⟩, HS0, Hk⟩
    sl_exec (disch := first | exact hc0 | exact hc1)
    sl_step
    iapply Hk
    iframe H0 H1 H2 H3 H4 H5 H6 H7 H8 H9 H10 H11 H12 H13
    isplitl [H14]; · iexists _; iexact H14
    iexists _; iexact HS0

end Cert.Kernel.Hand
end
-- ==== Proof.K.Reg6Outs.lean ====
import proofs.«400867_j53901839564968_2_alg».proof.Proof.K.Reg6RunC
import Idealize.ShloMosaic.Lib.Pipeline.Value
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

theorem hz6 : (![0, 0] : Fin 2 → Nat) = fun _ => 0 := funext fun a => by fin_cases a <;> rfl

def acc6 (x0 x1 x2 x3 x4 : Vec F S2000x64 .f32) (x5 : Vec F S320x64 .f32) (x6 : Vec F S1x64 .f32) (x7 : Vec F S2000x1 .i32)
    (s : Vec F S128x64 .f32) : Vec F S128x64 .f32 :=
  k6_pay1 (k6_pay6 x5 x0 x1 x2 x3) (k6_pay7 x4) (k6_pay8 x5) (constant S2000x64 .f32 0x00000000#32) x6 x7 s

def clf6 (s : Vec F S128x64 .f32) (x8 : Vec F S64x64 .f32) (x9 x10 x11 : Vec F S1x64 .f32) (x12 : Vec F S64x10 .f32)
    (x13 : Vec F S1x10 .f32) : Vec F S128x10 .f32 :=
  k6_pay2 (k6_pay3 x12) (k6_pay4 s x8 x9 x10 x11) (constant S128x10 .f32 0x00000000#32) x13

variable (c : Dev nD) (i : grid6.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S320x64 .f32) (harg6 : arg6.IsWhole) (arg7 : Memref sig .tc .vmem S1x64 .f32) (harg7 : arg7.IsWhole) (arg8 : Memref sig .tc .vmem S2000x1 .i32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S64x10 .f32) (harg13 : arg13.IsWhole) (arg14 : Memref sig .tc .vmem S1x10 .f32) (harg14 : arg14.IsWhole) (arg15 : Memref sig .tc .vmem S128x10 .f32) (harg15 : arg15.IsWhole) (arg16 : Memref sig .tc .vmem S128x64 .f32) (harg16 : arg16.IsWhole)

section
variable (hc0 : cond6_0 i) (hc1 : ¬cond6_1 i) (x0 x1 x2 x3 x4 : Vec F S2000x64 .f32) (x5 : Vec F S320x64 .f32) (x6 : Vec F S1x64 .f32) (x7 : Vec F S2000x1 .i32) (x8 : Vec F S64x64 .f32) (x9 x10 x11 : Vec F S1x64 .f32) (x12 : Vec F S64x10 .f32) (x13 : Vec F S1x10 .f32)

def out6_A_14 : Vec F S128x10 .f32 :=
  VO6_14.read (Elt F) (VO6_14.writes (Elt F) VO6_14.junk (kernelRun6_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13).1)

theorem scover6_A_0 (y : S128x64.Idx) : ∃ pc ∈ (kernelRun6_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13).2.1, y ∈ pc.1.set :=
  View.cover_of_tiledL _ S128x64.size (by sl_kernel_rfl) y

def sout6_A_0 : Vec F S128x64 .f32 :=
  VS6_0.read (Elt F) (VS6_0.writes (Elt F) VS6_0.junk (kernelRun6_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13).2.1)

theorem sout6_A_eq : sout6_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 = acc6 x0 x1 x2 x3 x4 x5 x6 x7 (k6_pay5 (F := F)) := by
  unfold sout6_A_0
  rw [View.read_writes_eq_canon _ _ _ (fun y => scover6_A_0 (y := y) ..)]
  unfold kernelRun6_A
  dsimp only
  try sl_unfold_run_names
  rw [View.canon_cons_unit_zero hz6]
  simp only [View.readCov_unit_zero (S := S128x64) _ hz6]
  simp only [View.readAt_eq_ld, Memref.IsWhole.read_unread, View.ld_unit_zero (S := S2000x64) hz6, View.ld_unit_zero (S := S320x64) hz6, View.ld_unit_zero (S := S1x64) hz6, View.ld_unit_zero (S := S2000x1) hz6, View.ld_unit_zero (S := S64x64) hz6, View.ld_unit_zero (S := S64x10) hz6, View.ld_unit_zero (S := S1x10) hz6, View.ld_unit_zero (S := S128x10) hz6, View.ld_unit_zero (S := S128x64) hz6]
  rfl

end

section
variable (hc0 : ¬cond6_0 i) (hc1 : ¬cond6_1 i) (x0 x1 x2 x3 x4 : Vec F S2000x64 .f32) (x5 : Vec F S320x64 .f32) (x6 : Vec F S1x64 .f32) (x7 : Vec F S2000x1 .i32) (x8 : Vec F S64x64 .f32) (x9 x10 x11 : Vec F S1x64 .f32) (x12 : Vec F S64x10 .f32) (x13 : Vec F S1x10 .f32) (xs0 : Vec F S128x64 .f32)

def out6_B_14 : Vec F S128x10 .f32 :=
  VO6_14.read (Elt F) (VO6_14.writes (Elt F) VO6_14.junk (kernelRun6_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).1)

theorem scover6_B_0 (y : S128x64.Idx) : ∃ pc ∈ (kernelRun6_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).2.1, y ∈ pc.1.set :=
  View.cover_of_tiledL _ S128x64.size (by sl_kernel_rfl) y

def sout6_B_0 : Vec F S128x64 .f32 :=
  VS6_0.read (Elt F) (VS6_0.writes (Elt F) VS6_0.junk (kernelRun6_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).2.1)

theorem sout6_B_eq : sout6_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0 = acc6 x0 x1 x2 x3 x4 x5 x6 x7 xs0 := by
  unfold sout6_B_0
  rw [View.read_writes_eq_canon _ _ _ (fun y => scover6_B_0 (y := y) ..)]
  unfold kernelRun6_B
  dsimp only
  try sl_unfold_run_names
  rw [View.canon_unit_zero hz6]
  simp only [View.readAt_eq_ld, Memref.IsWhole.read_unread, View.ld_unit_zero (S := S2000x64) hz6, View.ld_unit_zero (S := S320x64) hz6, View.ld_unit_zero (S := S1x64) hz6, View.ld_unit_zero (S := S2000x1) hz6, View.ld_unit_zero (S := S64x64) hz6, View.ld_unit_zero (S := S64x10) hz6, View.ld_unit_zero (S := S1x10) hz6, View.ld_unit_zero (S := S128x10) hz6, View.ld_unit_zero (S := S128x64) hz6]
  rfl

end

section
variable (hc0 : ¬cond6_0 i) (hc1 : cond6_1 i) (x0 x1 x2 x3 x4 : Vec F S2000x64 .f32) (x5 : Vec F S320x64 .f32) (x6 : Vec F S1x64 .f32) (x7 : Vec F S2000x1 .i32) (x8 : Vec F S64x64 .f32) (x9 x10 x11 : Vec F S1x64 .f32) (x12 : Vec F S64x10 .f32) (x13 : Vec F S1x10 .f32) (xs0 : Vec F S128x64 .f32)

theorem cover6_C_14 (y : S128x10.Idx) : ∃ pc ∈ (kernelRun6_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).1, y ∈ pc.1.set :=
  View.cover_of_tiledL _ S128x10.size (by sl_kernel_rfl) y

def out6_C_14 : Vec F S128x10 .f32 :=
  VO6_14.read (Elt F) (VO6_14.writes (Elt F) VO6_14.junk (kernelRun6_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).1)

theorem scover6_C_0 (y : S128x64.Idx) : ∃ pc ∈ (kernelRun6_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).2.1, y ∈ pc.1.set :=
  View.cover_of_tiledL _ S128x64.size (by sl_kernel_rfl) y

def sout6_C_0 : Vec F S128x64 .f32 :=
  VS6_0.read (Elt F) (VS6_0.writes (Elt F) VS6_0.junk (kernelRun6_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).2.1)

theorem sout6_C_eq : sout6_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0 = acc6 x0 x1 x2 x3 x4 x5 x6 x7 xs0 := by
  unfold sout6_C_0
  rw [View.read_writes_eq_canon _ _ _ (fun y => scover6_C_0 (y := y) ..)]
  unfold kernelRun6_C
  dsimp only
  try sl_unfold_run_names
  rw [View.canon_unit_zero hz6]
  simp only [View.readAt_eq_ld, Memref.IsWhole.read_unread, View.ld_unit_zero (S := S2000x64) hz6, View.ld_unit_zero (S := S320x64) hz6, View.ld_unit_zero (S := S1x64) hz6, View.ld_unit_zero (S := S2000x1) hz6, View.ld_unit_zero (S := S64x64) hz6, View.ld_unit_zero (S := S64x10) hz6, View.ld_unit_zero (S := S1x10) hz6, View.ld_unit_zero (S := S128x10) hz6, View.ld_unit_zero (S := S128x64) hz6]
  rfl

theorem out6_C_eq : out6_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0 = clf6 (acc6 x0 x1 x2 x3 x4 x5 x6 x7 xs0) x8 x9 x10 x11 x12 x13 := by
  unfold out6_C_14
  rw [View.read_writes_eq_canon _ _ _ (fun y => cover6_C_14 (y := y) ..)]
  unfold kernelRun6_C
  dsimp only
  try sl_unfold_run_names
  rw [View.canon_unit_zero hz6]
  simp only [View.readCov_unit_zero (S := S128x64) _ hz6]
  simp only [View.readAt_eq_ld, Memref.IsWhole.read_unread, View.ld_unit_zero (S := S2000x64) hz6, View.ld_unit_zero (S := S320x64) hz6, View.ld_unit_zero (S := S1x64) hz6, View.ld_unit_zero (S := S2000x1) hz6, View.ld_unit_zero (S := S64x64) hz6, View.ld_unit_zero (S := S64x10) hz6, View.ld_unit_zero (S := S1x10) hz6, View.ld_unit_zero (S := S128x10) hz6, View.ld_unit_zero (S := S128x64) hz6]
  rfl

end

end Cert.Kernel.Hand
end
-- ==== Proof.K.Reg6.lean ====
import proofs.«400867_j53901839564968_2_alg».proof.Proof.Gen.Kernel.Launch
import proofs.«400867_j53901839564968_2_alg».proof.Proof.Gen.Kernel.Skeleton
import proofs.«400867_j53901839564968_2_alg».proof.Proof.Gen.Kernel.Points
import proofs.«400867_j53901839564968_2_alg».proof.Proof.K.Reg6Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b)) (c : Dev nD)

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

section
variable (t : Fin cfg6.N)
abbrev ms6_0 : Memref sig .tc .vmem S2000x64 .f32 := win6_0.stage (cfg6.slots t 0)
abbrev hs6_0 : (ms6_0 t).IsWhole := hstage6_0 ((cfg6.slots t 0).cast nbuf6_0)
abbrev ms6_1 : Memref sig .tc .vmem S2000x64 .f32 := win6_1.stage (cfg6.slots t 1)
abbrev hs6_1 : (ms6_1 t).IsWhole := hstage6_1 ((cfg6.slots t 1).cast nbuf6_1)
abbrev ms6_2 : Memref sig .tc .vmem S2000x64 .f32 := win6_2.stage (cfg6.slots t 2)
abbrev hs6_2 : (ms6_2 t).IsWhole := hstage6_2 ((cfg6.slots t 2).cast nbuf6_2)
abbrev ms6_3 : Memref sig .tc .vmem S2000x64 .f32 := win6_3.stage (cfg6.slots t 3)
abbrev hs6_3 : (ms6_3 t).IsWhole := hstage6_3 ((cfg6.slots t 3).cast nbuf6_3)
abbrev ms6_4 : Memref sig .tc .vmem S2000x64 .f32 := win6_4.stage (cfg6.slots t 4)
abbrev hs6_4 : (ms6_4 t).IsWhole := hstage6_4 ((cfg6.slots t 4).cast nbuf6_4)
abbrev ms6_5 : Memref sig .tc .vmem S320x64 .f32 := win6_5.stage (cfg6.slots t 5)
abbrev hs6_5 : (ms6_5 t).IsWhole := hstage6_5 ((cfg6.slots t 5).cast nbuf6_5)
abbrev ms6_6 : Memref sig .tc .vmem S1x64 .f32 := win6_6.stage (cfg6.slots t 6)
abbrev hs6_6 : (ms6_6 t).IsWhole := hstage6_6 ((cfg6.slots t 6).cast nbuf6_6)
abbrev ms6_7 : Memref sig .tc .vmem S2000x1 .i32 := win6_7.stage (cfg6.slots t 7)
abbrev hs6_7 : (ms6_7 t).IsWhole := hstage6_7 ((cfg6.slots t 7).cast nbuf6_7)
abbrev ms6_8 : Memref sig .tc .vmem S64x64 .f32 := win6_8.stage (cfg6.slots t 8)
abbrev hs6_8 : (ms6_8 t).IsWhole := hstage6_8 ((cfg6.slots t 8).cast nbuf6_8)
abbrev ms6_9 : Memref sig .tc .vmem S1x64 .f32 := win6_9.stage (cfg6.slots t 9)
abbrev hs6_9 : (ms6_9 t).IsWhole := hstage6_9 ((cfg6.slots t 9).cast nbuf6_9)
abbrev ms6_10 : Memref sig .tc .vmem S1x64 .f32 := win6_10.stage (cfg6.slots t 10)
abbrev hs6_10 : (ms6_10 t).IsWhole := hstage6_10 ((cfg6.slots t 10).cast nbuf6_10)
abbrev ms6_11 : Memref sig .tc .vmem S1x64 .f32 := win6_11.stage (cfg6.slots t 11)
abbrev hs6_11 : (ms6_11 t).IsWhole := hstage6_11 ((cfg6.slots t 11).cast nbuf6_11)
abbrev ms6_12 : Memref sig .tc .vmem S64x10 .f32 := win6_12.stage (cfg6.slots t 12)
abbrev hs6_12 : (ms6_12 t).IsWhole := hstage6_12 ((cfg6.slots t 12).cast nbuf6_12)
abbrev ms6_13 : Memref sig .tc .vmem S1x10 .f32 := win6_13.stage (cfg6.slots t 13)
abbrev hs6_13 : (ms6_13 t).IsWhole := hstage6_13 ((cfg6.slots t 13).cast nbuf6_13)
abbrev ms6_14 : Memref sig .tc .vmem S128x10 .f32 := win6_14.stage (cfg6.slots t 14)
abbrev hs6_14 : (ms6_14 t).IsWhole := hstage6_14 ((cfg6.slots t 14).cast nbuf6_14)
end

def outA6 (t : Fin cfg6.N) (h0 : t.val = 0) (h1 : ¬t.val = 24) : Vec F S128x10 .f32 × Vec F S128x64 .f32 :=
    (out6_A_14 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t) (ms6_14 t) (hs6_14 t) scM6_0 hscM6_0 ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t),
      sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t) (ms6_14 t) (hs6_14 t) scM6_0 hscM6_0 ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t))

def outB6 (t : Fin cfg6.N) (h0 : ¬t.val = 0) (h1 : ¬t.val = 24) (s : Vec F S128x64 .f32) : Vec F S128x10 .f32 × Vec F S128x64 .f32 :=
    (out6_B_14 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t) (ms6_14 t) (hs6_14 t) scM6_0 hscM6_0 (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) s,
      sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t) (ms6_14 t) (hs6_14 t) scM6_0 hscM6_0 (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) s)

def outC6 (t : Fin cfg6.N) (h0 : ¬t.val = 0) (h1 : t.val = 24) (s : Vec F S128x64 .f32) : Vec F S128x10 .f32 × Vec F S128x64 .f32 :=
    (out6_C_14 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t) (ms6_14 t) (hs6_14 t) scM6_0 hscM6_0 (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) s,
      sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t) (ms6_14 t) (hs6_14 t) scM6_0 hscM6_0 (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) s)

def outsAt6 : (n : ℕ) → n < cfg6.N → Vec F S128x10 .f32 × Vec F S128x64 .f32
  | 0, hn => outA6 V c ⟨0, hn⟩ rfl (fun h => Nat.succ_ne_zero 23 h.symm)
  | n + 1, hn =>
    if h1 : n + 1 = 24 then outC6 V c ⟨n + 1, hn⟩ (Nat.succ_ne_zero n) h1 (outsAt6 n (Nat.lt_of_succ_lt hn)).2
    else outB6 V c ⟨n + 1, hn⟩ (Nat.succ_ne_zero n) h1 (outsAt6 n (Nat.lt_of_succ_lt hn)).2

theorem outsAt6_A (t : Fin cfg6.N) (h0 : t.val = 0) (h1 : ¬t.val = 24) :
    outsAt6 V c t.val t.isLt = (out6_A_14 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t) (ms6_14 t) (hs6_14 t) scM6_0 hscM6_0 ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t),
      sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t) (ms6_14 t) (hs6_14 t) scM6_0 hscM6_0 ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t)) := by
  obtain ⟨n, hn⟩ := t
  cases n with
  | zero => exact rfl
  | succ n => exact absurd h0 (Nat.succ_ne_zero n)

theorem outsAt6_B (t : Fin cfg6.N) (h0 : ¬t.val = 0) (h1 : ¬t.val = 24) :
    outsAt6 V c t.val t.isLt = (out6_B_14 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t) (ms6_14 t) (hs6_14 t) scM6_0 hscM6_0 (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (outsAt6 V c (t.val - 1) (Nat.lt_of_le_of_lt (Nat.sub_le _ _) t.isLt)).2,
      sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t) (ms6_14 t) (hs6_14 t) scM6_0 hscM6_0 (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (outsAt6 V c (t.val - 1) (Nat.lt_of_le_of_lt (Nat.sub_le _ _) t.isLt)).2) := by
  obtain ⟨n, hn⟩ := t
  cases n with
  | zero => exact absurd rfl h0
  | succ n => exact (dif_neg h1).trans rfl

theorem outsAt6_C (t : Fin cfg6.N) (h0 : ¬t.val = 0) (h1 : t.val = 24) :
    outsAt6 V c t.val t.isLt = (out6_C_14 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t) (ms6_14 t) (hs6_14 t) scM6_0 hscM6_0 (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (outsAt6 V c (t.val - 1) (Nat.lt_of_le_of_lt (Nat.sub_le _ _) t.isLt)).2,
      sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t) (ms6_14 t) (hs6_14 t) scM6_0 hscM6_0 (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (outsAt6 V c (t.val - 1) (Nat.lt_of_le_of_lt (Nat.sub_le _ _) t.isLt)).2) := by
  obtain ⟨n, hn⟩ := t
  cases n with
  | zero => exact absurd rfl h0
  | succ n => exact (dif_pos h1).trans rfl

def PhiS6 : (n : ℕ) → n ≤ cfg6.N → sProp 𝕄
  | 0, _ => Pipeline.ΦA spec6 c
  | n + 1, hn => iprop(iprop(owns (c : Thread nD τ) scM6_0 fullShare ((outsAt6 V c n hn).2) ∗ Pipeline.scopedRestBut (Ix := Unit) (Name := ℕ) (U := UR sig nD τ) (Lvl := ℕ) (Val := Elt F) spec6 c [cc6_scratch0]) ∗ (∃ r, prngReg c r))

theorem PhiS6_zero (n : ℕ) (h : n ≤ cfg6.N) (hz : n = 0) : PhiS6 V c n h = Pipeline.ΦA spec6 c := by
  subst hz; rfl

theorem PhiS6_succ (n : ℕ) (hn : n < cfg6.N) :
    PhiS6 V c (n + 1) hn = iprop(iprop(owns (c : Thread nD τ) scM6_0 fullShare ((outsAt6 V c n hn).2) ∗ Pipeline.scopedRestBut (Ix := Unit) (Name := ℕ) (U := UR sig nD τ) (Lvl := ℕ) (Val := Elt F) spec6 c [cc6_scratch0]) ∗ (∃ r, prngReg c r)) := rfl

theorem PhiS6_pos (n : ℕ) (h : n ≤ cfg6.N) (hz : n ≠ 0) :
    PhiS6 V c n h = iprop(iprop(owns (c : Thread nD τ) scM6_0 fullShare ((outsAt6 V c (n - 1) (by omega)).2) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

def dat6 : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => iblk6 V c 10 t
    | ⟨11, _⟩ => iblk6 V c 11 t
    | ⟨12, _⟩ => iblk6 V c 12 t
    | ⟨13, _⟩ => iblk6 V c 13 t
    | ⟨14, _⟩ => (outsAt6 V c t.val t.isLt).1
  Φ t := PhiS6 V c t.val (Nat.le_of_lt_succ t.isLt)
  q _ := fullShare
  owed _ := 0

theorem A_eq6 (w : Fin cfg6.W) : (dat6 V c).A w = V c (Pipeline.arrRef spec6 w) := by
  dsimp only [dat6]

theorem PhiS6_castSucc (t : Fin cfg6.N) :
    (dat6 V c).Φ t.castSucc = PhiS6 V c t.val (Nat.le_of_lt t.isLt) := by
  dsimp only [dat6]; simp only [Fin.coe_castSucc]

theorem after6_14 (t : Fin cfg6.N) : (dat6 V c).after 14 t = (outsAt6 V c t.val t.isLt).1 := by dsimp only [dat6]

theorem before6_0 (t : Fin cfg6.N) (d) : (dat6 V c).before 0 t d = iblk6 V c 0 t :=
  ((dat6 V c).before_in_eq_fetched 0 rfl (fun _ => rfl) (fun _ _ _ => rfl) (fun _ => rfl) t d).trans rfl
theorem before6_1 (t : Fin cfg6.N) (d) : (dat6 V c).before 1 t d = iblk6 V c 1 t :=
  ((dat6 V c).before_in_eq_fetched 1 rfl (fun _ => rfl) (fun _ _ _ => rfl) (fun _ => rfl) t d).trans rfl
theorem before6_2 (t : Fin cfg6.N) (d) : (dat6 V c).before 2 t d = iblk6 V c 2 t :=
  ((dat6 V c).before_in_eq_fetched 2 rfl (fun _ => rfl) (fun _ _ _ => rfl) (fun _ => rfl) t d).trans rfl
theorem before6_3 (t : Fin cfg6.N) (d) : (dat6 V c).before 3 t d = iblk6 V c 3 t :=
  ((dat6 V c).before_in_eq_fetched 3 rfl (fun _ => rfl) (fun _ _ _ => rfl) (fun _ => rfl) t d).trans rfl
theorem before6_4 (t : Fin cfg6.N) (d) : (dat6 V c).before 4 t d = iblk6 V c 4 t :=
  ((dat6 V c).before_in_eq_fetched 4 rfl (fun _ => rfl) (fun _ _ _ => rfl) (fun _ => rfl) t d).trans rfl
theorem before6_5 (t : Fin cfg6.N) (d) : (dat6 V c).before 5 t d = iblk6 V c 5 t :=
  ((dat6 V c).before_in_eq_fetched 5 rfl (fun _ => rfl) (fun _ _ _ => rfl) (fun _ => rfl) t d).trans rfl
theorem before6_6 (t : Fin cfg6.N) (d) : (dat6 V c).before 6 t d = iblk6 V c 6 t :=
  ((dat6 V c).before_in_eq_fetched 6 rfl (fun _ => rfl) (fun _ _ _ => rfl) (fun _ => rfl) t d).trans rfl
theorem before6_7 (t : Fin cfg6.N) (d) : (dat6 V c).before 7 t d = iblk6 V c 7 t :=
  ((dat6 V c).before_in_eq_fetched 7 rfl (fun _ => rfl) (fun _ _ _ => rfl) (fun _ => rfl) t d).trans rfl
theorem before6_8 (t : Fin cfg6.N) (d) : (dat6 V c).before 8 t d = iblk6 V c 8 t :=
  ((dat6 V c).before_in_eq_fetched 8 rfl (fun _ => rfl) (fun _ _ _ => rfl) (fun _ => rfl) t d).trans rfl
theorem before6_9 (t : Fin cfg6.N) (d) : (dat6 V c).before 9 t d = iblk6 V c 9 t :=
  ((dat6 V c).before_in_eq_fetched 9 rfl (fun _ => rfl) (fun _ _ _ => rfl) (fun _ => rfl) t d).trans rfl
theorem before6_10 (t : Fin cfg6.N) (d) : (dat6 V c).before 10 t d = iblk6 V c 10 t :=
  ((dat6 V c).before_in_eq_fetched 10 rfl (fun _ => rfl) (fun _ _ _ => rfl) (fun _ => rfl) t d).trans rfl
theorem before6_11 (t : Fin cfg6.N) (d) : (dat6 V c).before 11 t d = iblk6 V c 11 t :=
  ((dat6 V c).before_in_eq_fetched 11 rfl (fun _ => rfl) (fun _ _ _ => rfl) (fun _ => rfl) t d).trans rfl
theorem before6_12 (t : Fin cfg6.N) (d) : (dat6 V c).before 12 t d = iblk6 V c 12 t :=
  ((dat6 V c).before_in_eq_fetched 12 rfl (fun _ => rfl) (fun _ _ _ => rfl) (fun _ => rfl) t d).trans rfl
theorem before6_13 (t : Fin cfg6.N) (d) : (dat6 V c).before 13 t d = iblk6 V c 13 t :=
  ((dat6 V c).before_in_eq_fetched 13 rfl (fun _ => rfl) (fun _ _ _ => rfl) (fun _ => rfl) t d).trans rfl

set_option maxHeartbeats 8000000 in
theorem sound_body6 (t : Fin cfg6.N) :
    iprop((dat6 V c).Φ t.castSucc ∗ (dat6 V c).owesAt () t.castSucc
      ∗ (∃ d, owns (c : Thread nD τ) (ms6_0 t) fullShare ((dat6 V c).before 0 t d))
      ∗ (∃ d, owns (c : Thread nD τ) (ms6_1 t) fullShare ((dat6 V c).before 1 t d))
      ∗ (∃ d, owns (c : Thread nD τ) (ms6_2 t) fullShare ((dat6 V c).before 2 t d))
      ∗ (∃ d, owns (c : Thread nD τ) (ms6_3 t) fullShare ((dat6 V c).before 3 t d))
      ∗ (∃ d, owns (c : Thread nD τ) (ms6_4 t) fullShare ((dat6 V c).before 4 t d))
      ∗ (∃ d, owns (c : Thread nD τ) (ms6_5 t) fullShare ((dat6 V c).before 5 t d))
      ∗ (∃ d, owns (c : Thread nD τ) (ms6_6 t) fullShare ((dat6 V c).before 6 t d))
      ∗ (∃ d, owns (c : Thread nD τ) (ms6_7 t) fullShare ((dat6 V c).before 7 t d))
      ∗ (∃ d, owns (c : Thread nD τ) (ms6_8 t) fullShare ((dat6 V c).before 8 t d))
      ∗ (∃ d, owns (c : Thread nD τ) (ms6_9 t) fullShare ((dat6 V c).before 9 t d))
      ∗ (∃ d, owns (c : Thread nD τ) (ms6_10 t) fullShare ((dat6 V c).before 10 t d))
      ∗ (∃ d, owns (c : Thread nD τ) (ms6_11 t) fullShare ((dat6 V c).before 11 t d))
      ∗ (∃ d, owns (c : Thread nD τ) (ms6_12 t) fullShare ((dat6 V c).before 12 t d))
      ∗ (∃ d, owns (c : Thread nD τ) (ms6_13 t) fullShare ((dat6 V c).before 13 t d))
      ∗ (∃ d, owns (c : Thread nD τ) (ms6_14 t) fullShare ((dat6 V c).before 14 t d)))
      ⊢ wp frame (wpE (defs₀ (F := F)) Variants.none c none) Set.univ (bodyAt6 t) (fun _ =>
      iprop(PhiS6 V c (t.val + 1) t.isLt ∗ (dat6 V c).owesAt () t.castSucc
        ∗ owns (c : Thread nD τ) (ms6_0 t) fullShare (iblk6 V c 0 t)
        ∗ owns (c : Thread nD τ) (ms6_1 t) fullShare (iblk6 V c 1 t)
        ∗ owns (c : Thread nD τ) (ms6_2 t) fullShare (iblk6 V c 2 t)
        ∗ owns (c : Thread nD τ) (ms6_3 t) fullShare (iblk6 V c 3 t)
        ∗ owns (c : Thread nD τ) (ms6_4 t) fullShare (iblk6 V c 4 t)
        ∗ owns (c : Thread nD τ) (ms6_5 t) fullShare (iblk6 V c 5 t)
        ∗ owns (c : Thread nD τ) (ms6_6 t) fullShare (iblk6 V c 6 t)
        ∗ owns (c : Thread nD τ) (ms6_7 t) fullShare (iblk6 V c 7 t)
        ∗ owns (c : Thread nD τ) (ms6_8 t) fullShare (iblk6 V c 8 t)
        ∗ owns (c : Thread nD τ) (ms6_9 t) fullShare (iblk6 V c 9 t)
        ∗ owns (c : Thread nD τ) (ms6_10 t) fullShare (iblk6 V c 10 t)
        ∗ owns (c : Thread nD τ) (ms6_11 t) fullShare (iblk6 V c 11 t)
        ∗ owns (c : Thread nD τ) (ms6_12 t) fullShare (iblk6 V c 12 t)
        ∗ owns (c : Thread nD τ) (ms6_13 t) fullShare (iblk6 V c 13 t)
        ∗ (dat6 V c).leavesExact 14 t)) := by
  unfold bodyAt6
  simp only [before6_0, before6_1, before6_2, before6_3, before6_4, before6_5, before6_6, before6_7, before6_8, before6_9, before6_10, before6_11, before6_12, before6_13]
  rw [PhiS6_succ, PhiS6_castSucc V c t]
  by_cases h0 : t.val = 0
  · have h1 : ¬t.val = 24 := by omega
    rw [Dat.leavesExact_idle (dat6 V c) 14 t (idleAt6_14 t (fun h => h1 ((hcond6_1 t).mp h))) (noFlush6_14 t (fun h => h1 ((hcond6_1 t).mp h)))]
    rw [outsAt6_A V c t h0 h1]
    unfold sout6_A_0; (try dsimp only)
    rw [PhiS6_zero V c _ _ h0, PhiA6_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun6_A c (grid6.coords t) _ _ _ _ _ _ _ _ _ _ _ _ _ _ _ _ _ _ _ _ _ _ _ _ _ _ _ _ _ _ _ _ ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t)).2.2 _ Set.univ _)
    iframe H0 H1 H2 H3 H4 H5 H6 H7 H8 H9 H10 H11 H12 H13 H14 HS0
    iintro ⟨H0, H1, H2, H3, H4, H5, H6, H7, H8, H9, H10, H11, H12, H13, H14, ⟨%es0, HS0⟩⟩
    iframe HR Hg Ho H0 H1 H2 H3 H4 H5 H6 H7 H8 H9 H10 H11 H12 H13
    isplitl [HS0]
    · unfold owns; iexists _; isplitr
      swap; · iexact HS0
      ipureintro; exact View.read_writes_of_cover _ _ _ _ _ fun y => scover6_A_0 (y := y) ..
    iexists _; iexact H14
  · by_cases h1 : t.val = 24
    · rw [show (dat6 V c).leavesExact 14 t = owns (c : Thread nD τ) (ms6_14 t) fullShare ((dat6 V c).after 14 t) from by
        unfold Dat.leavesExact; rw [liveAt6_14 t ((hcond6_1 t).mpr h1)], after6_14]
      rw [outsAt6_C V c t h0 h1]
      unfold out6_C_14 sout6_C_0; (try dsimp only)
      rw [PhiS6_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun6_C c (grid6.coords t) _ _ _ _ _ _ _ _ _ _ _ _ _ _ _ _ _ _ _ _ _ _ _ _ _ _ _ _ _ _ _ _ (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) _).2.2 Set.univ _)
      iframe H0 H1 H2 H3 H4 H5 H6 H7 H8 H9 H10 H11 H12 H13 HS0
      isplitl [H14]; · iexists _; iexact H14
      iintro ⟨H0, H1, H2, H3, H4, H5, H6, H7, H8, H9, H10, H11, H12, H13, ⟨%e14, H14⟩, ⟨%es0, HS0⟩⟩
      iframe HR Hg Ho H0 H1 H2 H3 H4 H5 H6 H7 H8 H9 H10 H11 H12 H13
      isplitl [HS0]
      · unfold owns; iexists _; isplitr
        swap; · iexact HS0
        ipureintro; exact View.read_writes_of_cover _ _ _ _ _ fun y => scover6_C_0 (y := y) ..
      unfold owns; iexists _; isplitr
      swap; · iexact H14
      ipureintro; exact View.read_writes_of_cover _ _ _ _ _ fun y => cover6_C_14 (y := y) ..
    · rw [Dat.leavesExact_idle (dat6 V c) 14 t (idleAt6_14 t (fun h => h1 ((hcond6_1 t).mp h))) (noFlush6_14 t (fun h => h1 ((hcond6_1 t).mp h)))]
      rw [outsAt6_B V c t h0 h1]
      unfold sout6_B_0; (try dsimp only)
      rw [PhiS6_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun6_B c (grid6.coords t) _ _ _ _ _ _ _ _ _ _ _ _ _ _ _ _ _ _ _ _ _ _ _ _ _ _ _ _ _ _ _ _ (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) _).2.2 _ Set.univ _)
      iframe H0 H1 H2 H3 H4 H5 H6 H7 H8 H9 H10 H11 H12 H13 H14 HS0
      iintro ⟨H0, H1, H2, H3, H4, H5, H6, H7, H8, H9, H10, H11, H12, H13, H14, ⟨%es0, HS0⟩⟩
      iframe HR Hg Ho H0 H1 H2 H3 H4 H5 H6 H7 H8 H9 H10 H11 H12 H13
      isplitl [HS0]
      · unfold owns; iexists _; isplitr
        swap; · iexact HS0
        ipureintro; exact View.read_writes_of_cover _ _ _ _ _ fun y => scover6_B_0 (y := y) ..
      iexists _; iexact H14

theorem body_obligation6 : BodyObligation (dat6 (F := F) V c) (defs₀ (F := F)) Variants.none () Set.univ := fun t => by
  rw [bigSep_W6, bigSep_W6]
  exact sound_body6 V c t

theorem hin6 : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem Phi_out6 (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, HR⟩, Hg⟩
  isplitl [HS0 HR]
  · isplitl [HS0]
    · iexists _; iexact HS0
    iexact HR
  iexact Hg

theorem hout6 : (dat6 V c).Φ (Fin.last cfg6.N) ⊢ Pipeline.ΦA spec6 c :=
  Phi_out6 V c _ (by rw [Fin.val_last]; have : cfg6.N = 25 := N_6; omega)

end Cert.Kernel.Hand
end
-- ==== Proof.K.Run.lean ====
import proofs.«400867_j53901839564968_2_alg».proof.Proof.Gen.Kernel.Launch
import proofs.«400867_j53901839564968_2_alg».proof.Proof.Gen.Kernel.Skeleton
import proofs.«400867_j53901839564968_2_alg».proof.Proof.Gen.Kernel.Points
import proofs.«400867_j53901839564968_2_alg».proof.Proof.Gen.Kernel.Regions
import proofs.«400867_j53901839564968_2_alg».proof.Proof.K.Reg0
import proofs.«400867_j53901839564968_2_alg».proof.Proof.K.Reg1
import proofs.«400867_j53901839564968_2_alg».proof.Proof.K.Reg2
import proofs.«400867_j53901839564968_2_alg».proof.Proof.K.Reg3
import proofs.«400867_j53901839564968_2_alg».proof.Proof.K.Reg4
import proofs.«400867_j53901839564968_2_alg».proof.Proof.K.Reg5
import proofs.«400867_j53901839564968_2_alg».proof.Proof.K.Reg6
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) :=
  Pipeline.withArrays_of_ne spec2 c _ _ b hb
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) :=
  Pipeline.withArrays_of_ne spec3 c _ _ b hb
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N :=
  Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) :=
  Pipeline.withArrays_of_ne spec4 c _ _ b hb
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N :=
  Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) :=
  Pipeline.withArrays_of_ne spec5 c _ _ b hb
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N :=
  Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) :=
  Pipeline.withArrays_of_ne spec6 c _ _ b hb
theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h
theorem W14_out (c : Dev nD) : W14 m ρ c (Proc.devRef .tc main_v108) = (dat6 (V13 m ρ) c).arrAt 14 cfg6.N :=
  W14_arr m ρ c 14

/-- Two valuations that agree at each array of a family, and off the family, agree at `b`. -/
theorem keep_of {n : ℕ} {ar : Fin n → Ref sig .tc} {X Y : Valuation τ sig (Elt F)} {b : Ref sig .tc}
    (h1 : ∀ w, ar w = b → X (Proc.devRef .tc (ar w)) = Y (Proc.devRef .tc (ar w)))
    (h2 : (∀ w, ar w ≠ b) → X (Proc.devRef .tc b) = Y (Proc.devRef .tc b)) :
    X (Proc.devRef .tc b) = Y (Proc.devRef .tc b) := by
  by_cases hb : ∃ w, ar w = b
  · obtain ⟨w, rfl⟩ := hb; exact h1 w rfl
  · exact h2 fun w e => hb ⟨w, e⟩

/-- `b` is in no host stretch's write list and is no output array of any region. -/
abbrev Kept (b : Ref sig .tc) : Prop :=
  b ∉ hostOps0_W ∧ (∀ w, Pipeline.arrRef spec0 w = b → (cfg0.win w).isOut = false)
  ∧ b ∉ hostOps1_W ∧ (∀ w, Pipeline.arrRef spec1 w = b → (cfg1.win w).isOut = false)
  ∧ b ∉ hostOps2_W ∧ (∀ w, Pipeline.arrRef spec2 w = b → (cfg2.win w).isOut = false)
  ∧ b ∉ hostOps3_W ∧ (∀ w, Pipeline.arrRef spec3 w = b → (cfg3.win w).isOut = false)
  ∧ b ∉ hostOps4_W ∧ (∀ w, Pipeline.arrRef spec4 w = b → (cfg4.win w).isOut = false)
  ∧ b ∉ hostOps5_W ∧ (∀ w, Pipeline.arrRef spec5 w = b → (cfg5.win w).isOut = false)
  ∧ b ∉ hostOps6_W ∧ (∀ w, Pipeline.arrRef spec6 w = b → (cfg6.win w).isOut = false)

/-- Such a buffer has its launch contents at the last boundary: every step leaves it unchanged. -/
theorem W14_kept (c : Dev nD) (b : Ref sig .tc) (h : Kept b) :
    W14 m ρ c (Proc.devRef .tc b) = m ((c : Thread nD τ).loc b) := by
  obtain ⟨h0, k0, h1, k1, h2, k2, h3, k3, h4, k4, h5, k5, h6, k6⟩ := h
  exact (keep_of (ar := Pipeline.arrRef spec6) (Y := W13 m ρ c) (fun w e => (W14_arr m ρ c w).trans ((dat6 (V13 m ρ) c).arrAt_in w (k6 w e) _)) (W14_of_ne m ρ c b)).trans <| (W13_of m ρ c b h6).trans <|
    (keep_of (ar := Pipeline.arrRef spec5) (Y := W11 m ρ c) (fun w e => (W12_arr m ρ c w).trans ((dat5 (V11 m ρ) c).arrAt_in w (k5 w e) _)) (W12_of_ne m ρ c b)).trans <| (W11_of m ρ c b h5).trans <|
    (keep_of (ar := Pipeline.arrRef spec4) (Y := W9 m ρ c) (fun w e => (W10_arr m ρ c w).trans ((dat4 (V9 m ρ) c).arrAt_in w (k4 w e) _)) (W10_of_ne m ρ c b)).trans <| (W9_of m ρ c b h4).trans <|
    (keep_of (ar := Pipeline.arrRef spec3) (Y := W7 m ρ c) (fun w e => (W8_arr m ρ c w).trans ((dat3 (V7 m ρ) c).arrAt_in w (k3 w e) _)) (W8_of_ne m ρ c b)).trans <| (W7_of m ρ c b h3).trans <|
    (keep_of (ar := Pipeline.arrRef spec2) (Y := W5 m ρ c) (fun w e => (W6_arr m ρ c w).trans ((dat2 (V5 m ρ) c).arrAt_in w (k2 w e) _)) (W6_of_ne m ρ c b)).trans <| (W5_of m ρ c b h2).trans <|
    (keep_of (ar := Pipeline.arrRef spec1) (Y := W3 m ρ c) (fun w e => (W4_arr m ρ c w).trans ((dat1 (V3 m ρ) c).arrAt_in w (k1 w e) _)) (W4_of_ne m ρ c b)).trans <| (W3_of m ρ c b h1).trans <|
    (keep_of (ar := Pipeline.arrRef spec0) (Y := W1 m ρ c) (fun w e => (W2_arr m ρ c w).trans ((dat0 (V1 m ρ) c).arrAt_in w (k0 w e) _)) (W2_of_ne m ρ c b)).trans (W1_of m ρ c b h0)

def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W14 m ρ c) ∗ ∃ r, prngReg c r)

set_option backward.isDefEq.respectTransparency.types false in
/-- Region `p` as a segment from the contents `W` to `W'`: `W` off the region's arrays, the data's final contents at them. -/
def reg (p : Fin 7) (lf : Pipeline.LaunchFacts (nD := nD) (τ := τ) cfgs p) (W W' : Dev nD → Valuation τ sig (Elt F))
    (hb : ∀ c, Pipeline.BodyObligationLoose (pdats m ρ p c) defs₀ 𝒱₀ () Set.univ)
    (hq : ∀ c w, (pdats m ρ p c).q w = fullShare := by exact fun _ _ => rfl)
    (hz : ∀ c t, (pdats m ρ p c).owed t = 0 := by exact fun _ _ => rfl)
    (hr : ∀ c x, x ∈ (pdats m ρ p c).recorded 0 := by exact fun _ _ => trivial)
    (hA : ∀ c w, (pdats m ρ p c).A w = W c (Pipeline.arrRef (cfgs p).spec w) := by exact fun _ _ => rfl)
    (hF : ∀ c w, (pdats m ρ p c).arrAt w (cfgs p).N = W' c (Pipeline.arrRef (cfgs p).spec w))
    (hN : ∀ c b, (∀ w, Pipeline.arrRef (cfgs p).spec w ≠ b) → W' c (Proc.devRef .tc b) = W c (Proc.devRef .tc b))
    (hi : ∀ c, Pipeline.ΦA (cfgs p).spec c ⊢ (pdats m ρ p c).Φ 0 := by exact fun _ => .rfl)
    (hO : ∀ c, (pdats m ρ p c).Φ (Fin.last _) ⊢ Pipeline.ΦA (cfgs p).spec c := by exact fun _ => .rfl) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hb
  hwaits := Pipeline.hwaits_of_owed_zero _ _ _ _ L lv p hz
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [hz c]
      icases HO with ⟨%T, HO⟩; iexists T; isplitr; · ipureintro; exact fun x _ => Or.inl (hr c x)
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine BIBase.Entails.trans (hO c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => W c b) (fun b => W' c b) ((pdats m ρ p c).arrAt · (cfgs p).N) (hF c)
      fun b hb => hN c b fun w e => hb (Finset.mem_image.mpr ⟨w, Finset.mem_univ _, e⟩)
    rw [Pipeline.unscopedBufs_held] at hjoin
    unfold Pipeline.Dat.owesAt Pipeline.owesWithin; rw [hz c]
    iintro ⟨Ha, HO, HY, Hrest⟩
    imodintro
    isplitl [Ha Hrest]
    · iapply hjoin; isplitl [Ha] <;> iassumption
    isplitl [HY]; · iexact HY
    icases HO with ⟨%T, -, HO⟩; iexists T; iexact HO

def reg0 := reg m ρ 0 launch0 (W1 m ρ) (W2 m ρ) (fun c => (body_obligation0 (V1 m ρ) c).loose)
  (hF := fun c w => (W2_arr m ρ c w).symm) (hN := W2_of_ne m ρ)
def reg1 := reg m ρ 1 launch1 (W3 m ρ) (W4 m ρ) (fun c => (body_obligation1 (V3 m ρ) c).loose)
  (hF := fun c w => (W4_arr m ρ c w).symm) (hN := W4_of_ne m ρ)
def reg2 := reg m ρ 2 launch2 (W5 m ρ) (W6 m ρ) (fun c => (body_obligation2 (V5 m ρ) c).loose)
  (hF := fun c w => (W6_arr m ρ c w).symm) (hN := W6_of_ne m ρ)
def reg3 := reg m ρ 3 launch3 (W7 m ρ) (W8 m ρ) (fun c => (body_obligation3 (V7 m ρ) c).loose)
  (hF := fun c w => (W8_arr m ρ c w).symm) (hN := W8_of_ne m ρ)
def reg4 := reg m ρ 4 launch4 (W9 m ρ) (W10 m ρ) (fun c => (body_obligation4 (V9 m ρ) c).loose)
  (hF := fun c w => (W10_arr m ρ c w).symm) (hN := W10_of_ne m ρ)
def reg5 := reg m ρ 5 launch5 (W11 m ρ) (W12 m ρ) (fun c => (body_obligation5 (V11 m ρ) c).loose)
  (hF := fun c w => (W12_arr m ρ c w).symm) (hN := W12_of_ne m ρ)
def reg6 := reg m ρ 6 launch6 (W13 m ρ) (W14 m ρ) (fun c => (body_obligation6 (V13 m ρ) c).loose)
  (hF := fun c w => (W14_arr m ρ c w).symm) (hN := W14_of_ne m ρ) (hi := hin6 (V13 m ρ)) (hO := hout6 (V13 m ρ))

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ) ]

theorem main_run (c : Dev nD) : main (F := F) c = Pipeline.Seg.run (segs m ρ) := by
  rw [main_chain c, Pipeline.Seg.run_eq_chain]; rfl

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

end Cert.Kernel.Hand

end
-- ==== Proof.K.Claims.lean ====
import proofs.«400867_j53901839564968_2_alg».proof.Proof.K.Run

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

theorem run_result : θ_run defs (onTc (τ := τ) (main (F := F))) ⟨m, fun _ => 0, ρ⟩ (fun r => ∀ c : Dev nD,
      r.2.mem ((c.tc : Thread nD τ).loc main_v108) = W14 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => by
    have a (b : Ref sig .tc) (hb : ¬ (Proc.devRef .tc b : DevRef τ sig).isScoped ∧ Kept b) :
        r.2.mem ((c.tc : Thread nD τ).loc b) = m ((c.tc : Thread nD τ).loc b) :=
      (h c _ (mem_uc b hb.1)).trans (W14_kept m ρ c b hb.2)
    refine ⟨h c _ (mem_uc main_v108 (by decide)), ?_⟩
    repeat' apply And.intro
    all_goals exact a _ (by decide)) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => (h c).2) (run_result m ρ)

end Cert.Kernel.Hand

end
-- ==== Proof.KI.Reg0.lean ====
import proofs.«400867_j53901839564968_2_alg».proof.Proof.Gen.KernelIdeal.Launch
import proofs.«400867_j53901839564968_2_alg».proof.Proof.Gen.KernelIdeal.Skeleton
import proofs.«400867_j53901839564968_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.KernelIdeal.Hand
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S5000x128 := Rect.unit (s := S5000x128) ![0, 0] S5000x128.size inb_S5000x128_S5000x128_0_0
abbrev rW0 : Rect S128x64 := Rect.unit (s := S128x64) ![0, 0] S128x64.size inb_S128x64_S128x64_0_0
abbrev rP0 : Rect S5000x64 := Rect.unit (s := S5000x64) ![0, 0] S5000x64.size inb_S5000x64_S5000x64_0_0

def out0_2 (x0 : Vec F S5000x128 .f32) (x1 : Vec F S128x64 .f32) : Vec F S5000x64 .f32 :=
  View.canon [⟨rP0, k0_pay1 (View.ld x0 rX0) (View.ld x1 rW0)⟩]

-- The one store covers the whole shape, so what is read back is its payload alone.
theorem sound_kernel0 (c : Dev nD) (E : Set ℕ) (i : grid0.Coords) (arg1 : Memref sig .tc .vmem S5000x128 .f32) (arg2 : Memref sig .tc .vmem S128x64 .f32) (arg3 : Memref sig .tc .vmem S5000x64 .f32)
    (harg1 : arg1.IsWhole) (harg2 : arg2.IsWhole) (harg3 : arg3.IsWhole)
    (x0 : Vec F S5000x128 .f32) (x1 : Vec F S128x64 .f32) (K : PUnit → sProp 𝕄) :
    iprop(owns c arg1 fullShare x0 ∗ owns c arg2 fullShare x1 ∗ (∃ d, owns c arg3 fullShare d)
        ∗ (iprop(owns c arg1 fullShare x0 ∗ owns c arg2 fullShare x1 ∗ owns c arg3 fullShare (out0_2 x0 x1)) -∗ K ⟨⟩))
      ⊢ wp frame (wpE (defs₀ (F := F)) Variants.none c none) E (cc0__project0_kernel i arg1 harg1 arg2 harg2 arg3 harg3) K := by
  simp only [cc0__project0_kernel_eq_skeleton]; unfold cc0__project0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by dsimp only [dat0]

theorem before0 (c : Dev nD) (t : Fin cfg0.N) :
    (∀ d, (dat0 V c).before 0 t d = iblk0 V c 0 t) ∧
    (∀ d, (dat0 V c).before 1 t d = iblk0 V c 1 t) := by
  refine ⟨?_, ?_⟩ <;> exact (dat0 V c).before_in_eq_fetched _ rfl (fun _ => rfl) (fun _ _ _ => rfl) (fun _ => rfl) t

-- The body's triple at the point's blocks; the invariant and the debts pass through untouched.
theorem body_obligation0 (c : Dev nD) : BodyObligation (dat0 (F := F) V c) (defs₀ (F := F)) Variants.none () Set.univ := fun t => by
  rw [bigSep_W0, bigSep_W0]
  refine (?_ : iprop((?R : sProp 𝕄) ∗ ?O ∗ ?P) ⊢ wp frame (wpE (defs₀ (F := F)) Variants.none c none) Set.univ (bodyAt0 t) fun _ => iprop(?R ∗ ?O
        ∗ owns c (st0_0 t) fullShare (iblk0 V c 0 t)
        ∗ owns c (st0_1 t) fullShare (iblk0 V c 1 t)
        ∗ owns c (st0_2 t) fullShare ((dat0 V c).after 2 t)))
  simp only [before0 V c t, after0_2]
  iintro ⟨HΦ, Ho, ⟨%d0, H0⟩, ⟨%d1, H1⟩, ⟨%d2, H2⟩⟩
  iapply sound_kernel0
  iframe
  isplitl [H2]; · iexists _; iexact H2
  iintro ⟨H0, H1, H2⟩
  iframe

end Cert.KernelIdeal.Hand
-- ==== Proof.KI.Reg1.lean ====
import proofs.«400867_j53901839564968_2_alg».proof.Proof.Gen.KernelIdeal.Launch
import proofs.«400867_j53901839564968_2_alg».proof.Proof.Gen.KernelIdeal.Skeleton
import proofs.«400867_j53901839564968_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.KernelIdeal.Hand
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rN1 : Rect S5000x64 := Rect.unit (s := S5000x64) ![0, 0] S5000x64.size inb_S5000x64_S5000x64_0_0
abbrev rB1 : Rect S1x64 := Rect.unit (s := S1x64) ![0, 0] S1x64.size inb_S1x64_S1x64_0_0
abbrev rM1 : Rect S64x64 := Rect.unit (s := S64x64) ![0, 0] S64x64.size inb_S64x64_S64x64_0_0

def out1_5 (x0 : Vec F S5000x64 .f32) (x1 : Vec F S5000x64 .f32) (x2 : Vec F S1x64 .f32) (x3 : Vec F S64x64 .f32)
    (x4 : Vec F S1x64 .f32) : Vec F S5000x64 .f32 :=
  View.canon [⟨rN1, k1_pay1 (View.ld x0 rN1) (View.ld x1 rN1) (View.ld x2 rB1) (View.ld x3 rM1) (View.ld x4 rB1)⟩]

-- The one store covers the whole shape, so what is read back is its payload alone.
theorem sound_kernel1 (c : Dev nD) (E : Set ℕ) (i : grid1.Coords) (arg1 arg2 arg6 : Memref sig .tc .vmem S5000x64 .f32) (arg3 arg5 : Memref sig .tc .vmem S1x64 .f32) (arg4 : Memref sig .tc .vmem S64x64 .f32)
    (harg1 : arg1.IsWhole) (harg2 : arg2.IsWhole) (harg3 : arg3.IsWhole) (harg4 : arg4.IsWhole) (harg5 : arg5.IsWhole) (harg6 : arg6.IsWhole)
    (x0 x1 : Vec F S5000x64 .f32) (x2 x4 : Vec F S1x64 .f32) (x3 : Vec F S64x64 .f32) (K : PUnit → sProp 𝕄) :
    iprop(owns c arg1 fullShare x0 ∗ owns c arg2 fullShare x1 ∗ owns c arg3 fullShare x2 ∗ owns c arg4 fullShare x3 ∗ owns c arg5 fullShare x4 ∗ (∃ d, owns c arg6 fullShare d)
        ∗ (iprop(owns c arg1 fullShare x0 ∗ owns c arg2 fullShare x1 ∗ owns c arg3 fullShare x2 ∗ owns c arg4 fullShare x3 ∗ owns c arg5 fullShare x4 ∗ owns c arg6 fullShare (out1_5 x0 x1 x2 x3 x4)) -∗ K ⟨⟩))
      ⊢ wp frame (wpE (defs₀ (F := F)) Variants.none c none) E (cc1__gin_layer0_kernel i arg1 harg1 arg2 harg2 arg3 harg3 arg4 harg4 arg5 harg5 arg6 harg6) K := by
  simp only [cc1__gin_layer0_kernel_eq_skeleton]; unfold cc1__gin_layer0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S5000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

theorem before1 (c : Dev nD) (t : Fin cfg1.N) :
    (∀ d, (dat1 V c).before 0 t d = iblk1 V c 0 t) ∧
    (∀ d, (dat1 V c).before 1 t d = iblk1 V c 1 t) ∧
    (∀ d, (dat1 V c).before 2 t d = iblk1 V c 2 t) ∧
    (∀ d, (dat1 V c).before 3 t d = iblk1 V c 3 t) ∧
    (∀ d, (dat1 V c).before 4 t d = iblk1 V c 4 t) := by
  refine ⟨?_, ?_, ?_, ?_, ?_⟩ <;> exact (dat1 V c).before_in_eq_fetched _ rfl (fun _ => rfl) (fun _ _ _ => rfl) (fun _ => rfl) t

-- The body's triple at the point's blocks; the invariant and the debts pass through untouched.
theorem body_obligation1 (c : Dev nD) : BodyObligation (dat1 (F := F) V c) (defs₀ (F := F)) Variants.none () Set.univ := fun t => by
  rw [bigSep_W1, bigSep_W1]
  refine (?_ : iprop((?R : sProp 𝕄) ∗ ?O ∗ ?P) ⊢ wp frame (wpE (defs₀ (F := F)) Variants.none c none) Set.univ (bodyAt1 t) fun _ => iprop(?R ∗ ?O
        ∗ owns c (st1_0 t) fullShare (iblk1 V c 0 t)
        ∗ owns c (st1_1 t) fullShare (iblk1 V c 1 t)
        ∗ owns c (st1_2 t) fullShare (iblk1 V c 2 t)
        ∗ owns c (st1_3 t) fullShare (iblk1 V c 3 t)
        ∗ owns c (st1_4 t) fullShare (iblk1 V c 4 t)
        ∗ owns c (st1_5 t) fullShare ((dat1 V c).after 5 t)))
  simp only [before1 V c t, after1_5]
  iintro ⟨HΦ, Ho, ⟨%d0, H0⟩, ⟨%d1, H1⟩, ⟨%d2, H2⟩, ⟨%d3, H3⟩, ⟨%d4, H4⟩, ⟨%d5, H5⟩⟩
  iapply sound_kernel1
  iframe
  isplitl [H5]; · iexists _; iexact H5
  iintro ⟨H0, H1, H2, H3, H4, H5⟩
  iframe

end Cert.KernelIdeal.Hand
-- ==== Proof.KI.Reg2.lean ====
import proofs.«400867_j53901839564968_2_alg».proof.Proof.Gen.KernelIdeal.Launch
import proofs.«400867_j53901839564968_2_alg».proof.Proof.Gen.KernelIdeal.Skeleton
import proofs.«400867_j53901839564968_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.KernelIdeal.Hand
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S5000x64 := Rect.unit (s := S5000x64) ![0, 0] S5000x64.size inb_S5000x64_S5000x64_0_0
abbrev r2_b : Rect S64x64 := Rect.unit (s := S64x64) ![0, 0] S64x64.size inb_S64x64_S64x64_0_0
abbrev r2_c : Rect S1x64 := Rect.unit (s := S1x64) ![0, 0] S1x64.size inb_S1x64_S1x64_0_0

def out2_6 (x0 x1 : Vec F S5000x64 .f32) (x2 : Vec F S64x64 .f32) (x3 : Vec F S1x64 .f32) (x4 : Vec F S64x64 .f32)
    (x5 : Vec F S1x64 .f32) : Vec F S5000x64 .f32 :=
  View.canon [⟨r2_a, k2_pay1 (View.ld x0 r2_a) (View.ld x1 r2_a) (View.ld x2 r2_b) (View.ld x3 r2_c) (View.ld x4 r2_b) (View.ld x5 r2_c)⟩]

-- The one store covers the whole shape, so what is read back is its payload alone.
theorem sound_kernel2 (c : Dev nD) (E : Set ℕ) (i : grid2.Coords) (arg1 arg2 arg7 : Memref sig .tc .vmem S5000x64 .f32) (arg3 arg5 : Memref sig .tc .vmem S64x64 .f32) (arg4 arg6 : Memref sig .tc .vmem S1x64 .f32)
    (harg1 : arg1.IsWhole) (harg2 : arg2.IsWhole) (harg3 : arg3.IsWhole) (harg4 : arg4.IsWhole) (harg5 : arg5.IsWhole) (harg6 : arg6.IsWhole) (harg7 : arg7.IsWhole)
    (x0 x1 : Vec F S5000x64 .f32) (x2 x4 : Vec F S64x64 .f32) (x3 x5 : Vec F S1x64 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare (out2_6 x0 x1 x2 x3 x4 x5)) -∗ K ⟨⟩))
      ⊢ wp frame (wpE (defs₀ (F := F)) Variants.none c none) E (cc2__gin_layer_kernel i arg1 harg1 arg2 harg2 arg3 harg3 arg4 harg4 arg5 harg5 arg6 harg6 arg7 harg7) K := by
  simp only [cc2__gin_layer_kernel_eq_skeleton]; unfold cc2__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S5000x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t =
    out2_6 (iblk2 V c 0 t) (iblk2 V c 1 t) (iblk2 V c 2 t) (iblk2 V c 3 t) (iblk2 V c 4 t) (iblk2 V c 5 t) := by dsimp only [dat2]

theorem before2 (c : Dev nD) (t : Fin cfg2.N) :
    (∀ d, (dat2 V c).before 0 t d = iblk2 V c 0 t) ∧
    (∀ d, (dat2 V c).before 1 t d = iblk2 V c 1 t) ∧
    (∀ d, (dat2 V c).before 2 t d = iblk2 V c 2 t) ∧
    (∀ d, (dat2 V c).before 3 t d = iblk2 V c 3 t) ∧
    (∀ d, (dat2 V c).before 4 t d = iblk2 V c 4 t) ∧
    (∀ d, (dat2 V c).before 5 t d = iblk2 V c 5 t) := by
  refine ⟨?_, ?_, ?_, ?_, ?_, ?_⟩ <;> exact (dat2 V c).before_in_eq_fetched _ rfl (fun _ => rfl) (fun _ _ _ => rfl) (fun _ => rfl) t

-- The body's triple at the point's blocks; the invariant and the debts pass through untouched.
theorem body_obligation2 (c : Dev nD) : BodyObligation (dat2 (F := F) V c) (defs₀ (F := F)) Variants.none () Set.univ := fun t => by
  rw [bigSep_W2, bigSep_W2]
  refine (?_ : iprop((?R : sProp 𝕄) ∗ ?O ∗ ?P) ⊢ wp frame (wpE (defs₀ (F := F)) Variants.none c none) Set.univ (bodyAt2 t) fun _ => iprop(?R ∗ ?O
        ∗ owns c (st2_0 t) fullShare (iblk2 V c 0 t)
        ∗ owns c (st2_1 t) fullShare (iblk2 V c 1 t)
        ∗ owns c (st2_2 t) fullShare (iblk2 V c 2 t)
        ∗ owns c (st2_3 t) fullShare (iblk2 V c 3 t)
        ∗ owns c (st2_4 t) fullShare (iblk2 V c 4 t)
        ∗ owns c (st2_5 t) fullShare (iblk2 V c 5 t)
        ∗ owns c (st2_6 t) fullShare ((dat2 V c).after 6 t)))
  simp only [before2 V c t, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel2
  iframe
  isplitl [H6]; · iexists _; iexact H6
  iintro ⟨H0, H1, H2, H3, H4, H5, H6⟩
  iframe

end Cert.KernelIdeal.Hand
-- ==== Proof.KI.Reg3.lean ====
import proofs.«400867_j53901839564968_2_alg».proof.Proof.KI.Reg2
noncomputable section
namespace Cert.KernelIdeal.Hand
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a : Rect S5000x64 := Rect.unit (s := S5000x64) ![0, 0] S5000x64.size inb_S5000x64_S5000x64_0_0
abbrev r3_b : Rect S64x64 := Rect.unit (s := S64x64) ![0, 0] S64x64.size inb_S64x64_S64x64_0_0
abbrev r3_c : Rect S1x64 := Rect.unit (s := S1x64) ![0, 0] S1x64.size inb_S1x64_S1x64_0_0

def out3_6 (x0 x1 : Vec F S5000x64 .f32) (x2 : Vec F S64x64 .f32) (x3 : Vec F S1x64 .f32) (x4 : Vec F S64x64 .f32)
    (x5 : Vec F S1x64 .f32) : Vec F S5000x64 .f32 :=
  View.canon [⟨r3_a, k3_pay1 (View.ld x0 r3_a) (View.ld x1 r3_a) (View.ld x2 r3_b) (View.ld x3 r3_c) (View.ld x4 r3_b) (View.ld x5 r3_c)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t =
    out3_6 (iblk3 V c 0 t) (iblk3 V c 1 t) (iblk3 V c 2 t) (iblk3 V c 3 t) (iblk3 V c 4 t) (iblk3 V c 5 t) := by dsimp only [dat3]

theorem before3 (c : Dev nD) (t : Fin cfg3.N) :
    (∀ d, (dat3 V c).before 0 t d = iblk3 V c 0 t) ∧
    (∀ d, (dat3 V c).before 1 t d = iblk3 V c 1 t) ∧
    (∀ d, (dat3 V c).before 2 t d = iblk3 V c 2 t) ∧
    (∀ d, (dat3 V c).before 3 t d = iblk3 V c 3 t) ∧
    (∀ d, (dat3 V c).before 4 t d = iblk3 V c 4 t) ∧
    (∀ d, (dat3 V c).before 5 t d = iblk3 V c 5 t) := by
  refine ⟨?_, ?_, ?_, ?_, ?_, ?_⟩ <;> exact (dat3 V c).before_in_eq_fetched _ rfl (fun _ => rfl) (fun _ _ _ => rfl) (fun _ => rfl) t

-- The body's triple at the point's blocks (the layers run one program: region 2's triple); the invariant and the debts pass through untouched.
theorem body_obligation3 (c : Dev nD) : BodyObligation (dat3 (F := F) V c) (defs₀ (F := F)) Variants.none () Set.univ := fun t => by
  rw [bigSep_W3, bigSep_W3]
  refine (?_ : iprop((?R : sProp 𝕄) ∗ ?O ∗ ?P) ⊢ wp frame (wpE (defs₀ (F := F)) Variants.none c none) Set.univ (bodyAt3 t) fun _ => iprop(?R ∗ ?O
        ∗ owns c (st3_0 t) fullShare (iblk3 V c 0 t)
        ∗ owns c (st3_1 t) fullShare (iblk3 V c 1 t)
        ∗ owns c (st3_2 t) fullShare (iblk3 V c 2 t)
        ∗ owns c (st3_3 t) fullShare (iblk3 V c 3 t)
        ∗ owns c (st3_4 t) fullShare (iblk3 V c 4 t)
        ∗ owns c (st3_5 t) fullShare (iblk3 V c 5 t)
        ∗ owns c (st3_6 t) fullShare ((dat3 V c).after 6 t)))
  simp only [before3 V c t, after3_6, bodyAt3,
    show cc3__gin_layer_kernel (F := F) = cc2__gin_layer_kernel (F := F) from rfl, show out3_6 (F := F) = out2_6 (F := F) from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel2
  iframe
  isplitl [H6]; · iexists _; iexact H6
  iintro ⟨H0, H1, H2, H3, H4, H5, H6⟩
  iframe

end Cert.KernelIdeal.Hand
-- ==== Proof.KI.Reg4.lean ====
import proofs.«400867_j53901839564968_2_alg».proof.Proof.KI.Reg2
noncomputable section
namespace Cert.KernelIdeal.Hand
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_a : Rect S5000x64 := Rect.unit (s := S5000x64) ![0, 0] S5000x64.size inb_S5000x64_S5000x64_0_0
abbrev r4_b : Rect S64x64 := Rect.unit (s := S64x64) ![0, 0] S64x64.size inb_S64x64_S64x64_0_0
abbrev r4_c : Rect S1x64 := Rect.unit (s := S1x64) ![0, 0] S1x64.size inb_S1x64_S1x64_0_0

def out4_6 (x0 x1 : Vec F S5000x64 .f32) (x2 : Vec F S64x64 .f32) (x3 : Vec F S1x64 .f32) (x4 : Vec F S64x64 .f32)
    (x5 : Vec F S1x64 .f32) : Vec F S5000x64 .f32 :=
  View.canon [⟨r4_a, k4_pay1 (View.ld x0 r4_a) (View.ld x1 r4_a) (View.ld x2 r4_b) (View.ld x3 r4_c) (View.ld x4 r4_b) (View.ld x5 r4_c)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_6 (c : Dev nD) (t : Fin cfg4.N) : (dat4 V c).after 6 t =
    out4_6 (iblk4 V c 0 t) (iblk4 V c 1 t) (iblk4 V c 2 t) (iblk4 V c 3 t) (iblk4 V c 4 t) (iblk4 V c 5 t) := by dsimp only [dat4]

theorem before4 (c : Dev nD) (t : Fin cfg4.N) :
    (∀ d, (dat4 V c).before 0 t d = iblk4 V c 0 t) ∧
    (∀ d, (dat4 V c).before 1 t d = iblk4 V c 1 t) ∧
    (∀ d, (dat4 V c).before 2 t d = iblk4 V c 2 t) ∧
    (∀ d, (dat4 V c).before 3 t d = iblk4 V c 3 t) ∧
    (∀ d, (dat4 V c).before 4 t d = iblk4 V c 4 t) ∧
    (∀ d, (dat4 V c).before 5 t d = iblk4 V c 5 t) := by
  refine ⟨?_, ?_, ?_, ?_, ?_, ?_⟩ <;> exact (dat4 V c).before_in_eq_fetched _ rfl (fun _ => rfl) (fun _ _ _ => rfl) (fun _ => rfl) t

-- The body's triple at the point's blocks (the layers run one program: region 2's triple); the invariant and the debts pass through untouched.
theorem body_obligation4 (c : Dev nD) : BodyObligation (dat4 (F := F) V c) (defs₀ (F := F)) Variants.none () Set.univ := fun t => by
  rw [bigSep_W4, bigSep_W4]
  refine (?_ : iprop((?R : sProp 𝕄) ∗ ?O ∗ ?P) ⊢ wp frame (wpE (defs₀ (F := F)) Variants.none c none) Set.univ (bodyAt4 t) fun _ => iprop(?R ∗ ?O
        ∗ owns c (st4_0 t) fullShare (iblk4 V c 0 t)
        ∗ owns c (st4_1 t) fullShare (iblk4 V c 1 t)
        ∗ owns c (st4_2 t) fullShare (iblk4 V c 2 t)
        ∗ owns c (st4_3 t) fullShare (iblk4 V c 3 t)
        ∗ owns c (st4_4 t) fullShare (iblk4 V c 4 t)
        ∗ owns c (st4_5 t) fullShare (iblk4 V c 5 t)
        ∗ owns c (st4_6 t) fullShare ((dat4 V c).after 6 t)))
  simp only [before4 V c t, after4_6, bodyAt4,
    show cc4__gin_layer_kernel (F := F) = cc2__gin_layer_kernel (F := F) from rfl, show out4_6 (F := F) = out2_6 (F := F) from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel2
  iframe
  isplitl [H6]; · iexists _; iexact H6
  iintro ⟨H0, H1, H2, H3, H4, H5, H6⟩
  iframe

end Cert.KernelIdeal.Hand
-- ==== Proof.KI.Reg5.lean ====
import proofs.«400867_j53901839564968_2_alg».proof.Proof.KI.Reg2
noncomputable section
namespace Cert.KernelIdeal.Hand
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_a : Rect S5000x64 := Rect.unit (s := S5000x64) ![0, 0] S5000x64.size inb_S5000x64_S5000x64_0_0
abbrev r5_b : Rect S64x64 := Rect.unit (s := S64x64) ![0, 0] S64x64.size inb_S64x64_S64x64_0_0
abbrev r5_c : Rect S1x64 := Rect.unit (s := S1x64) ![0, 0] S1x64.size inb_S1x64_S1x64_0_0

def out5_6 (x0 x1 : Vec F S5000x64 .f32) (x2 : Vec F S64x64 .f32) (x3 : Vec F S1x64 .f32) (x4 : Vec F S64x64 .f32)
    (x5 : Vec F S1x64 .f32) : Vec F S5000x64 .f32 :=
  View.canon [⟨r5_a, k5_pay1 (View.ld x0 r5_a) (View.ld x1 r5_a) (View.ld x2 r5_b) (View.ld x3 r5_c) (View.ld x4 r5_b) (View.ld x5 r5_c)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_6 (c : Dev nD) (t : Fin cfg5.N) : (dat5 V c).after 6 t =
    out5_6 (iblk5 V c 0 t) (iblk5 V c 1 t) (iblk5 V c 2 t) (iblk5 V c 3 t) (iblk5 V c 4 t) (iblk5 V c 5 t) := by dsimp only [dat5]

theorem before5 (c : Dev nD) (t : Fin cfg5.N) :
    (∀ d, (dat5 V c).before 0 t d = iblk5 V c 0 t) ∧
    (∀ d, (dat5 V c).before 1 t d = iblk5 V c 1 t) ∧
    (∀ d, (dat5 V c).before 2 t d = iblk5 V c 2 t) ∧
    (∀ d, (dat5 V c).before 3 t d = iblk5 V c 3 t) ∧
    (∀ d, (dat5 V c).before 4 t d = iblk5 V c 4 t) ∧
    (∀ d, (dat5 V c).before 5 t d = iblk5 V c 5 t) := by
  refine ⟨?_, ?_, ?_, ?_, ?_, ?_⟩ <;> exact (dat5 V c).before_in_eq_fetched _ rfl (fun _ => rfl) (fun _ _ _ => rfl) (fun _ => rfl) t

-- The body's triple at the point's blocks (the layers run one program: region 2's triple); the invariant and the debts pass through untouched.
theorem body_obligation5 (c : Dev nD) : BodyObligation (dat5 (F := F) V c) (defs₀ (F := F)) Variants.none () Set.univ := fun t => by
  rw [bigSep_W5, bigSep_W5]
  refine (?_ : iprop((?R : sProp 𝕄) ∗ ?O ∗ ?P) ⊢ wp frame (wpE (defs₀ (F := F)) Variants.none c none) Set.univ (bodyAt5 t) fun _ => iprop(?R ∗ ?O
        ∗ owns c (st5_0 t) fullShare (iblk5 V c 0 t)
        ∗ owns c (st5_1 t) fullShare (iblk5 V c 1 t)
        ∗ owns c (st5_2 t) fullShare (iblk5 V c 2 t)
        ∗ owns c (st5_3 t) fullShare (iblk5 V c 3 t)
        ∗ owns c (st5_4 t) fullShare (iblk5 V c 4 t)
        ∗ owns c (st5_5 t) fullShare (iblk5 V c 5 t)
        ∗ owns c (st5_6 t) fullShare ((dat5 V c).after 6 t)))
  simp only [before5 V c t, after5_6, bodyAt5,
    show cc5__gin_layer_kernel (F := F) = cc2__gin_layer_kernel (F := F) from rfl, show out5_6 (F := F) = out2_6 (F := F) from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel2
  iframe
  isplitl [H6]; · iexists _; iexact H6
  iintro ⟨H0, H1, H2, H3, H4, H5, H6⟩
  iframe

end Cert.KernelIdeal.Hand
-- ==== Proof.KI.Reg6Runs.lean ====
import proofs.«400867_j53901839564968_2_alg».proof.Proof.Gen.KernelIdeal.Launch
import proofs.«400867_j53901839564968_2_alg».proof.Proof.Gen.KernelIdeal.Skeleton
import proofs.«400867_j53901839564968_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

abbrev cond6_0 (i : grid6.Coords) : Prop :=
  (Scalar.cmpi .ne (Scalar.extui (Scalar.cmpi .eq (BitVec.ofNat 32 (i 0).val) 0#32)) 0#32) = 1#1

theorem hcond6_0 : ∀ t : Fin cfg6.N, cond6_0 (grid6.coords t) ↔ t.val = 0 :=
  (by decide +kernel : ∀ t : Fin grid6.N, cond6_0 (grid6.coords t) ↔ t.val = 0)

abbrev cond6_1 (i : grid6.Coords) : Prop := k6_cond2 i = 1#1

theorem hcond6_1 : ∀ t : Fin cfg6.N, cond6_1 (grid6.coords t) ↔ t.val = 24 :=
  (by decide +kernel : ∀ t : Fin grid6.N, cond6_1 (grid6.coords t) ↔ t.val = 24)

theorem idleAt6_14 : ∀ t : Fin cfg6.N, ¬cond6_1 (grid6.coords t) → cfg6.idle 14 (grid6.coords t) = true := by decide +kernel

theorem noFlush6_14 : ∀ t : Fin cfg6.N, ¬cond6_1 (grid6.coords t) → (cfg6.win 14).flush t = false := by decide +kernel

theorem liveAt6_14 : ∀ t : Fin cfg6.N, cond6_1 (grid6.coords t) → cfg6.idle 14 (grid6.coords t) = false := by decide +kernel

abbrev VO6_14 : View sig .tc .vmem S128x10 .f32 := (Memref.whole cc6_stg14_0 : Memref sig .tc .vmem S128x10 .f32).view

abbrev scM6_0 : Memref sig .tc .vmem S128x64 .f32 := Memref.whole cc6_scratch0

abbrev VS6_0 : View sig .tc .vmem S128x64 .f32 := scM6_0.view
theorem hscM6_0 : (scM6_0).IsWhole := Memref.isWhole_whole _

theorem PhiA6_eq (c : Dev nD) :
    (Pipeline.ΦA spec6 c : sProp 𝕄)
      = iprop(iprop(iprop((∃ d, owns (c : Thread nD τ) scM6_0 fullShare d))
            ∗ Pipeline.scopedRestBut (Ix := Unit) (Name := ℕ) (U := UR sig nD τ) (Lvl := ℕ) (Val := Elt F) spec6 c [cc6_scratch0])
          ∗ (∃ r, prngReg c r)) := by
  unfold Pipeline.ΦA; rw [scopedRest6_split]; simp only [scM6_0, owns_whole]; try rfl

theorem owns_wu {sp : Space} {sh : Shape} {e : EltTy} (c : Dev nD) {m : Memref sig .tc sp sh e} (h : m.IsWhole) (q : PosShare TreeShare)
    (X : sh.Idx → Elt F e) : (owns (c : Thread nD τ) m q X : sProp 𝕄) = (m.view.loc (c : Thread nD τ) ↦[m.view.set]{q} h.unread X) := by
  unfold owns
  have h₁ : iprop(∃ f, ⌜m.view.read (Elt F) f = X⌝ ∗ (m.view.loc (c : Thread nD τ) ↦[m.view.set]{q} f)) ⊢ (m.view.loc (c : Thread nD τ) ↦[m.view.set]{q} h.unread X : sProp 𝕄) := by
    iintro ⟨%f, %hf, H⟩; obtain rfl := h.eq_unread hf; iexact H
  have h₂ : (m.view.loc (c : Thread nD τ) ↦[m.view.set]{q} h.unread X : sProp 𝕄) ⊢ iprop(∃ f, ⌜m.view.read (Elt F) f = X⌝ ∗ (m.view.loc (c : Thread nD τ) ↦[m.view.set]{q} f)) := by
    iintro H; iexists _; isplitr; · ipureintro; exact h.read_unread _
    iexact H
  exact BI.equiv_iff.mp ⟨h₁, h₂⟩

end Cert.KernelIdeal.Hand
end
-- ==== Proof.KI.Reg6RunA.lean ====
import proofs.«400867_j53901839564968_2_alg».proof.Proof.KI.Reg6Runs
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 4000000 in

noncomputable def kernelRun6_A (c : Dev nD) (i : grid6.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S320x64 .f32) (harg6 : arg6.IsWhole) (arg7 : Memref sig .tc .vmem S1x64 .f32) (harg7 : arg7.IsWhole) (arg8 : Memref sig .tc .vmem S2000x1 .i32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S64x10 .f32) (harg13 : arg13.IsWhole) (arg14 : Memref sig .tc .vmem S1x10 .f32) (harg14 : arg14.IsWhole) (arg15 : Memref sig .tc .vmem S128x10 .f32) (harg15 : arg15.IsWhole) (arg16 : Memref sig .tc .vmem S128x64 .f32) (harg16 : arg16.IsWhole) (hc0 : cond6_0 i) (hc1 : ¬cond6_1 i)
    (x0 x1 x2 x3 x4 : Vec F S2000x64 .f32) (x5 : Vec F S320x64 .f32) (x6 : Vec F S1x64 .f32) (x7 : Vec F S2000x1 .i32) (x8 : Vec F S64x64 .f32) (x9 x10 x11 : Vec F S1x64 .f32) (x12 : Vec F S64x10 .f32) (x13 : Vec F S1x10 .f32) :
    Σ' (L14 : List (View.Piece (Elt F) S128x10 .f32)), { LS0 : List (View.Piece (Elt F) S128x64 .f32) //
      ∀ (xi14 : Vec F S128x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ f, arg16.view.loc (c : Thread nD τ) ↦[arg16.view.set]{fullShare} arg16.view.writes (Elt F) f LS0)) -∗ K ⟨⟩))
          ⊢ wp frame (wpE (defs₀ (F := F)) Variants.none c none) E (cc6__jk_pool_clf_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, fun xi14 E K => ?run⟩
  case run =>
    simp only [owns_wu c harg1, owns_wu c harg2, owns_wu c harg3, owns_wu c harg4, owns_wu c harg5, owns_wu c harg6, owns_wu c harg7, owns_wu c harg8, owns_wu c harg9, owns_wu c harg10, owns_wu c harg11, owns_wu c harg12, owns_wu c harg13, owns_wu c harg14, owns_wu c harg15, owns_wu c harg16]
    simp only [cc6__jk_pool_clf_kernel_eq_skeleton]; unfold cc6__jk_pool_clf_kernel_skel
    simp only [k6_part2_eq_skeleton]; unfold k6_part2_skel
    iintro ⟨H0, H1, H2, H3, H4, H5, H6, H7, H8, H9, H10, H11, H12, H13, H14, ⟨%d, HS0⟩, Hk⟩
    sl_exec (disch := first | exact hc0 | exact hc1)
    sl_step
    iapply Hk
    iframe H0 H1 H2 H3 H4 H5 H6 H7 H8 H9 H10 H11 H12 H13 H14
    iexists _; iexact HS0

end Cert.KernelIdeal.Hand
end
-- ==== Proof.KI.Reg6RunB.lean ====
import proofs.«400867_j53901839564968_2_alg».proof.Proof.KI.Reg6RunA
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 4000000 in

noncomputable def kernelRun6_B (c : Dev nD) (i : grid6.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S320x64 .f32) (harg6 : arg6.IsWhole) (arg7 : Memref sig .tc .vmem S1x64 .f32) (harg7 : arg7.IsWhole) (arg8 : Memref sig .tc .vmem S2000x1 .i32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S64x10 .f32) (harg13 : arg13.IsWhole) (arg14 : Memref sig .tc .vmem S1x10 .f32) (harg14 : arg14.IsWhole) (arg15 : Memref sig .tc .vmem S128x10 .f32) (harg15 : arg15.IsWhole) (arg16 : Memref sig .tc .vmem S128x64 .f32) (harg16 : arg16.IsWhole) (hc0 : ¬cond6_0 i) (hc1 : ¬cond6_1 i)
    (x0 x1 x2 x3 x4 : Vec F S2000x64 .f32) (x5 : Vec F S320x64 .f32) (x6 : Vec F S1x64 .f32) (x7 : Vec F S2000x1 .i32) (x8 : Vec F S64x64 .f32) (x9 x10 x11 : Vec F S1x64 .f32) (x12 : Vec F S64x10 .f32) (x13 : Vec F S1x10 .f32) (xs0 : Vec F S128x64 .f32) :
    Σ' (L14 : List (View.Piece (Elt F) S128x10 .f32)), { LS0 : List (View.Piece (Elt F) S128x64 .f32) //
      ∀ (xi14 : Vec F S128x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ owns (c : Thread nD τ) arg16 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ f, arg16.view.loc (c : Thread nD τ) ↦[arg16.view.set]{fullShare} arg16.view.writes (Elt F) f LS0)) -∗ K ⟨⟩))
          ⊢ wp frame (wpE (defs₀ (F := F)) Variants.none c none) E (cc6__jk_pool_clf_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, fun xi14 E K => ?run⟩
  case run =>
    simp only [owns_wu c harg1, owns_wu c harg2, owns_wu c harg3, owns_wu c harg4, owns_wu c harg5, owns_wu c harg6, owns_wu c harg7, owns_wu c harg8, owns_wu c harg9, owns_wu c harg10, owns_wu c harg11, owns_wu c harg12, owns_wu c harg13, owns_wu c harg14, owns_wu c harg15, owns_wu c harg16]
    simp only [cc6__jk_pool_clf_kernel_eq_skeleton]; unfold cc6__jk_pool_clf_kernel_skel
    simp only [k6_part2_eq_skeleton]; unfold k6_part2_skel
    iintro ⟨H0, H1, H2, H3, H4, H5, H6, H7, H8, H9, H10, H11, H12, H13, H14, HS0, Hk⟩
    sl_exec (disch := first | exact hc0 | exact hc1)
    sl_step
    iapply Hk
    iframe H0 H1 H2 H3 H4 H5 H6 H7 H8 H9 H10 H11 H12 H13 H14
    iexists _; iexact HS0

end Cert.KernelIdeal.Hand
end
-- ==== Proof.KI.Reg6RunC.lean ====
import proofs.«400867_j53901839564968_2_alg».proof.Proof.KI.Reg6RunB
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 4000000 in

noncomputable def kernelRun6_C (c : Dev nD) (i : grid6.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S320x64 .f32) (harg6 : arg6.IsWhole) (arg7 : Memref sig .tc .vmem S1x64 .f32) (harg7 : arg7.IsWhole) (arg8 : Memref sig .tc .vmem S2000x1 .i32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S64x10 .f32) (harg13 : arg13.IsWhole) (arg14 : Memref sig .tc .vmem S1x10 .f32) (harg14 : arg14.IsWhole) (arg15 : Memref sig .tc .vmem S128x10 .f32) (harg15 : arg15.IsWhole) (arg16 : Memref sig .tc .vmem S128x64 .f32) (harg16 : arg16.IsWhole) (hc0 : ¬cond6_0 i) (hc1 : cond6_1 i)
    (x0 x1 x2 x3 x4 : Vec F S2000x64 .f32) (x5 : Vec F S320x64 .f32) (x6 : Vec F S1x64 .f32) (x7 : Vec F S2000x1 .i32) (x8 : Vec F S64x64 .f32) (x9 x10 x11 : Vec F S1x64 .f32) (x12 : Vec F S64x10 .f32) (x13 : Vec F S1x10 .f32) (xs0 : Vec F S128x64 .f32) :
    Σ' (L14 : List (View.Piece (Elt F) S128x10 .f32)), { LS0 : List (View.Piece (Elt F) S128x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg16 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LS0)) -∗ K ⟨⟩))
          ⊢ wp frame (wpE (defs₀ (F := F)) Variants.none c none) E (cc6__jk_pool_clf_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [owns_wu c harg1, owns_wu c harg2, owns_wu c harg3, owns_wu c harg4, owns_wu c harg5, owns_wu c harg6, owns_wu c harg7, owns_wu c harg8, owns_wu c harg9, owns_wu c harg10, owns_wu c harg11, owns_wu c harg12, owns_wu c harg13, owns_wu c harg14, owns_wu c harg15, owns_wu c harg16]
    simp only [cc6__jk_pool_clf_kernel_eq_skeleton]; unfold cc6__jk_pool_clf_kernel_skel
    simp only [k6_part2_eq_skeleton, k6_part1_eq_skeleton]; unfold k6_part2_skel k6_part1_skel
    iintro ⟨H0, H1, H2, H3, H4, H5, H6, H7, H8, H9, H10, H11, H12, H13, ⟨%d, H14⟩, HS0, Hk⟩
    sl_exec (disch := first | exact hc0 | exact hc1)
    sl_step
    iapply Hk
    iframe H0 H1 H2 H3 H4 H5 H6 H7 H8 H9 H10 H11 H12 H13
    isplitl [H14]; · iexists _; iexact H14
    iexists _; iexact HS0

end Cert.KernelIdeal.Hand
end
-- ==== Proof.KI.Reg6Outs.lean ====
import proofs.«400867_j53901839564968_2_alg».proof.Proof.KI.Reg6RunC
import Idealize.ShloMosaic.Lib.Pipeline.Value
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

theorem hz6 : (![0, 0] : Fin 2 → Nat) = fun _ => 0 := funext fun a => by fin_cases a <;> rfl

def acc6 (x0 x1 x2 x3 x4 : Vec F S2000x64 .f32) (x5 : Vec F S320x64 .f32) (x6 : Vec F S1x64 .f32) (x7 : Vec F S2000x1 .i32)
    (s : Vec F S128x64 .f32) : Vec F S128x64 .f32 :=
  k6_pay1 (k6_pay6 x5 x0 x1 x2 x3) (k6_pay7 x4) (k6_pay8 x5) (constant S2000x64 .f32 0x00000000#32) x6 x7 s

def clf6 (s : Vec F S128x64 .f32) (x8 : Vec F S64x64 .f32) (x9 x10 x11 : Vec F S1x64 .f32) (x12 : Vec F S64x10 .f32)
    (x13 : Vec F S1x10 .f32) : Vec F S128x10 .f32 :=
  k6_pay2 (k6_pay3 x12) (k6_pay4 s x8 x9 x10 x11) (constant S128x10 .f32 0x00000000#32) x13

variable (c : Dev nD) (i : grid6.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S320x64 .f32) (harg6 : arg6.IsWhole) (arg7 : Memref sig .tc .vmem S1x64 .f32) (harg7 : arg7.IsWhole) (arg8 : Memref sig .tc .vmem S2000x1 .i32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S64x10 .f32) (harg13 : arg13.IsWhole) (arg14 : Memref sig .tc .vmem S1x10 .f32) (harg14 : arg14.IsWhole) (arg15 : Memref sig .tc .vmem S128x10 .f32) (harg15 : arg15.IsWhole) (arg16 : Memref sig .tc .vmem S128x64 .f32) (harg16 : arg16.IsWhole)

section
variable (hc0 : cond6_0 i) (hc1 : ¬cond6_1 i) (x0 x1 x2 x3 x4 : Vec F S2000x64 .f32) (x5 : Vec F S320x64 .f32) (x6 : Vec F S1x64 .f32) (x7 : Vec F S2000x1 .i32) (x8 : Vec F S64x64 .f32) (x9 x10 x11 : Vec F S1x64 .f32) (x12 : Vec F S64x10 .f32) (x13 : Vec F S1x10 .f32)

def out6_A_14 : Vec F S128x10 .f32 :=
  VO6_14.read (Elt F) (VO6_14.writes (Elt F) VO6_14.junk (kernelRun6_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13).1)

theorem scover6_A_0 (y : S128x64.Idx) : ∃ pc ∈ (kernelRun6_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13).2.1, y ∈ pc.1.set :=
  View.cover_of_tiledL _ S128x64.size (by sl_kernel_rfl) y

def sout6_A_0 : Vec F S128x64 .f32 :=
  VS6_0.read (Elt F) (VS6_0.writes (Elt F) VS6_0.junk (kernelRun6_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13).2.1)

theorem sout6_A_eq : sout6_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 = acc6 x0 x1 x2 x3 x4 x5 x6 x7 (k6_pay5 (F := F)) := by
  unfold sout6_A_0
  rw [View.read_writes_eq_canon _ _ _ (fun y => scover6_A_0 (y := y) ..)]
  unfold kernelRun6_A
  dsimp only
  try sl_unfold_run_names
  rw [View.canon_cons_unit_zero hz6]
  simp only [View.readCov_unit_zero (S := S128x64) _ hz6]
  simp only [View.readAt_eq_ld, Memref.IsWhole.read_unread, View.ld_unit_zero (S := S2000x64) hz6, View.ld_unit_zero (S := S320x64) hz6, View.ld_unit_zero (S := S1x64) hz6, View.ld_unit_zero (S := S2000x1) hz6, View.ld_unit_zero (S := S64x64) hz6, View.ld_unit_zero (S := S64x10) hz6, View.ld_unit_zero (S := S1x10) hz6, View.ld_unit_zero (S := S128x10) hz6, View.ld_unit_zero (S := S128x64) hz6]
  rfl

end

section
variable (hc0 : ¬cond6_0 i) (hc1 : ¬cond6_1 i) (x0 x1 x2 x3 x4 : Vec F S2000x64 .f32) (x5 : Vec F S320x64 .f32) (x6 : Vec F S1x64 .f32) (x7 : Vec F S2000x1 .i32) (x8 : Vec F S64x64 .f32) (x9 x10 x11 : Vec F S1x64 .f32) (x12 : Vec F S64x10 .f32) (x13 : Vec F S1x10 .f32) (xs0 : Vec F S128x64 .f32)

def out6_B_14 : Vec F S128x10 .f32 :=
  VO6_14.read (Elt F) (VO6_14.writes (Elt F) VO6_14.junk (kernelRun6_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).1)

theorem scover6_B_0 (y : S128x64.Idx) : ∃ pc ∈ (kernelRun6_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).2.1, y ∈ pc.1.set :=
  View.cover_of_tiledL _ S128x64.size (by sl_kernel_rfl) y

def sout6_B_0 : Vec F S128x64 .f32 :=
  VS6_0.read (Elt F) (VS6_0.writes (Elt F) VS6_0.junk (kernelRun6_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).2.1)

theorem sout6_B_eq : sout6_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0 = acc6 x0 x1 x2 x3 x4 x5 x6 x7 xs0 := by
  unfold sout6_B_0
  rw [View.read_writes_eq_canon _ _ _ (fun y => scover6_B_0 (y := y) ..)]
  unfold kernelRun6_B
  dsimp only
  try sl_unfold_run_names
  rw [View.canon_unit_zero hz6]
  simp only [View.readAt_eq_ld, Memref.IsWhole.read_unread, View.ld_unit_zero (S := S2000x64) hz6, View.ld_unit_zero (S := S320x64) hz6, View.ld_unit_zero (S := S1x64) hz6, View.ld_unit_zero (S := S2000x1) hz6, View.ld_unit_zero (S := S64x64) hz6, View.ld_unit_zero (S := S64x10) hz6, View.ld_unit_zero (S := S1x10) hz6, View.ld_unit_zero (S := S128x10) hz6, View.ld_unit_zero (S := S128x64) hz6]
  rfl

end

section
variable (hc0 : ¬cond6_0 i) (hc1 : cond6_1 i) (x0 x1 x2 x3 x4 : Vec F S2000x64 .f32) (x5 : Vec F S320x64 .f32) (x6 : Vec F S1x64 .f32) (x7 : Vec F S2000x1 .i32) (x8 : Vec F S64x64 .f32) (x9 x10 x11 : Vec F S1x64 .f32) (x12 : Vec F S64x10 .f32) (x13 : Vec F S1x10 .f32) (xs0 : Vec F S128x64 .f32)

theorem cover6_C_14 (y : S128x10.Idx) : ∃ pc ∈ (kernelRun6_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).1, y ∈ pc.1.set :=
  View.cover_of_tiledL _ S128x10.size (by sl_kernel_rfl) y

def out6_C_14 : Vec F S128x10 .f32 :=
  VO6_14.read (Elt F) (VO6_14.writes (Elt F) VO6_14.junk (kernelRun6_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).1)

theorem scover6_C_0 (y : S128x64.Idx) : ∃ pc ∈ (kernelRun6_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).2.1, y ∈ pc.1.set :=
  View.cover_of_tiledL _ S128x64.size (by sl_kernel_rfl) y

def sout6_C_0 : Vec F S128x64 .f32 :=
  VS6_0.read (Elt F) (VS6_0.writes (Elt F) VS6_0.junk (kernelRun6_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).2.1)

theorem sout6_C_eq : sout6_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0 = acc6 x0 x1 x2 x3 x4 x5 x6 x7 xs0 := by
  unfold sout6_C_0
  rw [View.read_writes_eq_canon _ _ _ (fun y => scover6_C_0 (y := y) ..)]
  unfold kernelRun6_C
  dsimp only
  try sl_unfold_run_names
  rw [View.canon_unit_zero hz6]
  simp only [View.readAt_eq_ld, Memref.IsWhole.read_unread, View.ld_unit_zero (S := S2000x64) hz6, View.ld_unit_zero (S := S320x64) hz6, View.ld_unit_zero (S := S1x64) hz6, View.ld_unit_zero (S := S2000x1) hz6, View.ld_unit_zero (S := S64x64) hz6, View.ld_unit_zero (S := S64x10) hz6, View.ld_unit_zero (S := S1x10) hz6, View.ld_unit_zero (S := S128x10) hz6, View.ld_unit_zero (S := S128x64) hz6]
  rfl

theorem out6_C_eq : out6_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0 = clf6 (acc6 x0 x1 x2 x3 x4 x5 x6 x7 xs0) x8 x9 x10 x11 x12 x13 := by
  unfold out6_C_14
  rw [View.read_writes_eq_canon _ _ _ (fun y => cover6_C_14 (y := y) ..)]
  unfold kernelRun6_C
  dsimp only
  try sl_unfold_run_names
  rw [View.canon_unit_zero hz6]
  simp only [View.readCov_unit_zero (S := S128x64) _ hz6]
  simp only [View.readAt_eq_ld, Memref.IsWhole.read_unread, View.ld_unit_zero (S := S2000x64) hz6, View.ld_unit_zero (S := S320x64) hz6, View.ld_unit_zero (S := S1x64) hz6, View.ld_unit_zero (S := S2000x1) hz6, View.ld_unit_zero (S := S64x64) hz6, View.ld_unit_zero (S := S64x10) hz6, View.ld_unit_zero (S := S1x10) hz6, View.ld_unit_zero (S := S128x10) hz6, View.ld_unit_zero (S := S128x64) hz6]
  rfl

end

end Cert.KernelIdeal.Hand
end
-- ==== Proof.KI.Reg6.lean ====
import proofs.«400867_j53901839564968_2_alg».proof.Proof.Gen.KernelIdeal.Launch
import proofs.«400867_j53901839564968_2_alg».proof.Proof.Gen.KernelIdeal.Skeleton
import proofs.«400867_j53901839564968_2_alg».proof.Proof.Gen.KernelIdeal.Points
import proofs.«400867_j53901839564968_2_alg».proof.Proof.KI.Reg6Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b)) (c : Dev nD)

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

section
variable (t : Fin cfg6.N)
abbrev ms6_0 : Memref sig .tc .vmem S2000x64 .f32 := win6_0.stage (cfg6.slots t 0)
abbrev hs6_0 : (ms6_0 t).IsWhole := hstage6_0 ((cfg6.slots t 0).cast nbuf6_0)
abbrev ms6_1 : Memref sig .tc .vmem S2000x64 .f32 := win6_1.stage (cfg6.slots t 1)
abbrev hs6_1 : (ms6_1 t).IsWhole := hstage6_1 ((cfg6.slots t 1).cast nbuf6_1)
abbrev ms6_2 : Memref sig .tc .vmem S2000x64 .f32 := win6_2.stage (cfg6.slots t 2)
abbrev hs6_2 : (ms6_2 t).IsWhole := hstage6_2 ((cfg6.slots t 2).cast nbuf6_2)
abbrev ms6_3 : Memref sig .tc .vmem S2000x64 .f32 := win6_3.stage (cfg6.slots t 3)
abbrev hs6_3 : (ms6_3 t).IsWhole := hstage6_3 ((cfg6.slots t 3).cast nbuf6_3)
abbrev ms6_4 : Memref sig .tc .vmem S2000x64 .f32 := win6_4.stage (cfg6.slots t 4)
abbrev hs6_4 : (ms6_4 t).IsWhole := hstage6_4 ((cfg6.slots t 4).cast nbuf6_4)
abbrev ms6_5 : Memref sig .tc .vmem S320x64 .f32 := win6_5.stage (cfg6.slots t 5)
abbrev hs6_5 : (ms6_5 t).IsWhole := hstage6_5 ((cfg6.slots t 5).cast nbuf6_5)
abbrev ms6_6 : Memref sig .tc .vmem S1x64 .f32 := win6_6.stage (cfg6.slots t 6)
abbrev hs6_6 : (ms6_6 t).IsWhole := hstage6_6 ((cfg6.slots t 6).cast nbuf6_6)
abbrev ms6_7 : Memref sig .tc .vmem S2000x1 .i32 := win6_7.stage (cfg6.slots t 7)
abbrev hs6_7 : (ms6_7 t).IsWhole := hstage6_7 ((cfg6.slots t 7).cast nbuf6_7)
abbrev ms6_8 : Memref sig .tc .vmem S64x64 .f32 := win6_8.stage (cfg6.slots t 8)
abbrev hs6_8 : (ms6_8 t).IsWhole := hstage6_8 ((cfg6.slots t 8).cast nbuf6_8)
abbrev ms6_9 : Memref sig .tc .vmem S1x64 .f32 := win6_9.stage (cfg6.slots t 9)
abbrev hs6_9 : (ms6_9 t).IsWhole := hstage6_9 ((cfg6.slots t 9).cast nbuf6_9)
abbrev ms6_10 : Memref sig .tc .vmem S1x64 .f32 := win6_10.stage (cfg6.slots t 10)
abbrev hs6_10 : (ms6_10 t).IsWhole := hstage6_10 ((cfg6.slots t 10).cast nbuf6_10)
abbrev ms6_11 : Memref sig .tc .vmem S1x64 .f32 := win6_11.stage (cfg6.slots t 11)
abbrev hs6_11 : (ms6_11 t).IsWhole := hstage6_11 ((cfg6.slots t 11).cast nbuf6_11)
abbrev ms6_12 : Memref sig .tc .vmem S64x10 .f32 := win6_12.stage (cfg6.slots t 12)
abbrev hs6_12 : (ms6_12 t).IsWhole := hstage6_12 ((cfg6.slots t 12).cast nbuf6_12)
abbrev ms6_13 : Memref sig .tc .vmem S1x10 .f32 := win6_13.stage (cfg6.slots t 13)
abbrev hs6_13 : (ms6_13 t).IsWhole := hstage6_13 ((cfg6.slots t 13).cast nbuf6_13)
abbrev ms6_14 : Memref sig .tc .vmem S128x10 .f32 := win6_14.stage (cfg6.slots t 14)
abbrev hs6_14 : (ms6_14 t).IsWhole := hstage6_14 ((cfg6.slots t 14).cast nbuf6_14)
end

def outA6 (t : Fin cfg6.N) (h0 : t.val = 0) (h1 : ¬t.val = 24) : Vec F S128x10 .f32 × Vec F S128x64 .f32 :=
    (out6_A_14 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t) (ms6_14 t) (hs6_14 t) scM6_0 hscM6_0 ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t),
      sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t) (ms6_14 t) (hs6_14 t) scM6_0 hscM6_0 ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t))

def outB6 (t : Fin cfg6.N) (h0 : ¬t.val = 0) (h1 : ¬t.val = 24) (s : Vec F S128x64 .f32) : Vec F S128x10 .f32 × Vec F S128x64 .f32 :=
    (out6_B_14 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t) (ms6_14 t) (hs6_14 t) scM6_0 hscM6_0 (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) s,
      sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t) (ms6_14 t) (hs6_14 t) scM6_0 hscM6_0 (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) s)

def outC6 (t : Fin cfg6.N) (h0 : ¬t.val = 0) (h1 : t.val = 24) (s : Vec F S128x64 .f32) : Vec F S128x10 .f32 × Vec F S128x64 .f32 :=
    (out6_C_14 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t) (ms6_14 t) (hs6_14 t) scM6_0 hscM6_0 (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) s,
      sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t) (ms6_14 t) (hs6_14 t) scM6_0 hscM6_0 (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) s)

def outsAt6 : (n : ℕ) → n < cfg6.N → Vec F S128x10 .f32 × Vec F S128x64 .f32
  | 0, hn => outA6 V c ⟨0, hn⟩ rfl (fun h => Nat.succ_ne_zero 23 h.symm)
  | n + 1, hn =>
    if h1 : n + 1 = 24 then outC6 V c ⟨n + 1, hn⟩ (Nat.succ_ne_zero n) h1 (outsAt6 n (Nat.lt_of_succ_lt hn)).2
    else outB6 V c ⟨n + 1, hn⟩ (Nat.succ_ne_zero n) h1 (outsAt6 n (Nat.lt_of_succ_lt hn)).2

theorem outsAt6_A (t : Fin cfg6.N) (h0 : t.val = 0) (h1 : ¬t.val = 24) :
    outsAt6 V c t.val t.isLt = (out6_A_14 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t) (ms6_14 t) (hs6_14 t) scM6_0 hscM6_0 ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t),
      sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t) (ms6_14 t) (hs6_14 t) scM6_0 hscM6_0 ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t)) := by
  obtain ⟨n, hn⟩ := t
  cases n with
  | zero => exact rfl
  | succ n => exact absurd h0 (Nat.succ_ne_zero n)

theorem outsAt6_B (t : Fin cfg6.N) (h0 : ¬t.val = 0) (h1 : ¬t.val = 24) :
    outsAt6 V c t.val t.isLt = (out6_B_14 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t) (ms6_14 t) (hs6_14 t) scM6_0 hscM6_0 (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (outsAt6 V c (t.val - 1) (Nat.lt_of_le_of_lt (Nat.sub_le _ _) t.isLt)).2,
      sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t) (ms6_14 t) (hs6_14 t) scM6_0 hscM6_0 (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (outsAt6 V c (t.val - 1) (Nat.lt_of_le_of_lt (Nat.sub_le _ _) t.isLt)).2) := by
  obtain ⟨n, hn⟩ := t
  cases n with
  | zero => exact absurd rfl h0
  | succ n => exact (dif_neg h1).trans rfl

theorem outsAt6_C (t : Fin cfg6.N) (h0 : ¬t.val = 0) (h1 : t.val = 24) :
    outsAt6 V c t.val t.isLt = (out6_C_14 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t) (ms6_14 t) (hs6_14 t) scM6_0 hscM6_0 (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (outsAt6 V c (t.val - 1) (Nat.lt_of_le_of_lt (Nat.sub_le _ _) t.isLt)).2,
      sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (ms6_10 t) (hs6_10 t) (ms6_11 t) (hs6_11 t) (ms6_12 t) (hs6_12 t) (ms6_13 t) (hs6_13 t) (ms6_14 t) (hs6_14 t) scM6_0 hscM6_0 (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (outsAt6 V c (t.val - 1) (Nat.lt_of_le_of_lt (Nat.sub_le _ _) t.isLt)).2) := by
  obtain ⟨n, hn⟩ := t
  cases n with
  | zero => exact absurd rfl h0
  | succ n => exact (dif_pos h1).trans rfl

def PhiS6 : (n : ℕ) → n ≤ cfg6.N → sProp 𝕄
  | 0, _ => Pipeline.ΦA spec6 c
  | n + 1, hn => iprop(iprop(owns (c : Thread nD τ) scM6_0 fullShare ((outsAt6 V c n hn).2) ∗ Pipeline.scopedRestBut (Ix := Unit) (Name := ℕ) (U := UR sig nD τ) (Lvl := ℕ) (Val := Elt F) spec6 c [cc6_scratch0]) ∗ (∃ r, prngReg c r))

theorem PhiS6_zero (n : ℕ) (h : n ≤ cfg6.N) (hz : n = 0) : PhiS6 V c n h = Pipeline.ΦA spec6 c := by
  subst hz; rfl

theorem PhiS6_succ (n : ℕ) (hn : n < cfg6.N) :
    PhiS6 V c (n + 1) hn = iprop(iprop(owns (c : Thread nD τ) scM6_0 fullShare ((outsAt6 V c n hn).2) ∗ Pipeline.scopedRestBut (Ix := Unit) (Name := ℕ) (U := UR sig nD τ) (Lvl := ℕ) (Val := Elt F) spec6 c [cc6_scratch0]) ∗ (∃ r, prngReg c r)) := rfl

theorem PhiS6_pos (n : ℕ) (h : n ≤ cfg6.N) (hz : n ≠ 0) :
    PhiS6 V c n h = iprop(iprop(owns (c : Thread nD τ) scM6_0 fullShare ((outsAt6 V c (n - 1) (by omega)).2) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

def dat6 : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => iblk6 V c 10 t
    | ⟨11, _⟩ => iblk6 V c 11 t
    | ⟨12, _⟩ => iblk6 V c 12 t
    | ⟨13, _⟩ => iblk6 V c 13 t
    | ⟨14, _⟩ => (outsAt6 V c t.val t.isLt).1
  Φ t := PhiS6 V c t.val (Nat.le_of_lt_succ t.isLt)
  q _ := fullShare
  owed _ := 0

theorem A_eq6 (w : Fin cfg6.W) : (dat6 V c).A w = V c (Pipeline.arrRef spec6 w) := by
  dsimp only [dat6]

theorem PhiS6_castSucc (t : Fin cfg6.N) :
    (dat6 V c).Φ t.castSucc = PhiS6 V c t.val (Nat.le_of_lt t.isLt) := by
  dsimp only [dat6]; simp only [Fin.coe_castSucc]

theorem after6_14 (t : Fin cfg6.N) : (dat6 V c).after 14 t = (outsAt6 V c t.val t.isLt).1 := by dsimp only [dat6]

theorem before6_0 (t : Fin cfg6.N) (d) : (dat6 V c).before 0 t d = iblk6 V c 0 t :=
  ((dat6 V c).before_in_eq_fetched 0 rfl (fun _ => rfl) (fun _ _ _ => rfl) (fun _ => rfl) t d).trans rfl
theorem before6_1 (t : Fin cfg6.N) (d) : (dat6 V c).before 1 t d = iblk6 V c 1 t :=
  ((dat6 V c).before_in_eq_fetched 1 rfl (fun _ => rfl) (fun _ _ _ => rfl) (fun _ => rfl) t d).trans rfl
theorem before6_2 (t : Fin cfg6.N) (d) : (dat6 V c).before 2 t d = iblk6 V c 2 t :=
  ((dat6 V c).before_in_eq_fetched 2 rfl (fun _ => rfl) (fun _ _ _ => rfl) (fun _ => rfl) t d).trans rfl
theorem before6_3 (t : Fin cfg6.N) (d) : (dat6 V c).before 3 t d = iblk6 V c 3 t :=
  ((dat6 V c).before_in_eq_fetched 3 rfl (fun _ => rfl) (fun _ _ _ => rfl) (fun _ => rfl) t d).trans rfl
theorem before6_4 (t : Fin cfg6.N) (d) : (dat6 V c).before 4 t d = iblk6 V c 4 t :=
  ((dat6 V c).before_in_eq_fetched 4 rfl (fun _ => rfl) (fun _ _ _ => rfl) (fun _ => rfl) t d).trans rfl
theorem before6_5 (t : Fin cfg6.N) (d) : (dat6 V c).before 5 t d = iblk6 V c 5 t :=
  ((dat6 V c).before_in_eq_fetched 5 rfl (fun _ => rfl) (fun _ _ _ => rfl) (fun _ => rfl) t d).trans rfl
theorem before6_6 (t : Fin cfg6.N) (d) : (dat6 V c).before 6 t d = iblk6 V c 6 t :=
  ((dat6 V c).before_in_eq_fetched 6 rfl (fun _ => rfl) (fun _ _ _ => rfl) (fun _ => rfl) t d).trans rfl
theorem before6_7 (t : Fin cfg6.N) (d) : (dat6 V c).before 7 t d = iblk6 V c 7 t :=
  ((dat6 V c).before_in_eq_fetched 7 rfl (fun _ => rfl) (fun _ _ _ => rfl) (fun _ => rfl) t d).trans rfl
theorem before6_8 (t : Fin cfg6.N) (d) : (dat6 V c).before 8 t d = iblk6 V c 8 t :=
  ((dat6 V c).before_in_eq_fetched 8 rfl (fun _ => rfl) (fun _ _ _ => rfl) (fun _ => rfl) t d).trans rfl
theorem before6_9 (t : Fin cfg6.N) (d) : (dat6 V c).before 9 t d = iblk6 V c 9 t :=
  ((dat6 V c).before_in_eq_fetched 9 rfl (fun _ => rfl) (fun _ _ _ => rfl) (fun _ => rfl) t d).trans rfl
theorem before6_10 (t : Fin cfg6.N) (d) : (dat6 V c).before 10 t d = iblk6 V c 10 t :=
  ((dat6 V c).before_in_eq_fetched 10 rfl (fun _ => rfl) (fun _ _ _ => rfl) (fun _ => rfl) t d).trans rfl
theorem before6_11 (t : Fin cfg6.N) (d) : (dat6 V c).before 11 t d = iblk6 V c 11 t :=
  ((dat6 V c).before_in_eq_fetched 11 rfl (fun _ => rfl) (fun _ _ _ => rfl) (fun _ => rfl) t d).trans rfl
theorem before6_12 (t : Fin cfg6.N) (d) : (dat6 V c).before 12 t d = iblk6 V c 12 t :=
  ((dat6 V c).before_in_eq_fetched 12 rfl (fun _ => rfl) (fun _ _ _ => rfl) (fun _ => rfl) t d).trans rfl
theorem before6_13 (t : Fin cfg6.N) (d) : (dat6 V c).before 13 t d = iblk6 V c 13 t :=
  ((dat6 V c).before_in_eq_fetched 13 rfl (fun _ => rfl) (fun _ _ _ => rfl) (fun _ => rfl) t d).trans rfl

set_option maxHeartbeats 8000000 in
theorem sound_body6 (t : Fin cfg6.N) :
    iprop((dat6 V c).Φ t.castSucc ∗ (dat6 V c).owesAt () t.castSucc
      ∗ (∃ d, owns (c : Thread nD τ) (ms6_0 t) fullShare ((dat6 V c).before 0 t d))
      ∗ (∃ d, owns (c : Thread nD τ) (ms6_1 t) fullShare ((dat6 V c).before 1 t d))
      ∗ (∃ d, owns (c : Thread nD τ) (ms6_2 t) fullShare ((dat6 V c).before 2 t d))
      ∗ (∃ d, owns (c : Thread nD τ) (ms6_3 t) fullShare ((dat6 V c).before 3 t d))
      ∗ (∃ d, owns (c : Thread nD τ) (ms6_4 t) fullShare ((dat6 V c).before 4 t d))
      ∗ (∃ d, owns (c : Thread nD τ) (ms6_5 t) fullShare ((dat6 V c).before 5 t d))
      ∗ (∃ d, owns (c : Thread nD τ) (ms6_6 t) fullShare ((dat6 V c).before 6 t d))
      ∗ (∃ d, owns (c : Thread nD τ) (ms6_7 t) fullShare ((dat6 V c).before 7 t d))
      ∗ (∃ d, owns (c : Thread nD τ) (ms6_8 t) fullShare ((dat6 V c).before 8 t d))
      ∗ (∃ d, owns (c : Thread nD τ) (ms6_9 t) fullShare ((dat6 V c).before 9 t d))
      ∗ (∃ d, owns (c : Thread nD τ) (ms6_10 t) fullShare ((dat6 V c).before 10 t d))
      ∗ (∃ d, owns (c : Thread nD τ) (ms6_11 t) fullShare ((dat6 V c).before 11 t d))
      ∗ (∃ d, owns (c : Thread nD τ) (ms6_12 t) fullShare ((dat6 V c).before 12 t d))
      ∗ (∃ d, owns (c : Thread nD τ) (ms6_13 t) fullShare ((dat6 V c).before 13 t d))
      ∗ (∃ d, owns (c : Thread nD τ) (ms6_14 t) fullShare ((dat6 V c).before 14 t d)))
      ⊢ wp frame (wpE (defs₀ (F := F)) Variants.none c none) Set.univ (bodyAt6 t) (fun _ =>
      iprop(PhiS6 V c (t.val + 1) t.isLt ∗ (dat6 V c).owesAt () t.castSucc
        ∗ owns (c : Thread nD τ) (ms6_0 t) fullShare (iblk6 V c 0 t)
        ∗ owns (c : Thread nD τ) (ms6_1 t) fullShare (iblk6 V c 1 t)
        ∗ owns (c : Thread nD τ) (ms6_2 t) fullShare (iblk6 V c 2 t)
        ∗ owns (c : Thread nD τ) (ms6_3 t) fullShare (iblk6 V c 3 t)
        ∗ owns (c : Thread nD τ) (ms6_4 t) fullShare (iblk6 V c 4 t)
        ∗ owns (c : Thread nD τ) (ms6_5 t) fullShare (iblk6 V c 5 t)
        ∗ owns (c : Thread nD τ) (ms6_6 t) fullShare (iblk6 V c 6 t)
        ∗ owns (c : Thread nD τ) (ms6_7 t) fullShare (iblk6 V c 7 t)
        ∗ owns (c : Thread nD τ) (ms6_8 t) fullShare (iblk6 V c 8 t)
        ∗ owns (c : Thread nD τ) (ms6_9 t) fullShare (iblk6 V c 9 t)
        ∗ owns (c : Thread nD τ) (ms6_10 t) fullShare (iblk6 V c 10 t)
        ∗ owns (c : Thread nD τ) (ms6_11 t) fullShare (iblk6 V c 11 t)
        ∗ owns (c : Thread nD τ) (ms6_12 t) fullShare (iblk6 V c 12 t)
        ∗ owns (c : Thread nD τ) (ms6_13 t) fullShare (iblk6 V c 13 t)
        ∗ (dat6 V c).leavesExact 14 t)) := by
  unfold bodyAt6
  simp only [before6_0, before6_1, before6_2, before6_3, before6_4, before6_5, before6_6, before6_7, before6_8, before6_9, before6_10, before6_11, before6_12, before6_13]
  rw [PhiS6_succ, PhiS6_castSucc V c t]
  by_cases h0 : t.val = 0
  · have h1 : ¬t.val = 24 := by omega
    rw [Dat.leavesExact_idle (dat6 V c) 14 t (idleAt6_14 t (fun h => h1 ((hcond6_1 t).mp h))) (noFlush6_14 t (fun h => h1 ((hcond6_1 t).mp h)))]
    rw [outsAt6_A V c t h0 h1]
    unfold sout6_A_0; (try dsimp only)
    rw [PhiS6_zero V c _ _ h0, PhiA6_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun6_A c (grid6.coords t) _ _ _ _ _ _ _ _ _ _ _ _ _ _ _ _ _ _ _ _ _ _ _ _ _ _ _ _ _ _ _ _ ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t)).2.2 _ Set.univ _)
    iframe H0 H1 H2 H3 H4 H5 H6 H7 H8 H9 H10 H11 H12 H13 H14 HS0
    iintro ⟨H0, H1, H2, H3, H4, H5, H6, H7, H8, H9, H10, H11, H12, H13, H14, ⟨%es0, HS0⟩⟩
    iframe HR Hg Ho H0 H1 H2 H3 H4 H5 H6 H7 H8 H9 H10 H11 H12 H13
    isplitl [HS0]
    · unfold owns; iexists _; isplitr
      swap; · iexact HS0
      ipureintro; exact View.read_writes_of_cover _ _ _ _ _ fun y => scover6_A_0 (y := y) ..
    iexists _; iexact H14
  · by_cases h1 : t.val = 24
    · rw [show (dat6 V c).leavesExact 14 t = owns (c : Thread nD τ) (ms6_14 t) fullShare ((dat6 V c).after 14 t) from by
        unfold Dat.leavesExact; rw [liveAt6_14 t ((hcond6_1 t).mpr h1)], after6_14]
      rw [outsAt6_C V c t h0 h1]
      unfold out6_C_14 sout6_C_0; (try dsimp only)
      rw [PhiS6_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun6_C c (grid6.coords t) _ _ _ _ _ _ _ _ _ _ _ _ _ _ _ _ _ _ _ _ _ _ _ _ _ _ _ _ _ _ _ _ (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) _).2.2 Set.univ _)
      iframe H0 H1 H2 H3 H4 H5 H6 H7 H8 H9 H10 H11 H12 H13 HS0
      isplitl [H14]; · iexists _; iexact H14
      iintro ⟨H0, H1, H2, H3, H4, H5, H6, H7, H8, H9, H10, H11, H12, H13, ⟨%e14, H14⟩, ⟨%es0, HS0⟩⟩
      iframe HR Hg Ho H0 H1 H2 H3 H4 H5 H6 H7 H8 H9 H10 H11 H12 H13
      isplitl [HS0]
      · unfold owns; iexists _; isplitr
        swap; · iexact HS0
        ipureintro; exact View.read_writes_of_cover _ _ _ _ _ fun y => scover6_C_0 (y := y) ..
      unfold owns; iexists _; isplitr
      swap; · iexact H14
      ipureintro; exact View.read_writes_of_cover _ _ _ _ _ fun y => cover6_C_14 (y := y) ..
    · rw [Dat.leavesExact_idle (dat6 V c) 14 t (idleAt6_14 t (fun h => h1 ((hcond6_1 t).mp h))) (noFlush6_14 t (fun h => h1 ((hcond6_1 t).mp h)))]
      rw [outsAt6_B V c t h0 h1]
      unfold sout6_B_0; (try dsimp only)
      rw [PhiS6_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun6_B c (grid6.coords t) _ _ _ _ _ _ _ _ _ _ _ _ _ _ _ _ _ _ _ _ _ _ _ _ _ _ _ _ _ _ _ _ (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) _).2.2 _ Set.univ _)
      iframe H0 H1 H2 H3 H4 H5 H6 H7 H8 H9 H10 H11 H12 H13 H14 HS0
      iintro ⟨H0, H1, H2, H3, H4, H5, H6, H7, H8, H9, H10, H11, H12, H13, H14, ⟨%es0, HS0⟩⟩
      iframe HR Hg Ho H0 H1 H2 H3 H4 H5 H6 H7 H8 H9 H10 H11 H12 H13
      isplitl [HS0]
      · unfold owns; iexists _; isplitr
        swap; · iexact HS0
        ipureintro; exact View.read_writes_of_cover _ _ _ _ _ fun y => scover6_B_0 (y := y) ..
      iexists _; iexact H14

theorem body_obligation6 : BodyObligation (dat6 (F := F) V c) (defs₀ (F := F)) Variants.none () Set.univ := fun t => by
  rw [bigSep_W6, bigSep_W6]
  exact sound_body6 V c t

theorem hin6 : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem Phi_out6 (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, HR⟩, Hg⟩
  isplitl [HS0 HR]
  · isplitl [HS0]
    · iexists _; iexact HS0
    iexact HR
  iexact Hg

theorem hout6 : (dat6 V c).Φ (Fin.last cfg6.N) ⊢ Pipeline.ΦA spec6 c :=
  Phi_out6 V c _ (by rw [Fin.val_last]; have : cfg6.N = 25 := N_6; omega)

end Cert.KernelIdeal.Hand
end
-- ==== Proof.KI.Run.lean ====
import proofs.«400867_j53901839564968_2_alg».proof.Proof.Gen.KernelIdeal.Launch
import proofs.«400867_j53901839564968_2_alg».proof.Proof.Gen.KernelIdeal.Skeleton
import proofs.«400867_j53901839564968_2_alg».proof.Proof.Gen.KernelIdeal.Points
import proofs.«400867_j53901839564968_2_alg».proof.Proof.Gen.KernelIdeal.Regions
import proofs.«400867_j53901839564968_2_alg».proof.Proof.KI.Reg0
import proofs.«400867_j53901839564968_2_alg».proof.Proof.KI.Reg1
import proofs.«400867_j53901839564968_2_alg».proof.Proof.KI.Reg2
import proofs.«400867_j53901839564968_2_alg».proof.Proof.KI.Reg3
import proofs.«400867_j53901839564968_2_alg».proof.Proof.KI.Reg4
import proofs.«400867_j53901839564968_2_alg».proof.Proof.KI.Reg5
import proofs.«400867_j53901839564968_2_alg».proof.Proof.KI.Reg6
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) :=
  Pipeline.withArrays_of_ne spec2 c _ _ b hb
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) :=
  Pipeline.withArrays_of_ne spec3 c _ _ b hb
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N :=
  Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) :=
  Pipeline.withArrays_of_ne spec4 c _ _ b hb
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N :=
  Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) :=
  Pipeline.withArrays_of_ne spec5 c _ _ b hb
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N :=
  Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) :=
  Pipeline.withArrays_of_ne spec6 c _ _ b hb
theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h
theorem W14_out (c : Dev nD) : W14 m ρ c (Proc.devRef .tc main_v108) = (dat6 (V13 m ρ) c).arrAt 14 cfg6.N :=
  W14_arr m ρ c 14

/-- Two valuations that agree at each array of a family, and off the family, agree at `b`. -/
theorem keep_of {n : ℕ} {ar : Fin n → Ref sig .tc} {X Y : Valuation τ sig (Elt F)} {b : Ref sig .tc}
    (h1 : ∀ w, ar w = b → X (Proc.devRef .tc (ar w)) = Y (Proc.devRef .tc (ar w)))
    (h2 : (∀ w, ar w ≠ b) → X (Proc.devRef .tc b) = Y (Proc.devRef .tc b)) :
    X (Proc.devRef .tc b) = Y (Proc.devRef .tc b) := by
  by_cases hb : ∃ w, ar w = b
  · obtain ⟨w, rfl⟩ := hb; exact h1 w rfl
  · exact h2 fun w e => hb ⟨w, e⟩

/-- `b` is in no host stretch's write list and is no output array of any region. -/
abbrev Kept (b : Ref sig .tc) : Prop :=
  b ∉ hostOps0_W ∧ (∀ w, Pipeline.arrRef spec0 w = b → (cfg0.win w).isOut = false)
  ∧ b ∉ hostOps1_W ∧ (∀ w, Pipeline.arrRef spec1 w = b → (cfg1.win w).isOut = false)
  ∧ b ∉ hostOps2_W ∧ (∀ w, Pipeline.arrRef spec2 w = b → (cfg2.win w).isOut = false)
  ∧ b ∉ hostOps3_W ∧ (∀ w, Pipeline.arrRef spec3 w = b → (cfg3.win w).isOut = false)
  ∧ b ∉ hostOps4_W ∧ (∀ w, Pipeline.arrRef spec4 w = b → (cfg4.win w).isOut = false)
  ∧ b ∉ hostOps5_W ∧ (∀ w, Pipeline.arrRef spec5 w = b → (cfg5.win w).isOut = false)
  ∧ b ∉ hostOps6_W ∧ (∀ w, Pipeline.arrRef spec6 w = b → (cfg6.win w).isOut = false)

/-- Such a buffer has its launch contents at the last boundary: every step leaves it unchanged. -/
theorem W14_kept (c : Dev nD) (b : Ref sig .tc) (h : Kept b) :
    W14 m ρ c (Proc.devRef .tc b) = m ((c : Thread nD τ).loc b) := by
  obtain ⟨h0, k0, h1, k1, h2, k2, h3, k3, h4, k4, h5, k5, h6, k6⟩ := h
  exact (keep_of (ar := Pipeline.arrRef spec6) (Y := W13 m ρ c) (fun w e => (W14_arr m ρ c w).trans ((dat6 (V13 m ρ) c).arrAt_in w (k6 w e) _)) (W14_of_ne m ρ c b)).trans <| (W13_of m ρ c b h6).trans <|
    (keep_of (ar := Pipeline.arrRef spec5) (Y := W11 m ρ c) (fun w e => (W12_arr m ρ c w).trans ((dat5 (V11 m ρ) c).arrAt_in w (k5 w e) _)) (W12_of_ne m ρ c b)).trans <| (W11_of m ρ c b h5).trans <|
    (keep_of (ar := Pipeline.arrRef spec4) (Y := W9 m ρ c) (fun w e => (W10_arr m ρ c w).trans ((dat4 (V9 m ρ) c).arrAt_in w (k4 w e) _)) (W10_of_ne m ρ c b)).trans <| (W9_of m ρ c b h4).trans <|
    (keep_of (ar := Pipeline.arrRef spec3) (Y := W7 m ρ c) (fun w e => (W8_arr m ρ c w).trans ((dat3 (V7 m ρ) c).arrAt_in w (k3 w e) _)) (W8_of_ne m ρ c b)).trans <| (W7_of m ρ c b h3).trans <|
    (keep_of (ar := Pipeline.arrRef spec2) (Y := W5 m ρ c) (fun w e => (W6_arr m ρ c w).trans ((dat2 (V5 m ρ) c).arrAt_in w (k2 w e) _)) (W6_of_ne m ρ c b)).trans <| (W5_of m ρ c b h2).trans <|
    (keep_of (ar := Pipeline.arrRef spec1) (Y := W3 m ρ c) (fun w e => (W4_arr m ρ c w).trans ((dat1 (V3 m ρ) c).arrAt_in w (k1 w e) _)) (W4_of_ne m ρ c b)).trans <| (W3_of m ρ c b h1).trans <|
    (keep_of (ar := Pipeline.arrRef spec0) (Y := W1 m ρ c) (fun w e => (W2_arr m ρ c w).trans ((dat0 (V1 m ρ) c).arrAt_in w (k0 w e) _)) (W2_of_ne m ρ c b)).trans (W1_of m ρ c b h0)

def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W14 m ρ c) ∗ ∃ r, prngReg c r)

set_option backward.isDefEq.respectTransparency.types false in
/-- Region `p` as a segment from the contents `W` to `W'`: `W` off the region's arrays, the data's final contents at them. -/
def reg (p : Fin 7) (lf : Pipeline.LaunchFacts (nD := nD) (τ := τ) cfgs p) (W W' : Dev nD → Valuation τ sig (Elt F))
    (hb : ∀ c, Pipeline.BodyObligationLoose (pdats m ρ p c) defs₀ 𝒱₀ () Set.univ)
    (hq : ∀ c w, (pdats m ρ p c).q w = fullShare := by exact fun _ _ => rfl)
    (hz : ∀ c t, (pdats m ρ p c).owed t = 0 := by exact fun _ _ => rfl)
    (hr : ∀ c x, x ∈ (pdats m ρ p c).recorded 0 := by exact fun _ _ => trivial)
    (hA : ∀ c w, (pdats m ρ p c).A w = W c (Pipeline.arrRef (cfgs p).spec w) := by exact fun _ _ => rfl)
    (hF : ∀ c w, (pdats m ρ p c).arrAt w (cfgs p).N = W' c (Pipeline.arrRef (cfgs p).spec w))
    (hN : ∀ c b, (∀ w, Pipeline.arrRef (cfgs p).spec w ≠ b) → W' c (Proc.devRef .tc b) = W c (Proc.devRef .tc b))
    (hi : ∀ c, Pipeline.ΦA (cfgs p).spec c ⊢ (pdats m ρ p c).Φ 0 := by exact fun _ => .rfl)
    (hO : ∀ c, (pdats m ρ p c).Φ (Fin.last _) ⊢ Pipeline.ΦA (cfgs p).spec c := by exact fun _ => .rfl) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hb
  hwaits := Pipeline.hwaits_of_owed_zero _ _ _ _ L lv p hz
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [hz c]
      icases HO with ⟨%T, HO⟩; iexists T; isplitr; · ipureintro; exact fun x _ => Or.inl (hr c x)
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine BIBase.Entails.trans (hO c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => W c b) (fun b => W' c b) ((pdats m ρ p c).arrAt · (cfgs p).N) (hF c)
      fun b hb => hN c b fun w e => hb (Finset.mem_image.mpr ⟨w, Finset.mem_univ _, e⟩)
    rw [Pipeline.unscopedBufs_held] at hjoin
    unfold Pipeline.Dat.owesAt Pipeline.owesWithin; rw [hz c]
    iintro ⟨Ha, HO, HY, Hrest⟩
    imodintro
    isplitl [Ha Hrest]
    · iapply hjoin; isplitl [Ha] <;> iassumption
    isplitl [HY]; · iexact HY
    icases HO with ⟨%T, -, HO⟩; iexists T; iexact HO

def reg0 := reg m ρ 0 launch0 (W1 m ρ) (W2 m ρ) (fun c => (body_obligation0 (V1 m ρ) c).loose)
  (hF := fun c w => (W2_arr m ρ c w).symm) (hN := W2_of_ne m ρ)
def reg1 := reg m ρ 1 launch1 (W3 m ρ) (W4 m ρ) (fun c => (body_obligation1 (V3 m ρ) c).loose)
  (hF := fun c w => (W4_arr m ρ c w).symm) (hN := W4_of_ne m ρ)
def reg2 := reg m ρ 2 launch2 (W5 m ρ) (W6 m ρ) (fun c => (body_obligation2 (V5 m ρ) c).loose)
  (hF := fun c w => (W6_arr m ρ c w).symm) (hN := W6_of_ne m ρ)
def reg3 := reg m ρ 3 launch3 (W7 m ρ) (W8 m ρ) (fun c => (body_obligation3 (V7 m ρ) c).loose)
  (hF := fun c w => (W8_arr m ρ c w).symm) (hN := W8_of_ne m ρ)
def reg4 := reg m ρ 4 launch4 (W9 m ρ) (W10 m ρ) (fun c => (body_obligation4 (V9 m ρ) c).loose)
  (hF := fun c w => (W10_arr m ρ c w).symm) (hN := W10_of_ne m ρ)
def reg5 := reg m ρ 5 launch5 (W11 m ρ) (W12 m ρ) (fun c => (body_obligation5 (V11 m ρ) c).loose)
  (hF := fun c w => (W12_arr m ρ c w).symm) (hN := W12_of_ne m ρ)
def reg6 := reg m ρ 6 launch6 (W13 m ρ) (W14 m ρ) (fun c => (body_obligation6 (V13 m ρ) c).loose)
  (hF := fun c w => (W14_arr m ρ c w).symm) (hN := W14_of_ne m ρ) (hi := hin6 (V13 m ρ)) (hO := hout6 (V13 m ρ))

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ) ]

theorem main_run (c : Dev nD) : main (F := F) c = Pipeline.Seg.run (segs m ρ) := by
  rw [main_chain c, Pipeline.Seg.run_eq_chain]; rfl

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

end Cert.KernelIdeal.Hand

end
-- ==== Proof.KI.Claims.lean ====
import proofs.«400867_j53901839564968_2_alg».proof.Proof.KI.Run

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

theorem run_result : θ_run defs (onTc (τ := τ) (main (F := F))) ⟨m, fun _ => 0, ρ⟩ (fun r => ∀ c : Dev nD,
      r.2.mem ((c.tc : Thread nD τ).loc main_v108) = W14 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => by
    have a (b : Ref sig .tc) (hb : ¬ (Proc.devRef .tc b : DevRef τ sig).isScoped ∧ Kept b) :
        r.2.mem ((c.tc : Thread nD τ).loc b) = m ((c.tc : Thread nD τ).loc b) :=
      (h c _ (mem_uc b hb.1)).trans (W14_kept m ρ c b hb.2)
    refine ⟨h c _ (mem_uc main_v108 (by decide)), ?_⟩
    repeat' apply And.intro
    all_goals exact a _ (by decide)) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => (h c).2) (run_result m ρ)

end Cert.KernelIdeal.Hand

end
-- ==== Proof.Ref.RunH0.lean ====
import proofs.«400867_j53901839564968_2_alg».proof.Proof.Gen.ReferenceIdeal
import proofs.«400867_j53901839564968_2_alg».proof.Proof.Ref.ReadP
import Idealize.ShloMosaic.Lib.StableHlo.Run

set_option maxRecDepth 8192

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ unary main_arg1 main_v0 (extractStridedSlice S1x800000 ![0, 0] · slices_S2x800000_S1x800000_0_0),
    reshape main_v0 main_v1 rfl shapeCasts_S1x800000_S800000,
    unary main_arg1 main_v2 (extractStridedSlice S1x800000 ![1, 0] · slices_S2x800000_S1x800000_1_0),
    reshape main_v2 main_v3 rfl shapeCasts_S1x800000_S800000,
    nullary main_c (constantI S_ 32 0#32),
    unary main_c main_v4 (broadcastInDim S800000 ![] bcast_S_S800000),
    binary main_v1 main_v4 main_v5 (cmpi .slt),
    nullary main_c_0 (constantI S_ 32 50000#32),
    unary main_c_0 main_v6 (broadcastInDim S800000 ![] bcast_S_S800000),
    binary main_v1 main_v6 main_v7 addi,
    ternary main_v5 main_v7 main_v1 main_v8 select,
    unary main_v8 main_v9 (broadcastInDim S800000x1 ![0] bcast_S800000_S800000x1_0),
    binary main_arg0 main_v9 main_v10 (fun x i => Host.gather gather_S50000x128_S800000x1_S800000x128_1_0_n_n_0_1_1128 x i),
    nullary main_cst (constant S_ .f32 0x00000000#32),
    unary main_cst main_v11 (broadcastInDim S50000x128 ![] bcast_S_S50000x128),
    unary main_v3 main_v12 (broadcastInDim S800000x1 ![0] bcast_S800000_S800000x1_0),
    ternary main_v11 main_v12 main_v10 main_v13 (fun x i u => Host.scatterAdd scatter_S50000x128_S800000x1_S800000x128_1_0_0_1 x i u),
    binary main_v13 main_arg0 main_v14 addf,
    binary main_v14 main_arg3 main_v15 (fun l r => Host.dotGeneral dot_S50000x128_S128x64_S50000x64_1_0_0_1_n_n none l r),
    unary main_arg4 main_v16 (broadcastInDim S1x64 ![1] bcast_S64_S1x64_1),
    unary main_v16 main_v17 (broadcastInDim S50000x64 ![0, 1] bcast_S1x64_S50000x64_0_1),
    binary main_v15 main_v17 main_v18 addf,
    nullary main_call0_cst (constant S_ .f32 0x00000000#32),
    unary main_call0_cst main_call0_v0 (broadcastInDim S50000x64 ![] bcast_S_S50000x64),
    binary main_v18 main_call0_v0 main_v19 maximumf,
    binary main_v19 main_arg5 main_v20 (fun l r => Host.dotGeneral dot_S50000x64_S64x64_S50000x64_1_0_0_1_n_n none l r),
    unary main_arg6 main_v21 (broadcastInDim S1x64 ![1] bcast_S64_S1x64_1),
    unary main_v21 main_v22 (broadcastInDim S50000x64 ![0, 1] bcast_S1x64_S50000x64_0_1),
    binary main_v20 main_v22 main_v23 addf,
    nullary main_call1_cst (constant S_ .f32 0x00000000#32),
    unary main_call1_cst main_call1_v0 (broadcastInDim S50000x64 ![] bcast_S_S50000x64),
    binary main_v23 main_call1_v0 main_v24 maximumf ]

theorem ops0_sub : (ops0 : List (HloOp τ sig (Elt F))).Forall fun op => op.bufs ⊆ tcRefs τ sig := by
  simp only [List.Forall, unary_bufs_sub, reshape_bufs_sub, nullary_bufs_sub, binary_bufs_sub, ternary_bufs_sub, and_self]

theorem ops0_fresh : (ops0 : List (HloOp τ sig (Elt F))).Forall fun op => op.fresh = ∅ := by
  simp only [List.Forall]; repeat' constructor

abbrev ops0_W : List (Ref sig .tc) := [main_v0, main_v1, main_v2, main_v3, main_c, main_v4, main_v5, main_c_0, main_v6, main_v7, main_v8, main_v9, main_v10, main_cst, main_v11, main_v12, main_v13, main_v14, main_v15, main_v16, main_v17, main_v18, main_call0_cst, main_call0_v0, main_v19, main_v20, main_v21, main_v22, main_v23, main_call1_cst, main_call1_v0, main_v24]

theorem ops0_keeps (W : Valuation τ sig (Elt F)) (r : Ref sig .tc) (h : r ∉ ops0_W) :
    after ops0 W r = W r :=
  after_of_writes_sub ops0 W (by simp only [List.Forall]; and_intros <;> exact Finset.singleton_subset_iff.2 (List.mem_toFinset.2 (List.mem_map_of_mem (by decide)))) h

theorem step0 (x0 x1 x3 x4 x5 x6)
    (W : Valuation τ sig (Elt F))
    (h_arg1 : W main_arg1 = x1)
    (h_arg0 : W main_arg0 = x0)
    (h_arg3 : W main_arg3 = x3)
    (h_arg4 : W main_arg4 = x4)
    (h_arg5 : W main_arg5 = x5)
    (h_arg6 : W main_arg6 = x6) :
    after ops0 W main_v1 = ReadP.val_main_v1 (F := F) x1
      ∧ after ops0 W main_v3 = ReadP.val_main_v3 (F := F) x1
      ∧ after ops0 W main_v24 = ReadP.val_main_v24 (F := F) x0 x1 x3 x4 x5 x6 := by
    refine ⟨?_, ?_, ?_⟩ <;>
      (after_results_simp
       simp only [h_arg1, h_arg0, h_arg3, h_arg4, h_arg5, h_arg6]
       rfl)

end Cert.ReferenceIdeal.RunH

end
-- ==== Proof.Ref.RunH1.lean ====
import proofs.«400867_j53901839564968_2_alg».proof.Proof.Gen.ReferenceIdeal
import proofs.«400867_j53901839564968_2_alg».proof.Proof.Ref.ReadP
import Idealize.ShloMosaic.Lib.StableHlo.Run

set_option maxRecDepth 8192

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops1 : List (HloOp τ sig (Elt F)) :=
  [ nullary main_c_1 (constantI S_ 32 0#32),
    unary main_c_1 main_v25 (broadcastInDim S800000 ![] bcast_S_S800000),
    binary main_v1 main_v25 main_v26 (cmpi .slt),
    nullary main_c_2 (constantI S_ 32 50000#32),
    unary main_c_2 main_v27 (broadcastInDim S800000 ![] bcast_S_S800000),
    binary main_v1 main_v27 main_v28 addi,
    ternary main_v26 main_v28 main_v1 main_v29 select,
    unary main_v29 main_v30 (broadcastInDim S800000x1 ![0] bcast_S800000_S800000x1_0),
    binary main_v24 main_v30 main_v31 (fun x i => Host.gather gather_S50000x64_S800000x1_S800000x64_1_0_n_n_0_1_164 x i),
    nullary main_cst_3 (constant S_ .f32 0x00000000#32),
    unary main_cst_3 main_v32 (broadcastInDim S50000x64 ![] bcast_S_S50000x64),
    unary main_v3 main_v33 (broadcastInDim S800000x1 ![0] bcast_S800000_S800000x1_0),
    ternary main_v32 main_v33 main_v31 main_v34 (fun x i u => Host.scatterAdd scatter_S50000x64_S800000x1_S800000x64_1_0_0_1 x i u),
    binary main_v34 main_v24 main_v35 addf,
    unary main_arg7 main_v36 (extractStridedSlice S1x64x64 ![0, 0, 0] · slices_S4x64x64_S1x64x64_0_0_0),
    reshape main_v36 main_v37 rfl shapeCasts_S1x64x64_S64x64,
    unary main_arg8 main_v38 (extractStridedSlice S1x64 ![0, 0] · slices_S4x64_S1x64_0_0),
    reshape main_v38 main_v39 rfl shapeCasts_S1x64_S64,
    unary main_arg9 main_v40 (extractStridedSlice S1x64x64 ![0, 0, 0] · slices_S4x64x64_S1x64x64_0_0_0),
    reshape main_v40 main_v41 rfl shapeCasts_S1x64x64_S64x64,
    unary main_arg10 main_v42 (extractStridedSlice S1x64 ![0, 0] · slices_S4x64_S1x64_0_0),
    reshape main_v42 main_v43 rfl shapeCasts_S1x64_S64,
    binary main_v35 main_v37 main_v44 (fun l r => Host.dotGeneral dot_S50000x64_S64x64_S50000x64_1_0_0_1_n_n none l r),
    unary main_v39 main_v45 (broadcastInDim S1x64 ![1] bcast_S64_S1x64_1),
    unary main_v45 main_v46 (broadcastInDim S50000x64 ![0, 1] bcast_S1x64_S50000x64_0_1),
    binary main_v44 main_v46 main_v47 addf,
    nullary main_call2_cst (constant S_ .f32 0x00000000#32),
    unary main_call2_cst main_call2_v0 (broadcastInDim S50000x64 ![] bcast_S_S50000x64),
    binary main_v47 main_call2_v0 main_v48 maximumf,
    binary main_v48 main_v41 main_v49 (fun l r => Host.dotGeneral dot_S50000x64_S64x64_S50000x64_1_0_0_1_n_n none l r),
    unary main_v43 main_v50 (broadcastInDim S1x64 ![1] bcast_S64_S1x64_1),
    unary main_v50 main_v51 (broadcastInDim S50000x64 ![0, 1] bcast_S1x64_S50000x64_0_1),
    binary main_v49 main_v51 main_v52 addf,
    nullary main_call3_cst (constant S_ .f32 0x00000000#32),
    unary main_call3_cst main_call3_v0 (broadcastInDim S50000x64 ![] bcast_S_S50000x64),
    binary main_v52 main_call3_v0 main_v53 maximumf ]

theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub, and_self]

theorem ops1_fresh : (ops1 : List (HloOp τ sig (Elt F))).Forall fun op => op.fresh = ∅ := by
  simp only [List.Forall]; repeat' constructor

abbrev ops1_W : List (Ref sig .tc) := [main_c_1, main_v25, main_v26, main_c_2, main_v27, main_v28, main_v29, main_v30, main_v31, main_cst_3, main_v32, main_v33, main_v34, main_v35, main_v36, main_v37, main_v38, main_v39, main_v40, main_v41, main_v42, main_v43, main_v44, main_v45, main_v46, main_v47, main_call2_cst, main_call2_v0, main_v48, main_v49, main_v50, main_v51, main_v52, main_call3_cst, main_call3_v0, main_v53]

theorem ops1_keeps (W : Valuation τ sig (Elt F)) (r : Ref sig .tc) (h : r ∉ ops1_W) :
    after ops1 W r = W r :=
  after_of_writes_sub ops1 W (by simp only [List.Forall]; and_intros <;> exact Finset.singleton_subset_iff.2 (List.mem_toFinset.2 (List.mem_map_of_mem (by decide)))) h

theorem step1 (x0 x1 x3 x4 x5 x6 x7 x8 x9 x10)
    (W : Valuation τ sig (Elt F))
    (h_v1 : W main_v1 = ReadP.val_main_v1 (F := F) x1)
    (h_v24 : W main_v24 = ReadP.val_main_v24 (F := F) x0 x1 x3 x4 x5 x6)
    (h_v3 : W main_v3 = ReadP.val_main_v3 (F := F) x1)
    (h_arg7 : W main_arg7 = x7)
    (h_arg8 : W main_arg8 = x8)
    (h_arg9 : W main_arg9 = x9)
    (h_arg10 : W main_arg10 = x10) :
    after ops1 W main_v53 = ReadP.val_main_v53 (F := F) x0 x1 x3 x4 x5 x6 x7 x8 x9 x10 := by
    after_results_simp
    simp only [h_v1, h_v24, h_v3, h_arg7, h_arg8, h_arg9, h_arg10]
    rfl

end Cert.ReferenceIdeal.RunH

end
-- ==== Proof.Ref.RunH2.lean ====
import proofs.«400867_j53901839564968_2_alg».proof.Proof.Gen.ReferenceIdeal
import proofs.«400867_j53901839564968_2_alg».proof.Proof.Ref.ReadP
import Idealize.ShloMosaic.Lib.StableHlo.Run

set_option maxRecDepth 8192

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops2 : List (HloOp τ sig (Elt F)) :=
  [ nullary main_c_4 (constantI S_ 32 0#32),
    unary main_c_4 main_v54 (broadcastInDim S800000 ![] bcast_S_S800000),
    binary main_v1 main_v54 main_v55 (cmpi .slt),
    nullary main_c_5 (constantI S_ 32 50000#32),
    unary main_c_5 main_v56 (broadcastInDim S800000 ![] bcast_S_S800000),
    binary main_v1 main_v56 main_v57 addi,
    ternary main_v55 main_v57 main_v1 main_v58 select,
    unary main_v58 main_v59 (broadcastInDim S800000x1 ![0] bcast_S800000_S800000x1_0),
    binary main_v53 main_v59 main_v60 (fun x i => Host.gather gather_S50000x64_S800000x1_S800000x64_1_0_n_n_0_1_164 x i),
    nullary main_cst_6 (constant S_ .f32 0x00000000#32),
    unary main_cst_6 main_v61 (broadcastInDim S50000x64 ![] bcast_S_S50000x64),
    unary main_v3 main_v62 (broadcastInDim S800000x1 ![0] bcast_S800000_S800000x1_0),
    ternary main_v61 main_v62 main_v60 main_v63 (fun x i u => Host.scatterAdd scatter_S50000x64_S800000x1_S800000x64_1_0_0_1 x i u),
    binary main_v63 main_v53 main_v64 addf,
    unary main_arg7 main_v65 (extractStridedSlice S1x64x64 ![1, 0, 0] · slices_S4x64x64_S1x64x64_1_0_0),
    reshape main_v65 main_v66 rfl shapeCasts_S1x64x64_S64x64,
    unary main_arg8 main_v67 (extractStridedSlice S1x64 ![1, 0] · slices_S4x64_S1x64_1_0),
    reshape main_v67 main_v68 rfl shapeCasts_S1x64_S64,
    unary main_arg9 main_v69 (extractStridedSlice S1x64x64 ![1, 0, 0] · slices_S4x64x64_S1x64x64_1_0_0),
    reshape main_v69 main_v70 rfl shapeCasts_S1x64x64_S64x64,
    unary main_arg10 main_v71 (extractStridedSlice S1x64 ![1, 0] · slices_S4x64_S1x64_1_0),
    reshape main_v71 main_v72 rfl shapeCasts_S1x64_S64,
    binary main_v64 main_v66 main_v73 (fun l r => Host.dotGeneral dot_S50000x64_S64x64_S50000x64_1_0_0_1_n_n none l r),
    unary main_v68 main_v74 (broadcastInDim S1x64 ![1] bcast_S64_S1x64_1),
    unary main_v74 main_v75 (broadcastInDim S50000x64 ![0, 1] bcast_S1x64_S50000x64_0_1),
    binary main_v73 main_v75 main_v76 addf,
    nullary main_call4_cst (constant S_ .f32 0x00000000#32),
    unary main_call4_cst main_call4_v0 (broadcastInDim S50000x64 ![] bcast_S_S50000x64),
    binary main_v76 main_call4_v0 main_v77 maximumf,
    binary main_v77 main_v70 main_v78 (fun l r => Host.dotGeneral dot_S50000x64_S64x64_S50000x64_1_0_0_1_n_n none l r),
    unary main_v72 main_v79 (broadcastInDim S1x64 ![1] bcast_S64_S1x64_1),
    unary main_v79 main_v80 (broadcastInDim S50000x64 ![0, 1] bcast_S1x64_S50000x64_0_1),
    binary main_v78 main_v80 main_v81 addf,
    nullary main_call5_cst (constant S_ .f32 0x00000000#32),
    unary main_call5_cst main_call5_v0 (broadcastInDim S50000x64 ![] bcast_S_S50000x64),
    binary main_v81 main_call5_v0 main_v82 maximumf ]

theorem ops2_sub : (ops2 : List (HloOp τ sig (Elt F))).Forall fun op => op.bufs ⊆ tcRefs τ sig := by
  simp only [List.Forall, nullary_bufs_sub, unary_bufs_sub, binary_bufs_sub, ternary_bufs_sub, reshape_bufs_sub, and_self]

theorem ops2_fresh : (ops2 : List (HloOp τ sig (Elt F))).Forall fun op => op.fresh = ∅ := by
  simp only [List.Forall]; repeat' constructor

abbrev ops2_W : List (Ref sig .tc) := [main_c_4, main_v54, main_v55, main_c_5, main_v56, main_v57, main_v58, main_v59, main_v60, main_cst_6, main_v61, main_v62, main_v63, main_v64, main_v65, main_v66, main_v67, main_v68, main_v69, main_v70, main_v71, main_v72, main_v73, main_v74, main_v75, main_v76, main_call4_cst, main_call4_v0, main_v77, main_v78, main_v79, main_v80, main_v81, main_call5_cst, main_call5_v0, main_v82]

theorem ops2_keeps (W : Valuation τ sig (Elt F)) (r : Ref sig .tc) (h : r ∉ ops2_W) :
    after ops2 W r = W r :=
  after_of_writes_sub ops2 W (by simp only [List.Forall]; and_intros <;> exact Finset.singleton_subset_iff.2 (List.mem_toFinset.2 (List.mem_map_of_mem (by decide)))) h

theorem step2 (x0 x1 x3 x4 x5 x6 x7 x8 x9 x10)
    (W : Valuation τ sig (Elt F))
    (h_v1 : W main_v1 = ReadP.val_main_v1 (F := F) x1)
    (h_v53 : W main_v53 = ReadP.val_main_v53 (F := F) x0 x1 x3 x4 x5 x6 x7 x8 x9 x10)
    (h_v3 : W main_v3 = ReadP.val_main_v3 (F := F) x1)
    (h_arg7 : W main_arg7 = x7)
    (h_arg8 : W main_arg8 = x8)
    (h_arg9 : W main_arg9 = x9)
    (h_arg10 : W main_arg10 = x10) :
    after ops2 W main_v82 = ReadP.val_main_v82 (F := F) x0 x1 x3 x4 x5 x6 x7 x8 x9 x10 := by
    after_results_simp
    simp only [h_v1, h_v53, h_v3, h_arg7, h_arg8, h_arg9, h_arg10]
    rfl

end Cert.ReferenceIdeal.RunH

end
-- ==== Proof.Ref.RunH3.lean ====
import proofs.«400867_j53901839564968_2_alg».proof.Proof.Gen.ReferenceIdeal
import proofs.«400867_j53901839564968_2_alg».proof.Proof.Ref.ReadP
import Idealize.ShloMosaic.Lib.StableHlo.Run

set_option maxRecDepth 8192

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops3 : List (HloOp τ sig (Elt F)) :=
  [ nullary main_c_7 (constantI S_ 32 0#32),
    unary main_c_7 main_v83 (broadcastInDim S800000 ![] bcast_S_S800000),
    binary main_v1 main_v83 main_v84 (cmpi .slt),
    nullary main_c_8 (constantI S_ 32 50000#32),
    unary main_c_8 main_v85 (broadcastInDim S800000 ![] bcast_S_S800000),
    binary main_v1 main_v85 main_v86 addi,
    ternary main_v84 main_v86 main_v1 main_v87 select,
    unary main_v87 main_v88 (broadcastInDim S800000x1 ![0] bcast_S800000_S800000x1_0),
    binary main_v82 main_v88 main_v89 (fun x i => Host.gather gather_S50000x64_S800000x1_S800000x64_1_0_n_n_0_1_164 x i),
    nullary main_cst_9 (constant S_ .f32 0x00000000#32),
    unary main_cst_9 main_v90 (broadcastInDim S50000x64 ![] bcast_S_S50000x64),
    unary main_v3 main_v91 (broadcastInDim S800000x1 ![0] bcast_S800000_S800000x1_0),
    ternary main_v90 main_v91 main_v89 main_v92 (fun x i u => Host.scatterAdd scatter_S50000x64_S800000x1_S800000x64_1_0_0_1 x i u),
    binary main_v92 main_v82 main_v93 addf,
    unary main_arg7 main_v94 (extractStridedSlice S1x64x64 ![2, 0, 0] · slices_S4x64x64_S1x64x64_2_0_0),
    reshape main_v94 main_v95 rfl shapeCasts_S1x64x64_S64x64,
    unary main_arg8 main_v96 (extractStridedSlice S1x64 ![2, 0] · slices_S4x64_S1x64_2_0),
    reshape main_v96 main_v97 rfl shapeCasts_S1x64_S64,
    unary main_arg9 main_v98 (extractStridedSlice S1x64x64 ![2, 0, 0] · slices_S4x64x64_S1x64x64_2_0_0),
    reshape main_v98 main_v99 rfl shapeCasts_S1x64x64_S64x64,
    unary main_arg10 main_v100 (extractStridedSlice S1x64 ![2, 0] · slices_S4x64_S1x64_2_0),
    reshape main_v100 main_v101 rfl shapeCasts_S1x64_S64,
    binary main_v93 main_v95 main_v102 (fun l r => Host.dotGeneral dot_S50000x64_S64x64_S50000x64_1_0_0_1_n_n none l r),
    unary main_v97 main_v103 (broadcastInDim S1x64 ![1] bcast_S64_S1x64_1),
    unary main_v103 main_v104 (broadcastInDim S50000x64 ![0, 1] bcast_S1x64_S50000x64_0_1),
    binary main_v102 main_v104 main_v105 addf,
    nullary main_call6_cst (constant S_ .f32 0x00000000#32),
    unary main_call6_cst main_call6_v0 (broadcastInDim S50000x64 ![] bcast_S_S50000x64),
    binary main_v105 main_call6_v0 main_v106 maximumf,
    binary main_v106 main_v99 main_v107 (fun l r => Host.dotGeneral dot_S50000x64_S64x64_S50000x64_1_0_0_1_n_n none l r),
    unary main_v101 main_v108 (broadcastInDim S1x64 ![1] bcast_S64_S1x64_1),
    unary main_v108 main_v109 (broadcastInDim S50000x64 ![0, 1] bcast_S1x64_S50000x64_0_1),
    binary main_v107 main_v109 main_v110 addf,
    nullary main_call7_cst (constant S_ .f32 0x00000000#32),
    unary main_call7_cst main_call7_v0 (broadcastInDim S50000x64 ![] bcast_S_S50000x64),
    binary main_v110 main_call7_v0 main_v111 maximumf ]

theorem ops3_sub : (ops3 : List (HloOp τ sig (Elt F))).Forall fun op => op.bufs ⊆ tcRefs τ sig := by
  simp only [List.Forall, nullary_bufs_sub, unary_bufs_sub, binary_bufs_sub, ternary_bufs_sub, reshape_bufs_sub, and_self]

theorem ops3_fresh : (ops3 : List (HloOp τ sig (Elt F))).Forall fun op => op.fresh = ∅ := by
  simp only [List.Forall]; repeat' constructor

abbrev ops3_W : List (Ref sig .tc) := [main_c_7, main_v83, main_v84, main_c_8, main_v85, main_v86, main_v87, main_v88, main_v89, main_cst_9, main_v90, main_v91, main_v92, main_v93, main_v94, main_v95, main_v96, main_v97, main_v98, main_v99, main_v100, main_v101, main_v102, main_v103, main_v104, main_v105, main_call6_cst, main_call6_v0, main_v106, main_v107, main_v108, main_v109, main_v110, main_call7_cst, main_call7_v0, main_v111]

theorem ops3_keeps (W : Valuation τ sig (Elt F)) (r : Ref sig .tc) (h : r ∉ ops3_W) :
    after ops3 W r = W r :=
  after_of_writes_sub ops3 W (by simp only [List.Forall]; and_intros <;> exact Finset.singleton_subset_iff.2 (List.mem_toFinset.2 (List.mem_map_of_mem (by decide)))) h

theorem step3 (x0 x1 x3 x4 x5 x6 x7 x8 x9 x10)
    (W : Valuation τ sig (Elt F))
    (h_v1 : W main_v1 = ReadP.val_main_v1 (F := F) x1)
    (h_v82 : W main_v82 = ReadP.val_main_v82 (F := F) x0 x1 x3 x4 x5 x6 x7 x8 x9 x10)
    (h_v3 : W main_v3 = ReadP.val_main_v3 (F := F) x1)
    (h_arg7 : W main_arg7 = x7)
    (h_arg8 : W main_arg8 = x8)
    (h_arg9 : W main_arg9 = x9)
    (h_arg10 : W main_arg10 = x10) :
    after ops3 W main_v111 = ReadP.val_main_v111 (F := F) x0 x1 x3 x4 x5 x6 x7 x8 x9 x10 := by
    after_results_simp
    simp only [h_v1, h_v82, h_v3, h_arg7, h_arg8, h_arg9, h_arg10]
    rfl

end Cert.ReferenceIdeal.RunH

end
-- ==== Proof.Ref.RunH4.lean ====
import proofs.«400867_j53901839564968_2_alg».proof.Proof.Gen.ReferenceIdeal
import proofs.«400867_j53901839564968_2_alg».proof.Proof.Ref.ReadP
import Idealize.ShloMosaic.Lib.StableHlo.Run

set_option maxRecDepth 8192

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops4 : List (HloOp τ sig (Elt F)) :=
  [ nullary main_c_10 (constantI S_ 32 0#32),
    unary main_c_10 main_v112 (broadcastInDim S800000 ![] bcast_S_S800000),
    binary main_v1 main_v112 main_v113 (cmpi .slt),
    nullary main_c_11 (constantI S_ 32 50000#32),
    unary main_c_11 main_v114 (broadcastInDim S800000 ![] bcast_S_S800000),
    binary main_v1 main_v114 main_v115 addi,
    ternary main_v113 main_v115 main_v1 main_v116 select,
    unary main_v116 main_v117 (broadcastInDim S800000x1 ![0] bcast_S800000_S800000x1_0),
    binary main_v111 main_v117 main_v118 (fun x i => Host.gather gather_S50000x64_S800000x1_S800000x64_1_0_n_n_0_1_164 x i),
    nullary main_cst_12 (constant S_ .f32 0x00000000#32),
    unary main_cst_12 main_v119 (broadcastInDim S50000x64 ![] bcast_S_S50000x64),
    unary main_v3 main_v120 (broadcastInDim S800000x1 ![0] bcast_S800000_S800000x1_0),
    ternary main_v119 main_v120 main_v118 main_v121 (fun x i u => Host.scatterAdd scatter_S50000x64_S800000x1_S800000x64_1_0_0_1 x i u),
    binary main_v121 main_v111 main_v122 addf,
    unary main_arg7 main_v123 (extractStridedSlice S1x64x64 ![3, 0, 0] · slices_S4x64x64_S1x64x64_3_0_0),
    reshape main_v123 main_v124 rfl shapeCasts_S1x64x64_S64x64,
    unary main_arg8 main_v125 (extractStridedSlice S1x64 ![3, 0] · slices_S4x64_S1x64_3_0),
    reshape main_v125 main_v126 rfl shapeCasts_S1x64_S64,
    unary main_arg9 main_v127 (extractStridedSlice S1x64x64 ![3, 0, 0] · slices_S4x64x64_S1x64x64_3_0_0),
    reshape main_v127 main_v128 rfl shapeCasts_S1x64x64_S64x64,
    unary main_arg10 main_v129 (extractStridedSlice S1x64 ![3, 0] · slices_S4x64_S1x64_3_0),
    reshape main_v129 main_v130 rfl shapeCasts_S1x64_S64,
    binary main_v122 main_v124 main_v131 (fun l r => Host.dotGeneral dot_S50000x64_S64x64_S50000x64_1_0_0_1_n_n none l r),
    unary main_v126 main_v132 (broadcastInDim S1x64 ![1] bcast_S64_S1x64_1),
    unary main_v132 main_v133 (broadcastInDim S50000x64 ![0, 1] bcast_S1x64_S50000x64_0_1),
    binary main_v131 main_v133 main_v134 addf,
    nullary main_call8_cst (constant S_ .f32 0x00000000#32),
    unary main_call8_cst main_call8_v0 (broadcastInDim S50000x64 ![] bcast_S_S50000x64),
    binary main_v134 main_call8_v0 main_v135 maximumf,
    binary main_v135 main_v128 main_v136 (fun l r => Host.dotGeneral dot_S50000x64_S64x64_S50000x64_1_0_0_1_n_n none l r),
    unary main_v130 main_v137 (broadcastInDim S1x64 ![1] bcast_S64_S1x64_1),
    unary main_v137 main_v138 (broadcastInDim S50000x64 ![0, 1] bcast_S1x64_S50000x64_0_1),
    binary main_v136 main_v138 main_v139 addf,
    nullary main_call9_cst (constant S_ .f32 0x00000000#32),
    unary main_call9_cst main_call9_v0 (broadcastInDim S50000x64 ![] bcast_S_S50000x64),
    binary main_v139 main_call9_v0 main_v140 maximumf ]

theorem ops4_sub : (ops4 : List (HloOp τ sig (Elt F))).Forall fun op => op.bufs ⊆ tcRefs τ sig := by
  simp only [List.Forall, nullary_bufs_sub, unary_bufs_sub, binary_bufs_sub, ternary_bufs_sub, reshape_bufs_sub, and_self]

theorem ops4_fresh : (ops4 : List (HloOp τ sig (Elt F))).Forall fun op => op.fresh = ∅ := by
  simp only [List.Forall]; repeat' constructor

abbrev ops4_W : List (Ref sig .tc) := [main_c_10, main_v112, main_v113, main_c_11, main_v114, main_v115, main_v116, main_v117, main_v118, main_cst_12, main_v119, main_v120, main_v121, main_v122, main_v123, main_v124, main_v125, main_v126, main_v127, main_v128, main_v129, main_v130, main_v131, main_v132, main_v133, main_v134, main_call8_cst, main_call8_v0, main_v135, main_v136, main_v137, main_v138, main_v139, main_call9_cst, main_call9_v0, main_v140]

theorem ops4_keeps (W : Valuation τ sig (Elt F)) (r : Ref sig .tc) (h : r ∉ ops4_W) :
    after ops4 W r = W r :=
  after_of_writes_sub ops4 W (by simp only [List.Forall]; and_intros <;> exact Finset.singleton_subset_iff.2 (List.mem_toFinset.2 (List.mem_map_of_mem (by decide)))) h

theorem step4 (x0 x1 x3 x4 x5 x6 x7 x8 x9 x10)
    (W : Valuation τ sig (Elt F))
    (h_v1 : W main_v1 = ReadP.val_main_v1 (F := F) x1)
    (h_v111 : W main_v111 = ReadP.val_main_v111 (F := F) x0 x1 x3 x4 x5 x6 x7 x8 x9 x10)
    (h_v3 : W main_v3 = ReadP.val_main_v3 (F := F) x1)
    (h_arg7 : W main_arg7 = x7)
    (h_arg8 : W main_arg8 = x8)
    (h_arg9 : W main_arg9 = x9)
    (h_arg10 : W main_arg10 = x10) :
    after ops4 W main_v140 = ReadP.val_main_v140 (F := F) x0 x1 x3 x4 x5 x6 x7 x8 x9 x10 := by
    after_results_simp
    simp only [h_v1, h_v111, h_v3, h_arg7, h_arg8, h_arg9, h_arg10]
    rfl

end Cert.ReferenceIdeal.RunH

end
-- ==== Proof.Ref.RunH5.lean ====
import proofs.«400867_j53901839564968_2_alg».proof.Proof.Gen.ReferenceIdeal
import proofs.«400867_j53901839564968_2_alg».proof.Proof.Ref.ReadP
import Idealize.ShloMosaic.Lib.StableHlo.Run

set_option maxRecDepth 8192

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops5 : List (HloOp τ sig (Elt F)) :=
  [ nary ![main_v24, main_v53, main_v82, main_v111, main_v140] main_v141 (fun u => concatenate S50000x320 1 [⟨S50000x64, u 0⟩, ⟨S50000x64, u 1⟩, ⟨S50000x64, u 2⟩, ⟨S50000x64, u 3⟩, ⟨S50000x64, u 4⟩] concatenates_S50000x64_S50000x64_S50000x64_S50000x64_S50000x64_S50000x320_d1) ]

theorem ops5_sub : (ops5 : List (HloOp τ sig (Elt F))).Forall fun op => op.bufs ⊆ tcRefs τ sig := by
  simp only [List.Forall, nary_bufs_sub, and_self]

theorem ops5_fresh : (ops5 : List (HloOp τ sig (Elt F))).Forall fun op => op.fresh = ∅ := by
  simp only [List.Forall]; repeat' constructor

abbrev ops5_W : List (Ref sig .tc) := [main_v141]

theorem ops5_keeps (W : Valuation τ sig (Elt F)) (r : Ref sig .tc) (h : r ∉ ops5_W) :
    after ops5 W r = W r :=
  after_of_writes_sub ops5 W (by simp only [List.Forall]; and_intros <;> exact Finset.singleton_subset_iff.2 (List.mem_toFinset.2 (List.mem_map_of_mem (by decide)))) h

theorem step5 (x0 x1 x3 x4 x5 x6 x7 x8 x9 x10)
    (W : Valuation τ sig (Elt F))
    (h_v24 : W main_v24 = ReadP.val_main_v24 (F := F) x0 x1 x3 x4 x5 x6)
    (h_v53 : W main_v53 = ReadP.val_main_v53 (F := F) x0 x1 x3 x4 x5 x6 x7 x8 x9 x10)
    (h_v82 : W main_v82 = ReadP.val_main_v82 (F := F) x0 x1 x3 x4 x5 x6 x7 x8 x9 x10)
    (h_v111 : W main_v111 = ReadP.val_main_v111 (F := F) x0 x1 x3 x4 x5 x6 x7 x8 x9 x10)
    (h_v140 : W main_v140 = ReadP.val_main_v140 (F := F) x0 x1 x3 x4 x5 x6 x7 x8 x9 x10) :
    after ops5 W main_v141 = ReadP.val_main_v141 (F := F) x0 x1 x3 x4 x5 x6 x7 x8 x9 x10 := by
    after_results_simp
    rw [ReadP.val_main_v141, ← h_v24, ← h_v53, ← h_v82, ← h_v111, ← h_v140]
    rfl

end Cert.ReferenceIdeal.RunH

end
-- ==== Proof.Ref.RunH6.lean ====
import proofs.«400867_j53901839564968_2_alg».proof.Proof.Gen.ReferenceIdeal
import proofs.«400867_j53901839564968_2_alg».proof.Proof.Ref.ReadP
import Idealize.ShloMosaic.Lib.StableHlo.Run

set_option maxRecDepth 8192

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops6 : List (HloOp τ sig (Elt F)) :=
  [ binary main_v141 main_arg11 main_v142 (fun l r => Host.dotGeneral dot_S50000x320_S320x64_S50000x64_1_0_0_1_n_n none l r),
    unary main_arg12 main_v143 (broadcastInDim S1x64 ![1] bcast_S64_S1x64_1),
    unary main_v143 main_v144 (broadcastInDim S50000x64 ![0, 1] bcast_S1x64_S50000x64_0_1),
    binary main_v142 main_v144 main_v145 addf,
    nullary main_cst_13 (constant S_ .f32 0x00000000#32),
    unary main_cst_13 main_v146 (broadcastInDim S128x64 ![] bcast_S_S128x64),
    unary main_arg2 main_v147 (broadcastInDim S50000x1 ![0] bcast_S50000_S50000x1_0),
    ternary main_v146 main_v147 main_v145 main_v148 (fun x i u => Host.scatterAdd scatter_S128x64_S50000x1_S50000x64_1_0_0_1 x i u),
    binary main_v148 main_arg13 main_v149 (fun l r => Host.dotGeneral dot_S128x64_S64x64_S128x64_1_0_0_1_n_n none l r),
    unary main_arg14 main_v150 (broadcastInDim S1x64 ![1] bcast_S64_S1x64_1),
    unary main_v150 main_v151 (broadcastInDim S128x64 ![0, 1] bcast_S1x64_S128x64_0_1),
    binary main_v149 main_v151 main_v152 addf,
    nullary main_cst_14 (constant S_ .f32 0x00000000#32),
    binary main_v152 main_cst_14 main_v153 (fun x v => Host.reduceAdd x v reducesTo_S128x64_S64_d0 h_S_),
    nullary main_cst_15 (constant S_ .f32 0x43000000#32),
    unary main_cst_15 main_v154 (broadcastInDim S64 ![] bcast_S_S64),
    binary main_v153 main_v154 main_v155 Host.divf,
    unary main_v155 main_v156 (broadcastInDim S1x64 ![1] bcast_S64_S1x64_1),
    unary main_v156 main_v157 (broadcastInDim S128x64 ![0, 1] bcast_S1x64_S128x64_0_1),
    binary main_v152 main_v157 main_v158 subf,
    binary main_v158 main_v158 main_v159 mulf,
    nullary main_cst_16 (constant S_ .f32 0x00000000#32),
    binary main_v159 main_cst_16 main_v160 (fun x v => Host.reduceAdd x v reducesTo_S128x64_S64_d0 h_S_),
    nullary main_cst_17 (constant S_ .f32 0x43000000#32),
    unary main_cst_17 main_v161 (broadcastInDim S64 ![] bcast_S_S64),
    binary main_v160 main_v161 main_v162 Host.divf,
    unary main_v155 main_v163 (broadcastInDim S1x64 ![1] bcast_S64_S1x64_1),
    unary main_v163 main_v164 (broadcastInDim S128x64 ![0, 1] bcast_S1x64_S128x64_0_1),
    binary main_v152 main_v164 main_v165 subf,
    nullary main_cst_18 (constant S_ .f32 0x3727C5AC#32),
    unary main_cst_18 main_v166 (broadcastInDim S64 ![] bcast_S_S64),
    binary main_v162 main_v166 main_v167 addf,
    unary main_v167 main_v168 Host.rsqrt,
    unary main_v168 main_v169 (broadcastInDim S1x64 ![1] bcast_S64_S1x64_1),
    unary main_v169 main_v170 (broadcastInDim S128x64 ![0, 1] bcast_S1x64_S128x64_0_1),
    binary main_v165 main_v170 main_v171 mulf,
    unary main_arg15 main_v172 (broadcastInDim S1x64 ![1] bcast_S64_S1x64_1),
    unary main_v172 main_v173 (broadcastInDim S128x64 ![0, 1] bcast_S1x64_S128x64_0_1),
    binary main_v171 main_v173 main_v174 mulf,
    unary main_arg16 main_v175 (broadcastInDim S1x64 ![1] bcast_S64_S1x64_1),
    unary main_v175 main_v176 (broadcastInDim S128x64 ![0, 1] bcast_S1x64_S128x64_0_1),
    binary main_v174 main_v176 main_v177 addf,
    nullary main_call10_cst (constant S_ .f32 0x00000000#32),
    unary main_call10_cst main_call10_v0 (broadcastInDim S128x64 ![] bcast_S_S128x64),
    binary main_v177 main_call10_v0 main_v178 maximumf,
    binary main_v178 main_arg17 main_v179 (fun l r => Host.dotGeneral dot_S128x64_S64x10_S128x10_1_0_0_1_n_n none l r),
    unary main_arg18 main_v180 (broadcastInDim S1x10 ![1] bcast_S10_S1x10_1),
    unary main_v180 main_v181 (broadcastInDim S128x10 ![0, 1] bcast_S1x10_S128x10_0_1),
    binary main_v179 main_v181 main_v182 addf ]

theorem ops6_sub : (ops6 : List (HloOp τ sig (Elt F))).Forall fun op => op.bufs ⊆ tcRefs τ sig := by
  simp only [List.Forall, binary_bufs_sub, unary_bufs_sub, nullary_bufs_sub, ternary_bufs_sub, and_self]

theorem ops6_fresh : (ops6 : List (HloOp τ sig (Elt F))).Forall fun op => op.fresh = ∅ := by
  simp only [List.Forall]; repeat' constructor

abbrev ops6_W : List (Ref sig .tc) := [main_v142, main_v143, main_v144, main_v145, main_cst_13, main_v146, main_v147, main_v148, main_v149, main_v150, main_v151, main_v152, main_cst_14, main_v153, main_cst_15, main_v154, main_v155, main_v156, main_v157, main_v158, main_v159, main_cst_16, main_v160, main_cst_17, main_v161, main_v162, main_v163, main_v164, main_v165, main_cst_18, main_v166, main_v167, main_v168, main_v169, main_v170, main_v171, main_v172, main_v173, main_v174, main_v175, main_v176, main_v177, main_call10_cst, main_call10_v0, main_v178, main_v179, main_v180, main_v181, main_v182]

theorem ops6_keeps (W : Valuation τ sig (Elt F)) (r : Ref sig .tc) (h : r ∉ ops6_W) :
    after ops6 W r = W r :=
  after_of_writes_sub ops6 W (by simp only [List.Forall]; and_intros <;> exact Finset.singleton_subset_iff.2 (List.mem_toFinset.2 (List.mem_map_of_mem (by decide)))) h

theorem step6 (x0 x1 x2 x3 x4 x5 x6 x7 x8 x9 x10 x11 x12 x13 x14 x15 x16 x17 x18)
    (W : Valuation τ sig (Elt F))
    (h_v141 : W main_v141 = ReadP.val_main_v141 (F := F) x0 x1 x3 x4 x5 x6 x7 x8 x9 x10)
    (h_arg11 : W main_arg11 = x11)
    (h_arg12 : W main_arg12 = x12)
    (h_arg2 : W main_arg2 = x2)
    (h_arg13 : W main_arg13 = x13)
    (h_arg14 : W main_arg14 = x14)
    (h_arg15 : W main_arg15 = x15)
    (h_arg16 : W main_arg16 = x16)
    (h_arg17 : W main_arg17 = x17)
    (h_arg18 : W main_arg18 = x18) :
    after ops6 W main_v182 = ReadP.val_main_v182 (F := F) x0 x1 x2 x3 x4 x5 x6 x7 x8 x9 x10 x11 x12 x13 x14 x15 x16 x17 x18 := by
    after_results_simp
    simp only [h_v141, h_arg11, h_arg12, h_arg2, h_arg13, h_arg14, h_arg15, h_arg16, h_arg17, h_arg18]
    rfl

end Cert.ReferenceIdeal.RunH

end
-- ==== Proof.Ref.RunH.lean ====
import proofs.«400867_j53901839564968_2_alg».proof.Proof.Ref.RunH0
import proofs.«400867_j53901839564968_2_alg».proof.Proof.Ref.RunH1
import proofs.«400867_j53901839564968_2_alg».proof.Proof.Ref.RunH2
import proofs.«400867_j53901839564968_2_alg».proof.Proof.Ref.RunH3
import proofs.«400867_j53901839564968_2_alg».proof.Proof.Ref.RunH4
import proofs.«400867_j53901839564968_2_alg».proof.Proof.Ref.RunH5
import proofs.«400867_j53901839564968_2_alg».proof.Proof.Ref.RunH6
import Idealize.ShloMosaic.Lib.Pipeline.Frame

set_option maxRecDepth 8192

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) := ops0 ++ (ops1 ++ (ops2 ++ (ops3 ++ (ops4 ++ (ops5 ++ (ops6))))))

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨ops0_sub, List.forall_append.2 ⟨ops1_sub, List.forall_append.2 ⟨ops2_sub, List.forall_append.2 ⟨ops3_sub, List.forall_append.2 ⟨ops4_sub, List.forall_append.2 ⟨ops5_sub, ops6_sub⟩⟩⟩⟩⟩⟩

theorem ops_fresh : (ops : List (HloOp τ sig (Elt F))).Forall fun op => op.fresh = ∅ :=
  List.forall_append.2 ⟨ops0_fresh, List.forall_append.2 ⟨ops1_fresh, List.forall_append.2 ⟨ops2_fresh, List.forall_append.2 ⟨ops3_fresh, List.forall_append.2 ⟨ops4_fresh, List.forall_append.2 ⟨ops5_fresh, ops6_fresh⟩⟩⟩⟩⟩⟩

theorem after_ops (W : Valuation τ sig (Elt F)) : after ops W = (after ops6 (after ops5 (after ops4 (after ops3 (after ops2 (after ops1 (after ops0 W))))))) := by
  simp only [ops, StableHlo.after_append]

-- A buffer none of the first six lists writes is, after them, as it was.
theorem kept05 (W : Valuation τ sig (Elt F)) (r : Ref sig .tc) (h : r ∉ ops0_W ++ ops1_W ++ ops2_W ++ ops3_W ++ ops4_W ++ ops5_W) :
    after ops5 (after ops4 (after ops3 (after ops2 (after ops1 (after ops0 W))))) r = W r := by
  simp only [List.mem_append, not_or] at h
  rw [ops5_keeps _ r h.2, ops4_keeps _ r h.1.2, ops3_keeps _ r h.1.1.2, ops2_keeps _ r h.1.1.1.2, ops1_keeps _ r h.1.1.1.1.2, ops0_keeps _ r h.1.1.1.1.1]

theorem arg_kept (V : Valuation τ sig (Elt F)) (r : Ref sig .tc) (h : r ∉ ops0_W ++ ops1_W ++ ops2_W ++ ops3_W ++ ops4_W ++ ops5_W ++ ops6_W) :
    after ops V r = V r := by
  rw [after_ops, ops6_keeps _ r fun hm => h (List.mem_append_right _ hm), kept05 V r fun hm => h (List.mem_append_left _ hm)]

-- The stages chain from list to list; a stage a later list reads is kept by the lists between.
theorem result_of (W : Valuation τ sig (Elt F)) :
    after ops W main_v182 = ReadP.val_main_v182 (F := F) (W main_arg0) (W main_arg1) (W main_arg2) (W main_arg3) (W main_arg4) (W main_arg5) (W main_arg6) (W main_arg7) (W main_arg8) (W main_arg9) (W main_arg10) (W main_arg11) (W main_arg12) (W main_arg13) (W main_arg14) (W main_arg15) (W main_arg16) (W main_arg17) (W main_arg18) := by
  rw [after_ops]
  obtain ⟨v1, v3, v24⟩ := step0 _ _ _ _ _ _ W rfl rfl rfl rfl rfl rfl
  have a7 := ops0_keeps W main_arg7 (by decide)
  have a8 := ops0_keeps W main_arg8 (by decide)
  have a9 := ops0_keeps W main_arg9 (by decide)
  have a10 := ops0_keeps W main_arg10 (by decide)
  have v53 := step1 _ _ _ _ _ _ _ _ _ _ _ v1 v24 v3 a7 a8 a9 a10
  replace v1 := (ops1_keeps _ main_v1 (by decide)).trans v1
  replace v3 := (ops1_keeps _ main_v3 (by decide)).trans v3
  replace v24 := (ops1_keeps _ main_v24 (by decide)).trans v24
  replace a7 := (ops1_keeps _ main_arg7 (by decide)).trans a7
  replace a8 := (ops1_keeps _ main_arg8 (by decide)).trans a8
  replace a9 := (ops1_keeps _ main_arg9 (by decide)).trans a9
  replace a10 := (ops1_keeps _ main_arg10 (by decide)).trans a10
  have v82 := step2 _ _ _ _ _ _ _ _ _ _ _ v1 v53 v3 a7 a8 a9 a10
  replace v1 := (ops2_keeps _ main_v1 (by decide)).trans v1
  replace v3 := (ops2_keeps _ main_v3 (by decide)).trans v3
  replace v24 := (ops2_keeps _ main_v24 (by decide)).trans v24
  replace v53 := (ops2_keeps _ main_v53 (by decide)).trans v53
  replace a7 := (ops2_keeps _ main_arg7 (by decide)).trans a7
  replace a8 := (ops2_keeps _ main_arg8 (by decide)).trans a8
  replace a9 := (ops2_keeps _ main_arg9 (by decide)).trans a9
  replace a10 := (ops2_keeps _ main_arg10 (by decide)).trans a10
  have v111 := step3 _ _ _ _ _ _ _ _ _ _ _ v1 v82 v3 a7 a8 a9 a10
  replace v1 := (ops3_keeps _ main_v1 (by decide)).trans v1
  replace v3 := (ops3_keeps _ main_v3 (by decide)).trans v3
  replace v24 := (ops3_keeps _ main_v24 (by decide)).trans v24
  replace v53 := (ops3_keeps _ main_v53 (by decide)).trans v53
  replace v82 := (ops3_keeps _ main_v82 (by decide)).trans v82
  replace a7 := (ops3_keeps _ main_arg7 (by decide)).trans a7
  replace a8 := (ops3_keeps _ main_arg8 (by decide)).trans a8
  replace a9 := (ops3_keeps _ main_arg9 (by decide)).trans a9
  replace a10 := (ops3_keeps _ main_arg10 (by decide)).trans a10
  have v140 := step4 _ _ _ _ _ _ _ _ _ _ _ v1 v111 v3 a7 a8 a9 a10
  replace v24 := (ops4_keeps _ main_v24 (by decide)).trans v24
  replace v53 := (ops4_keeps _ main_v53 (by decide)).trans v53
  replace v82 := (ops4_keeps _ main_v82 (by decide)).trans v82
  replace v111 := (ops4_keeps _ main_v111 (by decide)).trans v111
  exact step6 _ _ _ _ _ _ _ _ _ _ _ _ _ _ _ _ _ _ _ _ (step5 _ _ _ _ _ _ _ _ _ _ _ v24 v53 v82 v111 v140)
    (kept05 W main_arg11 (by decide)) (kept05 W main_arg12 (by decide)) (kept05 W main_arg2 (by decide)) (kept05 W main_arg13 (by decide))
    (kept05 W main_arg14 (by decide)) (kept05 W main_arg15 (by decide)) (kept05 W main_arg16 (by decide)) (kept05 W main_arg17 (by decide))
    (kept05 W main_arg18 (by decide))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v182) = ReadP.val_main_v182 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => by
      refine ⟨(h c main_v182).trans (result_of _), ?_⟩
      and_intros <;> exact (h c _).trans (arg_kept _ _ (by decide)))
    (run_seq scopedRefs_eq scopedSems_eq defs main (fun _ => ops) main_eq (fun _ => ops_sub) m ρ (fun _ => List.forall_iff_forall_mem.1 ops_fresh))

end Cert.ReferenceIdeal.RunH

end
-- ==== Proof.Ref.Claims.lean ====
import proofs.«400867_j53901839564968_2_alg».proof.Proof.Ref.RunH

set_option maxRecDepth 16384

noncomputable section

namespace Cert.ReferenceIdeal.RefValue

open Cert.ReferenceIdeal Cert.ReferenceIdeal.Gen
open Idealize.ShloMosaic Idealize.ShloMosaic.TcCoe
open Idealize.SL Idealize.SL.Sem

theorem frame_ri (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => (h c).2) (Cert.ReferenceIdeal.RunH.run (F := Ideal) m ρ)

end Cert.ReferenceIdeal.RefValue

end
-- ==== Proof.LibGatherRows.lean ====
import Idealize.ShloMosaic.PureOps.ShapeOps
import Idealize.ShloMosaic.Lib.ValueIdx

namespace Idealize.ShloMosaic.GatherRows

open Idealize.ShloMosaic Idealize.ShloMosaic.ValueIdx

variable {α : Type}

abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

abbrev rowIdx {R : Nat} (e : Fin R) : (⟨2, ![R, 1]⟩ : Shape).Idx := ix2 e (0 : Fin 1)

section
variable {N R C w : Nat} (wf : GatherDims.WF ⟨2, ![N, C]⟩ ⟨2, ![R, 1]⟩ ⟨2, ![R, C]⟩ [1] [0] [] [0] [] 1 ![1, C])

theorem row_not_kept : (0 : Fin 2) ∉ (rowDims N R C wf).sKept :=
  fun h => ((GatherDims.mem_sKept _ _).mp h).1 (List.mem_singleton.mpr rfl)

theorem col_kept : (1 : Fin 2) ∈ (rowDims N R C wf).sKept :=
  (GatherDims.mem_sKept _ _).mpr ⟨fun h => absurd (congrArg Fin.val (List.mem_singleton.mp h)) Nat.one_ne_zero, List.not_mem_nil⟩

theorem operandIdx_row (idx : IVec ⟨2, ![R, 1]⟩ w) (e : Fin R) (q : Fin C) :
    ((rowDims N R C wf).operandIdx (ix2 e q) idx 0).val = min (idx (rowIdx e)).toInt.toNat (N - 1) := by
  show (rowDims N R C wf).start (ix2 e q) idx 0 + (rowDims N R C wf).batchCoord (ix2 e q) 0
    + (rowDims N R C wf).offCoord (ix2 e q) 0 = _
  rw [GatherDims.batchCoord_eq_zero _ _ _ List.not_mem_nil, GatherDims.offCoord_eq_zero _ _ _ (row_not_kept wf)]
  simp only [Nat.add_zero]
  unfold GatherDims.start
  rw [dif_pos (show (0 : Fin 2) ∈ (rowDims N R C wf).startIndexMap from List.mem_singleton.mpr rfl)]
  have hsi : (rowDims N R C wf).siIdx (ix2 e q) ⟨List.idxOf (0 : Fin 2) (rowDims N R C wf).startIndexMap,
      List.idxOf_lt_length_iff.2 (List.mem_singleton.mpr rfl)⟩ = rowIdx e := by
    funext b; refine Fin.ext ?_
    match b with
    | ⟨0, _⟩ => rfl
    | ⟨1, _⟩ => rfl
  rw [hsi]
  rfl

theorem operandIdx_col (idx : IVec ⟨2, ![R, 1]⟩ w) (e : Fin R) (q : Fin C) :
    ((rowDims N R C wf).operandIdx (ix2 e q) idx 1).val = q.val := by
  show (rowDims N R C wf).start (ix2 e q) idx 1 + (rowDims N R C wf).batchCoord (ix2 e q) 1
    + (rowDims N R C wf).offCoord (ix2 e q) 1 = _
  rw [GatherDims.batchCoord_eq_zero _ _ _ List.not_mem_nil]
  unfold GatherDims.start
  rw [dif_neg (show (1 : Fin 2) ∉ (rowDims N R C wf).startIndexMap from
    fun h => absurd (congrArg Fin.val (List.mem_singleton.mp h)) Nat.one_ne_zero)]
  unfold GatherDims.offCoord
  rw [dif_pos (col_kept wf)]
  simp only [Nat.add_zero, Nat.zero_add]
  rfl

theorem gather_rows_apply (hN : 0 < N) (x : (⟨2, ![N, C]⟩ : Shape).Idx → α) (idx : IVec ⟨2, ![R, 1]⟩ w)
    (e : Fin R) (q : Fin C) :
    Host.gather (rowDims N R C wf) x idx (ix2 e q)
      = x (ix2 ⟨min (idx (rowIdx e)).toInt.toNat (N - 1), by omega⟩ q) := by
  unfold Host.gather
  congr 1
  funext a
  refine Fin.ext ?_
  match a with
  | ⟨0, _⟩ => exact operandIdx_row wf idx e q
  | ⟨1, _⟩ => exact operandIdx_col wf idx e q

end

end Idealize.ShloMosaic.GatherRows
-- ==== Proof.LibScatterRows.lean ====
import Idealize.ShloMosaic.PureOps.Ideal
import Idealize.ShloMosaic.Lib.ValueIdx

namespace Idealize.ShloMosaic.ScatterRows

open Idealize.ShloMosaic Idealize.ShloMosaic.ValueIdx
open scoped BigOperators

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · next hh =>
      have hi := Option.some.inj h
      intro a
      have ha : (d.start j idx a + (d.window j a : Int)).toNat = (i a).val :=
        congrArg (fun f : s.Idx => (f a).val) hi
      have h0 := (hh a).1
      omega
    · exact absurd h (by simp)
  · intro h
    have hh : ∀ a, 0 ≤ d.start j idx a + (d.window j a : Int) ∧ d.start j idx a + (d.window j a : Int) < s.size a := by
      intro a
      have h1 := h a
      have h2 := (i a).isLt
      omega
    rw [dif_pos hh]
    congr 1
    funext a
    refine Fin.ext ?_
    show (d.start j idx a + (d.window j a : Int)).toNat = (i a).val
    have h1 := h a
    omega

abbrev rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section
variable {N R C w : Nat} (wf : ScatterDims.WF ⟨2, ![N, C]⟩ ⟨2, ![R, 1]⟩ ⟨2, ![R, C]⟩ [1] [0] [0] 1)

theorem row_not_kept : (0 : Fin 2) ∉ (rowDims N R C wf).sKept := by
  simp [ScatterDims.sKept, Shape.kept, List.mem_filter, List.mem_finRange]

theorem col_kept : (1 : Fin 2) ∈ (rowDims N R C wf).sKept := by
  simp [ScatterDims.sKept, Shape.kept, List.mem_filter, List.mem_finRange]

theorem start_row (idx : IVec ⟨2, ![R, 1]⟩ w) (j : Fin R) (q : Fin C) :
    (rowDims N R C wf).start (ix2 j q) idx 0 = (idx (ix2 j (0 : Fin 1))).toInt := by
  unfold ScatterDims.start
  rw [dif_pos (show (0 : Fin 2) ∈ (rowDims N R C wf).scatterDimsToOperandDims from List.mem_singleton.mpr rfl)]
  have hsi : (rowDims N R C wf).siIdx (ix2 j q) ⟨List.idxOf (0 : Fin 2) (rowDims N R C wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

theorem start_col (idx : IVec ⟨2, ![R, 1]⟩ w) (j : Fin R) (q : Fin C) :
    (rowDims N R C wf).start (ix2 j q) idx 1 = 0 := by
  unfold ScatterDims.start
  rw [dif_neg (show (1 : Fin 2) ∉ (rowDims N R C wf).scatterDimsToOperandDims from
    fun h => absurd (congrArg Fin.val (List.mem_singleton.mp h)) Nat.one_ne_zero)]

theorem window_row (j : Fin R) (q : Fin C) : (rowDims N R C wf).window (ix2 j q) 0 = 0 := by
  unfold ScatterDims.window
  rw [dif_neg (row_not_kept wf)]

theorem window_col (j : Fin R) (q : Fin C) : (rowDims N R C wf).window (ix2 j q) 1 = q.val := by
  unfold ScatterDims.window
  rw [dif_pos (col_kept wf)]
  rfl

theorem resultIdx?_rows_iff (idx : IVec ⟨2, ![R, 1]⟩ w) (j : Fin R) (q' : Fin C) (n : Fin N) (q : Fin C) :
    (rowDims N R C wf).resultIdx? (ix2 j q') idx = some (ix2 n q)
      ↔ (idx (ix2 j (0 : Fin 1))).toInt = (n.val : Int) ∧ q' = q := by
  rw [resultIdx?_eq_some_iff]
  constructor
  · intro h
    have h0 : (rowDims N R C wf).start (ix2 j q') idx 0 + ((rowDims N R C wf).window (ix2 j q') 0 : Int) = (n.val : Int) := h 0
    have h1 : (rowDims N R C wf).start (ix2 j q') idx 1 + ((rowDims N R C wf).window (ix2 j q') 1 : Int) = (q.val : Int) := h 1
    rw [start_row, window_row] at h0
    rw [start_col, window_col] at h1
    refine ⟨by omega, Fin.ext (by omega)⟩
  · rintro ⟨h0, rfl⟩ a
    match a with
    | ⟨0, _⟩ =>
      show (rowDims N R C wf).start (ix2 j q') idx 0 + ((rowDims N R C wf).window (ix2 j q') 0 : Int) = (n.val : Int)
      rw [start_row, window_row]; omega
    | ⟨1, _⟩ =>
      show (rowDims N R C wf).start (ix2 j q') idx 1 + ((rowDims N R C wf).window (ix2 j q') 1 : Int) = (q'.val : Int)
      rw [start_col, window_col]; omega

theorem scatterAdd_rows_apply (x : (⟨2, ![N, C]⟩ : Shape).Idx → EReal) (idx : IVec ⟨2, ![R, 1]⟩ w)
    (upd : (⟨2, ![R, C]⟩ : Shape).Idx → EReal) (n : Fin N) (q : Fin C) :
    Ideal.hostScatterAdd (rowDims N R C wf) x idx upd (ix2 n q)
      = x (ix2 n q) + ∑ j : Fin R, if (idx (ix2 j (0 : Fin 1))).toInt = (n.val : Int) then upd (ix2 j q) else 0 := by
  unfold Ideal.hostScatterAdd
  congr 1
  rw [Finset.sum_filter, sum_idx2]
  refine Finset.sum_congr rfl fun j _ => ?_
  rw [Finset.sum_eq_single q]
  · by_cases hj : (idx (ix2 j (0 : Fin 1))).toInt = (n.val : Int)
    · rw [if_pos ((resultIdx?_rows_iff wf idx j q n q).mpr ⟨hj, rfl⟩), if_pos hj]
    · rw [if_neg (fun h => hj ((resultIdx?_rows_iff wf idx j q n q).mp h).1), if_neg hj]
  · intro b _ hb
    exact if_neg (fun h => hb ((resultIdx?_rows_iff wf idx j b n q).mp h).2)
  · intro h
    exact absurd (Finset.mem_univ q) h

end

end Idealize.ShloMosaic.ScatterRows
-- ==== Proof.Ref.Stage.lean ====
import proofs.«400867_j53901839564968_2_alg».proof.Proof.Spec
import proofs.«400867_j53901839564968_2_alg».proof.Proof.LibGatherRows
import proofs.«400867_j53901839564968_2_alg».proof.Proof.LibScatterRows
import Idealize.ShloMosaic.PureOps.Contract
import Idealize.ShloMosaic.PureOps.Ideal.Laws

noncomputable section

namespace Cert.ReferenceIdeal.RefValue

open Idealize.ShloMosaic Idealize.ShloMosaic.ValueIdx
open Cert.Spec
open scoped BigOperators

theorem gather_rowDims_eq {N R C : Nat} (hN : 0 < N)
    (wf : GatherDims.WF ⟨2, ![N, C]⟩ ⟨2, ![R, 1]⟩ ⟨2, ![R, C]⟩ [1] [0] [] [0] [] 1 ![1, C])
    (h : Mat N C) (sI : ICol R) :
    (Host.gather (GatherRows.rowDims N R C wf) h sI : Mat R C) = gatherRows hN sI h := by
  funext i
  obtain ⟨e, q, rfl⟩ : ∃ (e : Fin R) (q : Fin C), i = ix2 e q := ⟨i 0, i 1, eq_ix2 i⟩
  rw [GatherRows.gather_rows_apply wf hN h sI e q]
  rfl

theorem scatter_rowDims_eq {N R C : Nat}
    (wf : ScatterDims.WF ⟨2, ![N, C]⟩ ⟨2, ![R, 1]⟩ ⟨2, ![R, C]⟩ [1] [0] [0] 1)
    (z : Mat N C) (hz : ∀ i, z i = 0) (dI : ICol R) (u : Mat R C) :
    (Host.scatterAdd (F := Ideal) (φ := .f32) (ScatterRows.rowDims N R C wf) z dI u : Mat N C) = segSum dI u := by
  funext i
  obtain ⟨n, q, rfl⟩ : ∃ (n : Fin N) (q : Fin C), i = ix2 n q := ⟨i 0, i 1, eq_ix2 i⟩
  show Ideal.hostScatterAdd (ScatterRows.rowDims N R C wf) z dI u (ix2 n q) = _
  rw [ScatterRows.scatterAdd_rows_apply wf z dI u n q, hz]
  rfl

end Cert.ReferenceIdeal.RefValue

end
-- ==== Proof.Ref.Net.lean ====
import proofs.«400867_j53901839564968_2_alg».proof.Proof.Ref.ReadP
import proofs.«400867_j53901839564968_2_alg».proof.Proof.Ref.Stage
import Idealize.ShloMosaic.Lib.StackMember

noncomputable section

namespace Cert.ReferenceIdeal.RefValue

open Cert.ReferenceIdeal Cert.ReferenceIdeal.Gen Cert.ReferenceIdeal.ReadP Idealize.ShloMosaic Idealize.ShloMosaic.ValueIdx
open Cert.Spec
open scoped BigOperators

theorem zero_apply (i : S50000x64.Idx) : val_main_v32 (F := Ideal) i = 0 := by
  rw [val_main_v32_apply, val_main_cst_3_apply, Ideal.ofBits_def, Ideal.ofBits_zero_f32]

theorem bias_apply (b : Row 64) (i : S50000x64.Idx) : val_main_v17 (F := Ideal) b i = b (ix1 (i 1)) := by
  rw [val_main_v17_apply, val_main_v16_apply]
  exact congrArg b (funext fun a => Fin.ext (by match a with | ⟨0, _⟩ => rfl))

/-- A plain product plus an array that repeats a vector on every row. -/
theorem affine_eq {n k c : Nat} (a : Mat n k) (w : Mat k c) (b : Row c) (B : Mat n c) (hB : ∀ i, B i = b (ix1 (i 1))) :
    addf (F := Ideal) (φ := .f32) (Host.dotGeneral (φ₁ := .f32) (φ₂ := .f32) (DotDims.plain n k c) none a w) B = addRow (mm a w) b := by
  funext i
  obtain ⟨r, q, rfl⟩ : ∃ (r : Fin n) (q : Fin c), i = ix2 r q := ⟨i 0, i 1, eq_ix2 i⟩
  rw [addf_apply, hB, StackMember.dotGeneral_plain_apply]
  rfl

def dense {d : Nat} (a : Mat 50000 d) (w : Mat d 64) (b : Row 64) : Mat 50000 64 :=
  maximumf (F := Ideal) (φ := .f32) (addf (Host.dotGeneral (φ₁ := .f32) (φ₂ := .f32) (DotDims.plain 50000 d 64) none a w)
    (val_main_v17 (F := Ideal) b)) (val_main_v32 (F := Ideal))

theorem dense_eq {d : Nat} (a : Mat 50000 d) (w : Mat d 64) (b : Row 64) : dense a w b = relu (addRow (mm a w) b) := by
  funext i
  unfold dense
  rw [maximumf_apply, zero_apply, affine_eq a w b _ (bias_apply b)]
  rfl

section
variable {c : Nat} (wg : GatherDims.WF ⟨2, ![50000, c]⟩ ⟨2, ![800000, 1]⟩ ⟨2, ![800000, c]⟩ [1] [0] [] [0] [] 1 ![1, c])
  (ws : ScatterDims.WF ⟨2, ![50000, c]⟩ ⟨2, ![800000, 1]⟩ ⟨2, ![800000, c]⟩ [1] [0] [0] 1) (z : Mat 50000 c)

def roundR (sI dI : ICol 800000) (w1 : Mat c 64) (b1 : Row 64) (w2 : Mat 64 64) (b2 : Row 64) (h : Mat 50000 c) : Mat 50000 64 :=
  dense (dense (addf (F := Ideal) (φ := .f32) (Host.scatterAdd (F := Ideal) (φ := .f32) (ScatterRows.rowDims 50000 800000 c ws) z dI
    (Host.gather (GatherRows.rowDims 50000 800000 c wg) h sI)) h) w1 b1) w2 b2

/-- One round of the reference's operations is the specification's round. -/
theorem roundR_eq (hz : ∀ i, z i = 0) (sI dI : ICol 800000) (w1 : Mat c 64) (b1 : Row 64) (w2 : Mat 64 64) (b2 : Row 64)
    (h : Mat 50000 c) : roundR wg ws z sI dI w1 b1 w2 b2 h = layer sI dI w1 b1 w2 b2 h := by
  unfold roundR
  rw [gather_rowDims_eq (by decide) wg h sI, scatter_rowDims_eq ws z hz dI, dense_eq, dense_eq]
  rfl
end

def cut3 (w : Stack) (k : Nat) (s : S4x64x64.Slices ![k, 0, 0] S1x64x64) : Mat 64 64 :=
  shapeCast _ (extractStridedSlice S1x64x64 ![k, 0, 0] w s) shapeCasts_S1x64x64_S64x64

def cut2 (b : Mat 4 64) (k : Nat) (s : S4x64.Slices ![k, 0] S1x64) : Row 64 :=
  shapeCast _ (extractStridedSlice S1x64 ![k, 0] b s) shapeCasts_S1x64_S64

/-- Matrix `k` cut out of a stack and flattened. -/
theorem cut3_eq (w : Stack) (k : Nat) (hk : k < 4) (s : S4x64x64.Slices ![k, 0, 0] S1x64x64) : cut3 w k s = slab w ⟨k, hk⟩ := by
  funext i
  unfold cut3
  rw [shapeCast_dropUnit_apply ![64, 64]]
  exact extractStridedSlice_apply _ w s _ (ix3 ⟨k, hk⟩ (i 0) (i 1)) fun a => by
    match a with
    | ⟨0, _⟩ => rfl
    | ⟨1, _⟩ => exact (Nat.zero_add _).symm
    | ⟨2, _⟩ => exact (Nat.zero_add _).symm

theorem cut2_eq (b : Mat 4 64) (k : Nat) (hk : k < 4) (s : S4x64.Slices ![k, 0] S1x64) : cut2 b k s = srow b ⟨k, hk⟩ := by
  funext i
  unfold cut2
  rw [shapeCast_dropUnit_apply ![64]]
  exact extractStridedSlice_apply _ b s _ (ix2 ⟨k, hk⟩ (i 0)) fun a => by
    match a with
    | ⟨0, _⟩ => rfl
    | ⟨1, _⟩ => exact (Nat.zero_add _).symm

section
variable (sI dI : ICol 800000) (x : Mat 50000 128) (w1_0 : Mat 128 64) (b1_0 : Row 64) (w2_0 : Mat 64 64) (b2_0 : Row 64)
  (w1r : Stack) (b1r : Mat 4 64) (w2r : Stack) (b2r : Mat 4 64)

theorem hidden_at_zero : Cert.Spec.hidden sI dI x w1_0 b1_0 w2_0 b2_0 w1r b1r w2r b2r ⟨0, by decide⟩ = layer sI dI w1_0 b1_0 w2_0 b2_0 x := by
  rw [Cert.Spec.hidden.eq_def]

theorem hidden_at_succ (k : Nat) (hk : k + 1 < 5) :
    Cert.Spec.hidden sI dI x w1_0 b1_0 w2_0 b2_0 w1r b1r w2r b2r ⟨k + 1, hk⟩ =
      layer sI dI (slab w1r ⟨k, by omega⟩) (srow b1r ⟨k, by omega⟩) (slab w2r ⟨k, by omega⟩) (srow b2r ⟨k, by omega⟩)
        (Cert.Spec.hidden sI dI x w1_0 b1_0 w2_0 b2_0 w1r b1r w2r b2r ⟨k, by omega⟩) := by
  rw [Cert.Spec.hidden.eq_def]

/-- A later hidden array is a round of the reference's operations over the one before, with slice `k` of the stacked parameters. -/
theorem hidden_step (wg : GatherDims.WF ⟨2, ![50000, 64]⟩ ⟨2, ![800000, 1]⟩ ⟨2, ![800000, 64]⟩ [1] [0] [] [0] [] 1 ![1, 64])
    (ws : ScatterDims.WF ⟨2, ![50000, 64]⟩ ⟨2, ![800000, 1]⟩ ⟨2, ![800000, 64]⟩ [1] [0] [0] 1) (k : Nat) (hk : k + 1 < 5)
    (s3 : S4x64x64.Slices ![k, 0, 0] S1x64x64) (s2 : S4x64.Slices ![k, 0] S1x64) (p o : Mat 50000 64)
    (hp : Cert.Spec.hidden sI dI x w1_0 b1_0 w2_0 b2_0 w1r b1r w2r b2r ⟨k, by omega⟩ = p)
    (ho : o = roundR wg ws (val_main_v32 (F := Ideal)) sI dI (cut3 w1r k s3) (cut2 b1r k s2) (cut3 w2r k s3) (cut2 b2r k s2) p) :
    Cert.Spec.hidden sI dI x w1_0 b1_0 w2_0 b2_0 w1r b1r w2r b2r ⟨k + 1, hk⟩ = o := by
  rw [hidden_at_succ, hp, ho, roundR_eq _ _ _ zero_apply, cut3_eq w1r k (by omega) s3, cut3_eq w2r k (by omega) s3,
    cut2_eq b1r k (by omega) s2, cut2_eq b2r k (by omega) s2]
end

/-- The classifier recognised from its links, the index maps as the reference's stages have them. -/
theorem clf_of_stages (w1 : Mat 64 64) (b1 gamma beta : Row 64) (w2 : Mat 64 10) (b2 : Row 10) (g : Mat 128 64)
    (t d sq y yg yb r : Mat 128 64) (mu var rs : Row 64) (o : Mat 128 10)
    (et : t = addRow (mm g w1) b1)
    (hmu : ∀ q, mu q = Ideal.div ((0 : EReal) + ∑ k : Fin 128, t (idx_main_v153 q k)) c128)
    (hd : ∀ i, d i = t i - mu (idx_main_v150 (idx_main_v151 i)))
    (hsq : ∀ i, sq i = d i * d i)
    (hvar : ∀ q, var q = Ideal.div ((0 : EReal) + ∑ k : Fin 128, sq (idx_main_v153 q k)) c128)
    (hrs : ∀ q, rs q = Ideal.rsqrt (var q + eps))
    (hy : ∀ i, y i = d i * rs (idx_main_v150 (idx_main_v151 i)))
    (hyg : ∀ i, yg i = y i * gamma (idx_main_v150 (idx_main_v151 i)))
    (hyb : ∀ i, yb i = yg i + beta (idx_main_v150 (idx_main_v151 i)))
    (hr : ∀ i, r i = max (yb i) 0)
    (eo : o = addRow (mm r w2) b2) :
    o = clf w1 b1 gamma beta w2 b2 g := by
  have ci : ∀ (q : S64.Idx) (k : Fin 128), idx_main_v153 q k = (ix2 k (q 0) : S128x64.Idx) := fun q k =>
    funext fun a => Fin.ext (by match a with | ⟨0, _⟩ => rfl | ⟨1, _⟩ => rfl)
  have ri : ∀ i : S128x64.Idx, idx_main_v150 (idx_main_v151 i) = (ix1 (i 1) : S64.Idx) := fun i => funext fun a => Fin.ext (by match a with | ⟨0, _⟩ => rfl)
  have emu : mu = colMean t c128 := funext fun q => (hmu q).trans
    (congrArg (fun s => Ideal.div ((0 : EReal) + s) c128) (Finset.sum_congr rfl fun k _ => by rw [ci]))
  have ed : d = fun i => t i - mu (ix1 (i 1)) := funext fun i => by rw [hd, ri]
  have evar : var = colMean (fun i => d i * d i) c128 := funext fun q => (hvar q).trans
    (congrArg (fun s => Ideal.div ((0 : EReal) + s) c128) (Finset.sum_congr rfl fun k _ => by rw [ci, hsq]))
  have er : r = relu (fun i => d i * Ideal.rsqrt (var (ix1 (i 1)) + eps) * gamma (ix1 (i 1)) + beta (ix1 (i 1))) :=
    funext fun i => by rw [hr, hyb, hyg, hy, hrs, ri]; rfl
  rw [eo, er, evar, ed, emu, et]
  rfl

theorem concat5_eq (hs : Fin 5 → Mat 50000 64)
    (hc : Shape.Concatenates [S50000x64, S50000x64, S50000x64, S50000x64, S50000x64]
      S50000x320 1) :
    (concatenate S50000x320 1
        [⟨S50000x64, hs 0⟩, ⟨S50000x64, hs 1⟩, ⟨S50000x64, hs 2⟩,
          ⟨S50000x64, hs 3⟩, ⟨S50000x64, hs 4⟩] hc : Mat 50000 320) = cat5 hs := by
  funext j
  obtain ⟨r, c, rfl⟩ : ∃ (r : Fin 50000) (c : Fin 320), j = ix2 r c := ⟨j 0, j 1, eq_ix2 j⟩
  have hlt : c.val / 64 < 5 := by have := c.isLt; omega
  show concatenate S50000x320 1
      (List.ofFn fun n : Fin 5 => (⟨S50000x64, hs n⟩ : (s : Shape) × (s.Idx → EReal))) hc (ix2 r c) = _
  exact concatenate_ofFn_apply (t := S50000x320) (s₁ := S50000x64) 1 hs hc rfl 64 rfl (ix2 r c)
    ⟨c.val / 64, hlt⟩ rfl (ix2 r ⟨c.val % 64, Nat.mod_lt _ (by decide)⟩) rfl
    (fun b hb => by
      match b with
      | ⟨0, _⟩ => rfl
      | ⟨1, _⟩ => exact absurd rfl hb)

variable (x0 : (⟨S50000x128, .f32⟩ : BufTy).Contents (Elt Ideal)) (x1 : (⟨S2x800000, .i32⟩ : BufTy).Contents (Elt Ideal))
  (x2 : (⟨S50000, .i32⟩ : BufTy).Contents (Elt Ideal)) (x3 : (⟨S128x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S4x64x64, .f32⟩ : BufTy).Contents (Elt Ideal))
  (x8 : (⟨S4x64, .f32⟩ : BufTy).Contents (Elt Ideal)) (x9 : (⟨S4x64x64, .f32⟩ : BufTy).Contents (Elt Ideal))
  (x10 : (⟨S4x64, .f32⟩ : BufTy).Contents (Elt Ideal)) (x11 : (⟨S320x64, .f32⟩ : BufTy).Contents (Elt Ideal))
  (x12 : (⟨S64, .f32⟩ : BufTy).Contents (Elt Ideal)) (x13 : (⟨S64x64, .f32⟩ : BufTy).Contents (Elt Ideal))
  (x14 x15 x16 : (⟨S64, .f32⟩ : BufTy).Contents (Elt Ideal)) (x17 : (⟨S64x10, .f32⟩ : BufTy).Contents (Elt Ideal))
  (x18 : (⟨S10, .f32⟩ : BufTy).Contents (Elt Ideal))

/-- The five hidden arrays of the reference are the specification's. -/
theorem hidden_eq :
    (![val_main_v24 x0 x1 x3 x4 x5 x6, val_main_v53 x0 x1 x3 x4 x5 x6 x7 x8 x9 x10, val_main_v82 x0 x1 x3 x4 x5 x6 x7 x8 x9 x10,
      val_main_v111 x0 x1 x3 x4 x5 x6 x7 x8 x9 x10, val_main_v140 x0 x1 x3 x4 x5 x6 x7 x8 x9 x10] : Fin 5 → Mat 50000 64)
      = Cert.Spec.hidden (val_main_v9 x1) (val_main_v12 x1) x0 x3 x4 x5 x6 x7 x8 x9 x10 := by
  have h0 := (hidden_at_zero (val_main_v9 x1) (val_main_v12 x1) x0 x3 x4 x5 x6 x7 x8 x9 x10).trans
    (roundR_eq gather_S50000x128_S800000x1_S800000x128_1_0_n_n_0_1_1128.wf scatter_S50000x128_S800000x1_S800000x128_1_0_0_1.wf (val_main_v11 (F := Ideal))
      (fun i => by rw [val_main_v11_apply, val_main_cst_apply, Ideal.ofBits_def, Ideal.ofBits_zero_f32]) _ _ x3 x4 x5 x6 x0).symm
  have step := hidden_step (val_main_v9 x1) (val_main_v12 x1) x0 x3 x4 x5 x6 x7 x8 x9 x10
    gather_S50000x64_S800000x1_S800000x64_1_0_n_n_0_1_164.wf scatter_S50000x64_S800000x1_S800000x64_1_0_0_1.wf
  have h1 := step 0 (by decide) slices_S4x64x64_S1x64x64_0_0_0 slices_S4x64_S1x64_0_0 (val_main_v24 x0 x1 x3 x4 x5 x6) (val_main_v53 x0 x1 x3 x4 x5 x6 x7 x8 x9 x10) h0 rfl
  have h2 := step 1 (by decide) slices_S4x64x64_S1x64x64_1_0_0 slices_S4x64_S1x64_1_0 _ (val_main_v82 x0 x1 x3 x4 x5 x6 x7 x8 x9 x10) h1 rfl
  have h3 := step 2 (by decide) slices_S4x64x64_S1x64x64_2_0_0 slices_S4x64_S1x64_2_0 _ (val_main_v111 x0 x1 x3 x4 x5 x6 x7 x8 x9 x10) h2 rfl
  have h4 := step 3 (by decide) slices_S4x64x64_S1x64x64_3_0_0 slices_S4x64_S1x64_3_0 _ (val_main_v140 x0 x1 x3 x4 x5 x6 x7 x8 x9 x10) h3 rfl
  funext k
  match k with
  | ⟨0, _⟩ => exact h0.symm
  | ⟨1, _⟩ => exact h1.symm
  | ⟨2, _⟩ => exact h2.symm
  | ⟨3, _⟩ => exact h3.symm
  | ⟨4, _⟩ => exact h4.symm

def hsR : Fin 5 → Mat 50000 64 :=
  ![val_main_v24 x0 x1 x3 x4 x5 x6, val_main_v53 x0 x1 x3 x4 x5 x6 x7 x8 x9 x10,
    val_main_v82 x0 x1 x3 x4 x5 x6 x7 x8 x9 x10, val_main_v111 x0 x1 x3 x4 x5 x6 x7 x8 x9 x10,
    val_main_v140 x0 x1 x3 x4 x5 x6 x7 x8 x9 x10]

theorem v141_eq : (val_main_v141 x0 x1 x3 x4 x5 x6 x7 x8 x9 x10 : Mat 50000 320) = cat5 (hsR x0 x1 x3 x4 x5 x6 x7 x8 x9 x10) := by
  unfold val_main_v141
  exact concat5_eq (hsR x0 x1 x3 x4 x5 x6 x7 x8 x9 x10) _

theorem v145_eq :
    (val_main_v145 x0 x1 x3 x4 x5 x6 x7 x8 x9 x10 x11 x12 : Mat 50000 64) = addRow (mm (cat5 (hsR x0 x1 x3 x4 x5 x6 x7 x8 x9 x10)) x11) x12 := by
  rw [← v141_eq]
  exact affine_eq (n := 50000) (k := 320) (c := 64) _ x11 x12 _ fun i => by
    rw [val_main_v144_apply, val_main_v143_apply]
    exact congrArg x12 (funext fun a => Fin.ext (by match a with | ⟨0, _⟩ => rfl))

theorem v148_eq :
    ((val_main_v148 x0 x1 x2 x3 x4 x5 x6 x7 x8 x9 x10 x11 x12) : Mat 128 64)
      = segSum (val_main_v147 x2) (val_main_v145 x0 x1 x3 x4 x5 x6 x7 x8 x9 x10 x11 x12) := by
  unfold val_main_v148
  rw [show scatter_S128x64_S50000x1_S50000x64_1_0_0_1
      = ScatterRows.rowDims 128 50000 64 scatter_S128x64_S50000x1_S50000x64_1_0_0_1.wf from rfl]
  exact scatter_rowDims_eq (N := 128) (R := 50000) (C := 64) scatter_S128x64_S50000x1_S50000x64_1_0_0_1.wf
    (val_main_v146 (F := Ideal))
    (fun i => by rw [val_main_v146_apply, val_main_cst_13_apply]; exact Ideal.ofBits_zero_f32)
    (val_main_v147 x2) (val_main_v145 x0 x1 x3 x4 x5 x6 x7 x8 x9 x10 x11 x12)

/-- The last stretch of the reference is the classifier of the graph sums of the projected join. -/
theorem tail_eq :
    ((val_main_v182 x0 x1 x2 x3 x4 x5 x6 x7 x8 x9 x10 x11 x12 x13 x14 x15 x16 x17 x18) : Mat 128 10)
      = clf x13 x14 x15 x16 x17 x18
          (segSum (val_main_v147 x2) (addRow (mm (cat5 (hsR x0 x1 x3 x4 x5 x6 x7 x8 x9 x10)) x11) x12)) := by
  rw [← v145_eq, ← v148_eq]
  refine clf_of_stages x13 x14 x15 x16 x17 x18 (val_main_v148 x0 x1 x2 x3 x4 x5 x6 x7 x8 x9 x10 x11 x12)
    (val_main_v152 x0 x1 x2 x3 x4 x5 x6 x7 x8 x9 x10 x11 x12 x13 x14) (val_main_v158 x0 x1 x2 x3 x4 x5 x6 x7 x8 x9 x10 x11 x12 x13 x14) (val_main_v159 x0 x1 x2 x3 x4 x5 x6 x7 x8 x9 x10 x11 x12 x13 x14)
    (val_main_v171 x0 x1 x2 x3 x4 x5 x6 x7 x8 x9 x10 x11 x12 x13 x14) (val_main_v174 x0 x1 x2 x3 x4 x5 x6 x7 x8 x9 x10 x11 x12 x13 x14 x15) (val_main_v177 x0 x1 x2 x3 x4 x5 x6 x7 x8 x9 x10 x11 x12 x13 x14 x15 x16)
    (val_main_v178 x0 x1 x2 x3 x4 x5 x6 x7 x8 x9 x10 x11 x12 x13 x14 x15 x16) (val_main_v155 x0 x1 x2 x3 x4 x5 x6 x7 x8 x9 x10 x11 x12 x13 x14) (val_main_v162 x0 x1 x2 x3 x4 x5 x6 x7 x8 x9 x10 x11 x12 x13 x14)
    (val_main_v168 x0 x1 x2 x3 x4 x5 x6 x7 x8 x9 x10 x11 x12 x13 x14) _ ?_ ?_ ?_ (fun _ => rfl) ?_ ?_ ?_ ?_ ?_ ?_ ?_
  · exact affine_eq (n := 128) (k := 64) (c := 64) _ x13 x14 _ fun i => by
      rw [val_main_v151_apply, val_main_v150_apply]
      exact congrArg x14 (funext fun a => Fin.ext (by match a with | ⟨0, _⟩ => rfl))
  · intro q
    rw [val_main_v155_apply, val_main_v153_apply, val_main_v154_apply, val_main_cst_15_apply, val_main_cst_14_apply]
    show Ideal.div (Ideal.ofBits .f32 0x00000000#32 + _) c128 = _
    rw [Ideal.ofBits_zero_f32]
  · intro i
    rw [val_main_v158_apply, val_main_v157_apply, val_main_v156_apply]
    rfl
  · intro q
    rw [val_main_v162_apply, val_main_v160_apply, val_main_v161_apply, val_main_cst_17_apply, val_main_cst_16_apply]
    show Ideal.div (Ideal.ofBits .f32 0x00000000#32 + _) c128 = _
    rw [Ideal.ofBits_zero_f32]
  · intro q
    rw [val_main_v168_apply, val_main_v167_apply, val_main_v166_apply, val_main_cst_18_apply]
    rfl
  · intro i
    rw [val_main_v171_apply, val_main_v165_apply, val_main_v164_apply, val_main_v163_apply, val_main_v170_apply,
      val_main_v169_apply, val_main_v158_apply, val_main_v157_apply, val_main_v156_apply]
    rfl
  · intro i
    rw [val_main_v174_apply, val_main_v173_apply, val_main_v172_apply]
    rfl
  · intro i
    rw [val_main_v177_apply, val_main_v176_apply, val_main_v175_apply]
    rfl
  · intro i
    rw [val_main_v178_apply, val_main_call10_v0_apply, val_main_call10_cst_apply]
    exact congrArg (max _) Ideal.ofBits_zero_f32
  · exact affine_eq (n := 128) (k := 64) (c := 10) _ x17 x18 _ fun i => by
      rw [val_main_v181_apply, val_main_v180_apply]
      exact congrArg x18 (funext fun a => Fin.ext (by match a with | ⟨0, _⟩ => rfl))

theorem ref_eq_net :
    (val_main_v182 (F := Ideal) x0 x1 x2 x3 x4 x5 x6 x7 x8 x9 x10 x11 x12 x13 x14 x15 x16 x17 x18 : Mat 128 10)
      = net (val_main_v9 (F := Ideal) x1) (val_main_v12 (F := Ideal) x1) (val_main_v147 (F := Ideal) x2)
          x0 x3 x4 x5 x6 x7 x8 x9 x10 x11 x12 x13 x14 x15 x16 x17 x18 := by
  unfold net
  rw [← hidden_eq x0 x1 x3 x4 x5 x6 x7 x8 x9 x10]
  exact tail_eq x0 x1 x2 x3 x4 x5 x6 x7 x8 x9 x10 x11 x12 x13 x14 x15 x16 x17 x18

end Cert.ReferenceIdeal.RefValue

end
-- ==== Proof.KI.Walk.lean ====
import proofs.«400867_j53901839564968_2_alg».proof.Proof.KI.Run

namespace Cert.KernelIdeal.Hand

open Cert.KernelIdeal Cert.KernelIdeal.Gen Idealize.ShloMosaic Idealize.ShloMosaic.TcCoe

variable {F : FTy → Type} [FloatOps F]
variable (m : (ℓ : Loc nD τ sig) → Buf (Elt F) ℓ) (ρ : Dev nD → PrngReg) (c : Dev nD) (r : Ref sig .tc)

-- The host stretch before region j does not write `r`, and `r` is none of region j's arrays.
abbrev Free1 : Prop := r ∉ hostOps1_W ∧ ∀ w, Pipeline.arrRef spec1 w ≠ r
abbrev Free2 : Prop := r ∉ hostOps2_W ∧ ∀ w, Pipeline.arrRef spec2 w ≠ r
abbrev Free3 : Prop := r ∉ hostOps3_W ∧ ∀ w, Pipeline.arrRef spec3 w ≠ r
abbrev Free4 : Prop := r ∉ hostOps4_W ∧ ∀ w, Pipeline.arrRef spec4 w ≠ r
abbrev Free5 : Prop := r ∉ hostOps5_W ∧ ∀ w, Pipeline.arrRef spec5 w ≠ r

-- Such a reference holds when region j is left what it held when region j-1 was left.
theorem W4_of_W2 (h : Free1 r) :
    W4 m ρ c (Proc.devRef .tc r) = W2 m ρ c (Proc.devRef .tc r) :=
  (W4_of_ne m ρ c r h.2).trans (W3_of m ρ c r h.1)
theorem W6_of_W4 (h : Free2 r) :
    W6 m ρ c (Proc.devRef .tc r) = W4 m ρ c (Proc.devRef .tc r) :=
  (W6_of_ne m ρ c r h.2).trans (W5_of m ρ c r h.1)
theorem W8_of_W6 (h : Free3 r) :
    W8 m ρ c (Proc.devRef .tc r) = W6 m ρ c (Proc.devRef .tc r) :=
  (W8_of_ne m ρ c r h.2).trans (W7_of m ρ c r h.1)
theorem W10_of_W8 (h : Free4 r) :
    W10 m ρ c (Proc.devRef .tc r) = W8 m ρ c (Proc.devRef .tc r) :=
  (W10_of_ne m ρ c r h.2).trans (W9_of m ρ c r h.1)
theorem W12_of_W10 (h : Free5 r) :
    W12 m ρ c (Proc.devRef .tc r) = W10 m ρ c (Proc.devRef .tc r) :=
  (W12_of_ne m ρ c r h.2).trans (W11_of m ρ c r h.1)

-- A reference free in regions 1 to j and none of region 0's arrays still holds what region 0 was entered with.
theorem W4_of_W1 (h : Free1 r ∧ ∀ w, Pipeline.arrRef spec0 w ≠ r) :
    W4 m ρ c (Proc.devRef .tc r) = W1 m ρ c (Proc.devRef .tc r) :=
  (W4_of_W2 m ρ c r h.1).trans (W2_of_ne m ρ c r h.2)
theorem W6_of_W1 (h : Free2 r ∧ Free1 r ∧ ∀ w, Pipeline.arrRef spec0 w ≠ r) :
    W6 m ρ c (Proc.devRef .tc r) = W1 m ρ c (Proc.devRef .tc r) :=
  (W6_of_W4 m ρ c r h.1).trans (W4_of_W1 m ρ c r h.2)
theorem W8_of_W1 (h : Free3 r ∧ Free2 r ∧ Free1 r ∧ ∀ w, Pipeline.arrRef spec0 w ≠ r) :
    W8 m ρ c (Proc.devRef .tc r) = W1 m ρ c (Proc.devRef .tc r) :=
  (W8_of_W6 m ρ c r h.1).trans (W6_of_W1 m ρ c r h.2)
theorem W10_of_W1 (h : Free4 r ∧ Free3 r ∧ Free2 r ∧ Free1 r ∧ ∀ w, Pipeline.arrRef spec0 w ≠ r) :
    W10 m ρ c (Proc.devRef .tc r) = W1 m ρ c (Proc.devRef .tc r) :=
  (W10_of_W8 m ρ c r h.1).trans (W8_of_W1 m ρ c r h.2)
theorem W12_of_W1 (h : Free5 r ∧ Free4 r ∧ Free3 r ∧ Free2 r ∧ Free1 r ∧ ∀ w, Pipeline.arrRef spec0 w ≠ r) :
    W12 m ρ c (Proc.devRef .tc r) = W1 m ρ c (Proc.devRef .tc r) :=
  (W12_of_W10 m ρ c r h.1).trans (W10_of_W1 m ρ c r h.2)

theorem W12_main_arg2 : W12 m ρ c (Proc.devRef .tc main_arg2) = m ((c : Thread nD τ).loc main_arg2) :=
  (W12_of_W1 m ρ c _ (by decide)).trans (W1_of m ρ c _ (by decide))
theorem W2_main_arg4 : W2 m ρ c (Proc.devRef .tc main_arg4) = m ((c : Thread nD τ).loc main_arg4) :=
  (W2_of_ne m ρ c _ (by decide)).trans (W1_of m ρ c _ (by decide))
theorem W2_main_arg6 : W2 m ρ c (Proc.devRef .tc main_arg6) = m ((c : Thread nD τ).loc main_arg6) :=
  (W2_of_ne m ρ c _ (by decide)).trans (W1_of m ρ c _ (by decide))
theorem W4_main_arg7 : W4 m ρ c (Proc.devRef .tc main_arg7) = m ((c : Thread nD τ).loc main_arg7) :=
  (W4_of_W1 m ρ c _ (by decide)).trans (W1_of m ρ c _ (by decide))
theorem W6_main_arg7 : W6 m ρ c (Proc.devRef .tc main_arg7) = m ((c : Thread nD τ).loc main_arg7) :=
  (W6_of_W1 m ρ c _ (by decide)).trans (W1_of m ρ c _ (by decide))
theorem W8_main_arg7 : W8 m ρ c (Proc.devRef .tc main_arg7) = m ((c : Thread nD τ).loc main_arg7) :=
  (W8_of_W1 m ρ c _ (by decide)).trans (W1_of m ρ c _ (by decide))
theorem W10_main_arg7 : W10 m ρ c (Proc.devRef .tc main_arg7) = m ((c : Thread nD τ).loc main_arg7) :=
  (W10_of_W1 m ρ c _ (by decide)).trans (W1_of m ρ c _ (by decide))
theorem W4_main_arg8 : W4 m ρ c (Proc.devRef .tc main_arg8) = m ((c : Thread nD τ).loc main_arg8) :=
  (W4_of_W1 m ρ c _ (by decide)).trans (W1_of m ρ c _ (by decide))
theorem W6_main_arg8 : W6 m ρ c (Proc.devRef .tc main_arg8) = m ((c : Thread nD τ).loc main_arg8) :=
  (W6_of_W1 m ρ c _ (by decide)).trans (W1_of m ρ c _ (by decide))
theorem W8_main_arg8 : W8 m ρ c (Proc.devRef .tc main_arg8) = m ((c : Thread nD τ).loc main_arg8) :=
  (W8_of_W1 m ρ c _ (by decide)).trans (W1_of m ρ c _ (by decide))
theorem W10_main_arg8 : W10 m ρ c (Proc.devRef .tc main_arg8) = m ((c : Thread nD τ).loc main_arg8) :=
  (W10_of_W1 m ρ c _ (by decide)).trans (W1_of m ρ c _ (by decide))
theorem W4_main_arg9 : W4 m ρ c (Proc.devRef .tc main_arg9) = m ((c : Thread nD τ).loc main_arg9) :=
  (W4_of_W1 m ρ c _ (by decide)).trans (W1_of m ρ c _ (by decide))
theorem W6_main_arg9 : W6 m ρ c (Proc.devRef .tc main_arg9) = m ((c : Thread nD τ).loc main_arg9) :=
  (W6_of_W1 m ρ c _ (by decide)).trans (W1_of m ρ c _ (by decide))
theorem W8_main_arg9 : W8 m ρ c (Proc.devRef .tc main_arg9) = m ((c : Thread nD τ).loc main_arg9) :=
  (W8_of_W1 m ρ c _ (by decide)).trans (W1_of m ρ c _ (by decide))
theorem W10_main_arg9 : W10 m ρ c (Proc.devRef .tc main_arg9) = m ((c : Thread nD τ).loc main_arg9) :=
  (W10_of_W1 m ρ c _ (by decide)).trans (W1_of m ρ c _ (by decide))
theorem W4_main_arg10 : W4 m ρ c (Proc.devRef .tc main_arg10) = m ((c : Thread nD τ).loc main_arg10) :=
  (W4_of_W1 m ρ c _ (by decide)).trans (W1_of m ρ c _ (by decide))
theorem W6_main_arg10 : W6 m ρ c (Proc.devRef .tc main_arg10) = m ((c : Thread nD τ).loc main_arg10) :=
  (W6_of_W1 m ρ c _ (by decide)).trans (W1_of m ρ c _ (by decide))
theorem W8_main_arg10 : W8 m ρ c (Proc.devRef .tc main_arg10) = m ((c : Thread nD τ).loc main_arg10) :=
  (W8_of_W1 m ρ c _ (by decide)).trans (W1_of m ρ c _ (by decide))
theorem W10_main_arg10 : W10 m ρ c (Proc.devRef .tc main_arg10) = m ((c : Thread nD τ).loc main_arg10) :=
  (W10_of_W1 m ρ c _ (by decide)).trans (W1_of m ρ c _ (by decide))
theorem W12_main_arg12 : W12 m ρ c (Proc.devRef .tc main_arg12) = m ((c : Thread nD τ).loc main_arg12) :=
  (W12_of_W1 m ρ c _ (by decide)).trans (W1_of m ρ c _ (by decide))
theorem W12_main_arg14 : W12 m ρ c (Proc.devRef .tc main_arg14) = m ((c : Thread nD τ).loc main_arg14) :=
  (W12_of_W1 m ρ c _ (by decide)).trans (W1_of m ρ c _ (by decide))
theorem W12_main_arg15 : W12 m ρ c (Proc.devRef .tc main_arg15) = m ((c : Thread nD τ).loc main_arg15) :=
  (W12_of_W1 m ρ c _ (by decide)).trans (W1_of m ρ c _ (by decide))
theorem W12_main_arg16 : W12 m ρ c (Proc.devRef .tc main_arg16) = m ((c : Thread nD τ).loc main_arg16) :=
  (W12_of_W1 m ρ c _ (by decide)).trans (W1_of m ρ c _ (by decide))
theorem W12_main_arg18 : W12 m ρ c (Proc.devRef .tc main_arg18) = m ((c : Thread nD τ).loc main_arg18) :=
  (W12_of_W1 m ρ c _ (by decide)).trans (W1_of m ρ c _ (by decide))
theorem W2_main_v1 : W2 m ρ c (Proc.devRef .tc main_v1) = W1 m ρ c (Proc.devRef .tc main_v1) :=
  W2_of_ne m ρ c _ (by decide)
theorem W4_main_v1 : W4 m ρ c (Proc.devRef .tc main_v1) = W1 m ρ c (Proc.devRef .tc main_v1) :=
  W4_of_W1 m ρ c _ (by decide)
theorem W6_main_v1 : W6 m ρ c (Proc.devRef .tc main_v1) = W1 m ρ c (Proc.devRef .tc main_v1) :=
  W6_of_W1 m ρ c _ (by decide)
theorem W8_main_v1 : W8 m ρ c (Proc.devRef .tc main_v1) = W1 m ρ c (Proc.devRef .tc main_v1) :=
  W8_of_W1 m ρ c _ (by decide)
theorem W10_main_v1 : W10 m ρ c (Proc.devRef .tc main_v1) = W1 m ρ c (Proc.devRef .tc main_v1) :=
  W10_of_W1 m ρ c _ (by decide)
theorem W2_main_v3 : W2 m ρ c (Proc.devRef .tc main_v3) = W1 m ρ c (Proc.devRef .tc main_v3) :=
  W2_of_ne m ρ c _ (by decide)
theorem W4_main_v3 : W4 m ρ c (Proc.devRef .tc main_v3) = W1 m ρ c (Proc.devRef .tc main_v3) :=
  W4_of_W1 m ρ c _ (by decide)
theorem W6_main_v3 : W6 m ρ c (Proc.devRef .tc main_v3) = W1 m ρ c (Proc.devRef .tc main_v3) :=
  W6_of_W1 m ρ c _ (by decide)
theorem W8_main_v3 : W8 m ρ c (Proc.devRef .tc main_v3) = W1 m ρ c (Proc.devRef .tc main_v3) :=
  W8_of_W1 m ρ c _ (by decide)
theorem W10_main_v3 : W10 m ρ c (Proc.devRef .tc main_v3) = W1 m ρ c (Proc.devRef .tc main_v3) :=
  W10_of_W1 m ρ c _ (by decide)
theorem W2_main_v4 : W2 m ρ c (Proc.devRef .tc main_v4) = (dat0 (V1 m ρ) c).arrAt 2 cfg0.N :=
  W2_arr m ρ c 2
theorem W4_main_v17 : W4 m ρ c (Proc.devRef .tc main_v17) = (dat1 (V3 m ρ) c).arrAt 5 cfg1.N :=
  W4_arr m ρ c 5
theorem W6_main_v38 : W6 m ρ c (Proc.devRef .tc main_v38) = (dat2 (V5 m ρ) c).arrAt 6 cfg2.N :=
  W6_arr m ρ c 6
theorem W8_main_v59 : W8 m ρ c (Proc.devRef .tc main_v59) = (dat3 (V7 m ρ) c).arrAt 6 cfg3.N :=
  W8_arr m ρ c 6
theorem W10_main_v80 : W10 m ρ c (Proc.devRef .tc main_v80) = (dat4 (V9 m ρ) c).arrAt 6 cfg4.N :=
  W10_arr m ρ c 6
theorem V1_main_arg0 : V1 m ρ c main_arg0 = m ((c : Thread nD τ).loc main_arg0) :=
  W1_of m ρ c _ (by decide)
theorem V1_main_arg3 : V1 m ρ c main_arg3 = m ((c : Thread nD τ).loc main_arg3) :=
  W1_of m ρ c _ (by decide)
theorem V3_main_v14 : V3 m ρ c main_v14 = StableHlo.after hostOps1 (W2 m ρ c) (Proc.devRef .tc main_v14) :=
  rfl
theorem V3_main_v4 : V3 m ρ c main_v4 = (dat0 (V1 m ρ) c).arrAt 2 cfg0.N :=
  (W3_of m ρ c _ (by decide)).trans (W2_arr m ρ c 2)
theorem V3_main_v15 : V3 m ρ c main_v15 = StableHlo.after hostOps1 (W2 m ρ c) (Proc.devRef .tc main_v15) :=
  rfl
theorem V3_main_arg5 : V3 m ρ c main_arg5 = m ((c : Thread nD τ).loc main_arg5) :=
  (W3_of m ρ c _ (by decide)).trans ((W2_of_ne m ρ c _ (by decide)).trans (W1_of m ρ c _ (by decide)))
theorem V3_main_v16 : V3 m ρ c main_v16 = StableHlo.after hostOps1 (W2 m ρ c) (Proc.devRef .tc main_v16) :=
  rfl
theorem V5_main_v27 : V5 m ρ c main_v27 = StableHlo.after hostOps2 (W4 m ρ c) (Proc.devRef .tc main_v27) :=
  rfl
theorem V5_main_v17 : V5 m ρ c main_v17 = (dat1 (V3 m ρ) c).arrAt 5 cfg1.N :=
  (W5_of m ρ c _ (by decide)).trans (W4_arr m ρ c 5)
theorem V5_main_v29 : V5 m ρ c main_v29 = StableHlo.after hostOps2 (W4 m ρ c) (Proc.devRef .tc main_v29) :=
  rfl
theorem V5_main_v36 : V5 m ρ c main_v36 = StableHlo.after hostOps2 (W4 m ρ c) (Proc.devRef .tc main_v36) :=
  rfl
theorem V5_main_v33 : V5 m ρ c main_v33 = StableHlo.after hostOps2 (W4 m ρ c) (Proc.devRef .tc main_v33) :=
  rfl
theorem V5_main_v37 : V5 m ρ c main_v37 = StableHlo.after hostOps2 (W4 m ρ c) (Proc.devRef .tc main_v37) :=
  rfl
theorem V7_main_v48 : V7 m ρ c main_v48 = StableHlo.after hostOps3 (W6 m ρ c) (Proc.devRef .tc main_v48) :=
  rfl
theorem V7_main_v38 : V7 m ρ c main_v38 = (dat2 (V5 m ρ) c).arrAt 6 cfg2.N :=
  (W7_of m ρ c _ (by decide)).trans (W6_arr m ρ c 6)
theorem V7_main_v50 : V7 m ρ c main_v50 = StableHlo.after hostOps3 (W6 m ρ c) (Proc.devRef .tc main_v50) :=
  rfl
theorem V7_main_v57 : V7 m ρ c main_v57 = StableHlo.after hostOps3 (W6 m ρ c) (Proc.devRef .tc main_v57) :=
  rfl
theorem V7_main_v54 : V7 m ρ c main_v54 = StableHlo.after hostOps3 (W6 m ρ c) (Proc.devRef .tc main_v54) :=
  rfl
theorem V7_main_v58 : V7 m ρ c main_v58 = StableHlo.after hostOps3 (W6 m ρ c) (Proc.devRef .tc main_v58) :=
  rfl
theorem V9_main_v69 : V9 m ρ c main_v69 = StableHlo.after hostOps4 (W8 m ρ c) (Proc.devRef .tc main_v69) :=
  rfl
theorem V9_main_v59 : V9 m ρ c main_v59 = (dat3 (V7 m ρ) c).arrAt 6 cfg3.N :=
  (W9_of m ρ c _ (by decide)).trans (W8_arr m ρ c 6)
theorem V9_main_v71 : V9 m ρ c main_v71 = StableHlo.after hostOps4 (W8 m ρ c) (Proc.devRef .tc main_v71) :=
  rfl
theorem V9_main_v78 : V9 m ρ c main_v78 = StableHlo.after hostOps4 (W8 m ρ c) (Proc.devRef .tc main_v78) :=
  rfl
theorem V9_main_v75 : V9 m ρ c main_v75 = StableHlo.after hostOps4 (W8 m ρ c) (Proc.devRef .tc main_v75) :=
  rfl
theorem V9_main_v79 : V9 m ρ c main_v79 = StableHlo.after hostOps4 (W8 m ρ c) (Proc.devRef .tc main_v79) :=
  rfl
theorem V11_main_v90 : V11 m ρ c main_v90 = StableHlo.after hostOps5 (W10 m ρ c) (Proc.devRef .tc main_v90) :=
  rfl
theorem V11_main_v80 : V11 m ρ c main_v80 = (dat4 (V9 m ρ) c).arrAt 6 cfg4.N :=
  (W11_of m ρ c _ (by decide)).trans (W10_arr m ρ c 6)
theorem V11_main_v92 : V11 m ρ c main_v92 = StableHlo.after hostOps5 (W10 m ρ c) (Proc.devRef .tc main_v92) :=
  rfl
theorem V11_main_v99 : V11 m ρ c main_v99 = StableHlo.after hostOps5 (W10 m ρ c) (Proc.devRef .tc main_v99) :=
  rfl
theorem V11_main_v96 : V11 m ρ c main_v96 = StableHlo.after hostOps5 (W10 m ρ c) (Proc.devRef .tc main_v96) :=
  rfl
theorem V11_main_v100 : V11 m ρ c main_v100 = StableHlo.after hostOps5 (W10 m ρ c) (Proc.devRef .tc main_v100) :=
  rfl
theorem V13_main_v17 : V13 m ρ c main_v17 = (dat1 (V3 m ρ) c).arrAt 5 cfg1.N :=
  (W13_of m ρ c _ (by decide)).trans ((W12_of_W10 m ρ c _ (by decide)).trans ((W10_of_W8 m ρ c _ (by decide)).trans
    ((W8_of_W6 m ρ c _ (by decide)).trans (((W6_arr m ρ c 1).trans (((dat2 (V5 m ρ) c).arrAt_in 1 rfl _).trans
    (A_eq2 (V5 m ρ) c 1))).trans (V5_main_v17 m ρ c)))))
theorem V13_main_v38 : V13 m ρ c main_v38 = (dat2 (V5 m ρ) c).arrAt 6 cfg2.N :=
  (W13_of m ρ c _ (by decide)).trans ((W12_of_W10 m ρ c _ (by decide)).trans ((W10_of_W8 m ρ c _ (by decide)).trans
    (((W8_arr m ρ c 1).trans (((dat3 (V7 m ρ) c).arrAt_in 1 rfl _).trans (A_eq3 (V7 m ρ) c 1))).trans
    (V7_main_v38 m ρ c))))
theorem V13_main_v59 : V13 m ρ c main_v59 = (dat3 (V7 m ρ) c).arrAt 6 cfg3.N :=
  (W13_of m ρ c _ (by decide)).trans ((W12_of_W10 m ρ c _ (by decide)).trans (((W10_arr m ρ c 1).trans
    (((dat4 (V9 m ρ) c).arrAt_in 1 rfl _).trans (A_eq4 (V9 m ρ) c 1))).trans (V9_main_v59 m ρ c)))
theorem V13_main_v80 : V13 m ρ c main_v80 = (dat4 (V9 m ρ) c).arrAt 6 cfg4.N :=
  (W13_of m ρ c _ (by decide)).trans (((W12_arr m ρ c 1).trans (((dat5 (V11 m ρ) c).arrAt_in 1 rfl _).trans
    (A_eq5 (V11 m ρ) c 1))).trans (V11_main_v80 m ρ c))
theorem V13_main_v101 : V13 m ρ c main_v101 = (dat5 (V11 m ρ) c).arrAt 6 cfg5.N :=
  (W13_of m ρ c _ (by decide)).trans (W12_arr m ρ c 6)
theorem V13_main_arg11 : V13 m ρ c main_arg11 = m ((c : Thread nD τ).loc main_arg11) :=
  (W13_of m ρ c _ (by decide)).trans ((W12_of_W1 m ρ c _ (by decide)).trans (W1_of m ρ c _ (by decide)))
theorem V13_main_v103 : V13 m ρ c main_v103 = StableHlo.after hostOps6 (W12 m ρ c) (Proc.devRef .tc main_v103) :=
  rfl
theorem V13_main_v102 : V13 m ρ c main_v102 = StableHlo.after hostOps6 (W12 m ρ c) (Proc.devRef .tc main_v102) :=
  rfl
theorem V13_main_arg13 : V13 m ρ c main_arg13 = m ((c : Thread nD τ).loc main_arg13) :=
  (W13_of m ρ c _ (by decide)).trans ((W12_of_W1 m ρ c _ (by decide)).trans (W1_of m ρ c _ (by decide)))
theorem V13_main_v104 : V13 m ρ c main_v104 = StableHlo.after hostOps6 (W12 m ρ c) (Proc.devRef .tc main_v104) :=
  rfl
theorem V13_main_v105 : V13 m ρ c main_v105 = StableHlo.after hostOps6 (W12 m ρ c) (Proc.devRef .tc main_v105) :=
  rfl
theorem V13_main_v106 : V13 m ρ c main_v106 = StableHlo.after hostOps6 (W12 m ρ c) (Proc.devRef .tc main_v106) :=
  rfl
theorem V13_main_arg17 : V13 m ρ c main_arg17 = m ((c : Thread nD τ).loc main_arg17) :=
  (W13_of m ρ c _ (by decide)).trans ((W12_of_W1 m ρ c _ (by decide)).trans (W1_of m ρ c _ (by decide)))
theorem V13_main_v107 : V13 m ρ c main_v107 = StableHlo.after hostOps6 (W12 m ρ c) (Proc.devRef .tc main_v107) :=
  rfl

end Cert.KernelIdeal.Hand
-- ==== Proof.Val.AggRec.lean ====
import proofs.«400867_j53901839564968_2_alg».proof.Proof.Gen.KernelIdeal
import proofs.«400867_j53901839564968_2_alg».proof.Proof.Ref.Stage

noncomputable section

namespace Cert.KernelIdeal.HandVal

open Cert.KernelIdeal Cert.KernelIdeal.Gen Cert.Spec
open Idealize.ShloMosaic Idealize.ShloMosaic.ValueIdx
open Cert.ReferenceIdeal.RefValue
open scoped BigOperators

theorem gatherRec_rowDims : gather_S50000x64_S800000x1_S800000x64_1_0_n_n_0_1_164
    = GatherRows.rowDims 50000 800000 64 gather_S50000x64_S800000x1_S800000x64_1_0_n_n_0_1_164_wf := rfl

theorem scatterRec_rowDims : scatter_S50000x64_S800000x1_S800000x64_1_0_0_1
    = ScatterRows.rowDims 50000 800000 64 scatter_S50000x64_S800000x1_S800000x64_1_0_0_1_wf := rfl

theorem agg_of_records (sI dI : ICol 800000) (h z : Mat 50000 64) (hz : ∀ i, z i = 0) :
    (Host.scatterAdd (F := Ideal) (φ := .f32) scatter_S50000x64_S800000x1_S800000x64_1_0_0_1 z dI
      (Host.gather gather_S50000x64_S800000x1_S800000x64_1_0_n_n_0_1_164 h sI) : Mat 50000 64) = agg sI dI h := by
  rw [gatherRec_rowDims, scatterRec_rowDims,
    gather_rowDims_eq (N := 50000) (R := 800000) (C := 64) (by decide) gather_S50000x64_S800000x1_S800000x64_1_0_n_n_0_1_164_wf h sI]
  exact scatter_rowDims_eq (N := 50000) (R := 800000) (C := 64) scatter_S50000x64_S800000x1_S800000x64_1_0_0_1_wf z hz dI
    (gatherRows (N := 50000) (R := 800000) (c := 64) (by decide) sI h)

end Cert.KernelIdeal.HandVal

end
-- ==== Proof.Val.HostDefs.lean ====
import proofs.«400867_j53901839564968_2_alg».proof.Proof.Gen.KernelIdeal.Launch
import proofs.«400867_j53901839564968_2_alg».proof.Proof.Spec
import Idealize.ShloMosaic.Lib.ValueIdx
noncomputable section
namespace Cert.KernelIdeal.HandVal
open Cert.KernelIdeal Cert.Spec
open Idealize.ShloMosaic Idealize.ShloMosaic.ValueIdx

def srcWords (e : S2x800000.Idx → BitVec 32) : S800000.Idx → BitVec 32 := fun i => e (ix2 (0 : Fin 2) (i 0))

def dstWords (e : S2x800000.Idx → BitVec 32) : S800000.Idx → BitVec 32 := fun i => e (ix2 (1 : Fin 2) (i 0))

def sColOf (s : S800000.Idx → BitVec 32) : Spec.ICol 800000 :=
  fun i => if (s (ix1 (i 0))).slt 0#32 then s (ix1 (i 0)) + 50000#32 else s (ix1 (i 0))

def dColOf (d : S800000.Idx → BitVec 32) : Spec.ICol 800000 := fun i => d (ix1 (i 0))

def sIdx (e : S2x800000.Idx → BitVec 32) : Spec.ICol 800000 := sColOf (srcWords e)

def dIdx (e : S2x800000.Idx → BitVec 32) : Spec.ICol 800000 := dColOf (dstWords e)

def bIdx (b : S50000.Idx → BitVec 32) : Spec.ICol 50000 := fun i => b (ix1 (i 0))

def rowMat {c : Nat} (b : (⟨1, ![c]⟩ : Shape).Idx → EReal) : Spec.Mat 1 c := fun i => b (ix1 (i 1))

end Cert.KernelIdeal.HandVal
end
-- ==== Proof.Val.HostLayout.lean ====
import proofs.«400867_j53901839564968_2_alg».proof.Proof.Val.HostDefs
import Idealize.ShloMosaic.Lib.StableHlo.Run
import Idealize.ShloMosaic.Lib.Pipeline.Value
import Idealize.ShloMosaic.Lib.ValueLayout
noncomputable section
namespace Cert.KernelIdeal.HandVal
open Cert.KernelIdeal Cert.KernelIdeal.Gen Cert.Spec
open Idealize.ShloMosaic Idealize.ShloMosaic.ValueIdx
open Idealize.ShloMosaic.StableHlo

theorem shapeCast_rowMat {c : Nat} (b : (⟨1, ![c]⟩ : Shape).Idx → EReal) (h : (⟨1, ![c]⟩ : Shape).ShapeCasts ⟨2, ![1, c]⟩) :
    shapeCast ⟨2, ![1, c]⟩ b h = rowMat b :=
  funext fun i => (congrArg _ (eq_ix2 i)).trans (shapeCast_a_1a_apply b h (i 0) (i 1))

theorem shapeCast_col {n : Nat} (b : (⟨1, ![n]⟩ : Shape).Idx → BitVec 32) (h : (⟨1, ![n]⟩ : Shape).ShapeCasts ⟨2, ![n, 1]⟩) :
    shapeCast ⟨2, ![n, 1]⟩ b h = fun i => b (ix1 (i 0)) := by
  funext i
  obtain ⟨p, q, rfl⟩ : ∃ (p : Fin n) (q : Fin 1), i = ix2 p q := ⟨i 0, i 1, eq_ix2 i⟩
  refine shapeCast_apply b h _ (ix1 p) ?_
  rw [Shape.rowMajor_val_one, Shape.rowMajor_val_two]
  have hq : q.val = 0 := by have := q.isLt; omega
  show p.val = p.val * 1 + q.val
  omega

theorem slab_of_slice (w : Spec.Stack) (o : Nat) (ho : o < 4) (hs : S4x64x64.Slices ![o, 0, 0] S1x64x64) (hc : S1x64x64.ShapeCasts S64x64) :
    shapeCast S64x64 (extractStridedSlice S1x64x64 ![o, 0, 0] w hs) hc = Spec.slab w ⟨o, ho⟩ := by
  funext i
  obtain ⟨p, q, rfl⟩ : ∃ (p : Fin 64) (q : Fin 64), i = ix2 p q := ⟨i 0, i 1, eq_ix2 i⟩
  refine (shapeCast_apply _ hc (ix2 p q) (ix3 (0 : Fin 1) p q) ?_).trans ?_
  · rw [Shape.rowMajor_val_three, Shape.rowMajor_val_two]
    show (0 * 64 + p.val) * 64 + q.val = p.val * 64 + q.val
    omega
  · refine extractStridedSlice_apply _ w hs (ix3 (0 : Fin 1) p q) (ix3 (⟨o, ho⟩ : Fin 4) p q) fun a => ?_
    match a with
    | ⟨0, _⟩ => show o = o + 0; rfl
    | ⟨1, _⟩ => show p.val = 0 + p.val; omega
    | ⟨2, _⟩ => show q.val = 0 + q.val; omega

theorem row_of_slice (b : Spec.Mat 4 64) (o : Nat) (ho : o < 4) (hs : S4x64.Slices ![o, 0] S1x64) (h1 : S1x64.ShapeCasts S64) (h2 : S64.ShapeCasts S1x64) :
    shapeCast S1x64 (shapeCast S64 (extractStridedSlice S1x64 ![o, 0] b hs) h1) h2 = rowMat (Spec.srow b ⟨o, ho⟩) := by
  rw [shapeCast_shapeCast]
  funext i
  obtain ⟨p, q, rfl⟩ : ∃ (p : Fin 1) (q : Fin 64), i = ix2 p q := ⟨i 0, i 1, eq_ix2 i⟩
  exact slice2_axis0_apply o b hs p q ⟨o, ho⟩ (by show o = o + p.val; have := p.isLt; omega)

end Cert.KernelIdeal.HandVal
end
-- ==== Proof.Val.Host.lean ====
import proofs.«400867_j53901839564968_2_alg».proof.Proof.Val.AggRec
import proofs.«400867_j53901839564968_2_alg».proof.Proof.Val.HostLayout
import Idealize.ShloMosaic.Lib.ValueLayout
import Idealize.ShloMosaic.Lib.Tactic
noncomputable section
namespace Cert.KernelIdeal.HandVal
open Cert.KernelIdeal Cert.KernelIdeal.Gen Cert.Spec
open Idealize.ShloMosaic Idealize.ShloMosaic.TcCoe Idealize.ShloMosaic.Tactic Idealize.ShloMosaic.ValueIdx
open scoped BigOperators

variable (W : Valuation τ sig (Elt Ideal))

theorem edge_row (e : S2x800000.Idx → BitVec 32) (o : Fin 2) (h : S2x800000.Slices ![o.val, 0] S1x800000) :
    shapeCast S800000 (extractStridedSlice S1x800000 ![o.val, 0] e h) shapeCasts_S1x800000_S800000 = fun i => e (ix2 o (i 0)) :=
  funext fun i => (congrArg _ (eq_ix1 i)).trans ((shapeCast_1a_a_apply _ _ (i 0)).trans (slice2_axis0_apply o.val e h 0 (i 0) o rfl))

theorem host0_v1 :
    (StableHlo.after (hostOps0 (F := Ideal)) W (Proc.devRef .tc main_v1) : S800000.Idx → BitVec 32)
      = srcWords (W (Proc.devRef .tc main_arg1)) := by
  after_results
  exact edge_row _ 0 _

theorem host0_v3 :
    (StableHlo.after (hostOps0 (F := Ideal)) W (Proc.devRef .tc main_v3) : S800000.Idx → BitVec 32)
      = dstWords (W (Proc.devRef .tc main_arg1)) := by
  after_results
  exact edge_row _ 1 _

theorem col_apply {α : Type} (d : S800000.Idx → α) (j : Fin 800000) :
    broadcastInDim S800000x1 ![0] bcast_S800000_S800000x1_0 d (ix2 j (0 : Fin 1)) = d (ix1 j) := by
  refine broadcastInDim_apply _ _ d _ (ix1 j) fun a => ?_
  match a with
  | ⟨0, _⟩ => rfl

theorem src_col (s : S800000.Idx → BitVec 32) :
    broadcastInDim S800000x1 ![0] bcast_S800000_S800000x1_0
      (select (cmpi CmpIPredicate.slt s (broadcastInDim S800000 ![] bcast_S_S800000 (constantI S_ 32 0#32)))
        (addi s (broadcastInDim S800000 ![] bcast_S_S800000 (constantI S_ 32 50000#32))) s) = sColOf s :=
  funext fun i => by
    obtain ⟨j, c, rfl⟩ : ∃ (j : Fin 800000) (c : Fin 1), i = ix2 j c := ⟨i 0, i 1, eq_ix2 i⟩
    obtain rfl : c = 0 := Subsingleton.elim _ _
    rw [col_apply]
    show Scalar.select (IntOp.cmpi .slt (s (ix1 j)) 0#32) (IntOp.addi (s (ix1 j)) 50000#32) (s (ix1 j)) = _
    unfold sColOf Scalar.select IntOp.cmpi IntOp.addi
    show (if BitVec.ofBool ((s (ix1 j)).slt 0#32) = 1 then _ else _) = if (s (ix1 j)).slt 0#32 then _ else _
    cases h : (s (ix1 j)).slt 0#32 <;> simp

theorem dst_col (d : S800000.Idx → BitVec 32) :
    broadcastInDim S800000x1 ![0] bcast_S800000_S800000x1_0 d = dColOf d :=
  funext fun i => by
    obtain ⟨j, c, rfl⟩ : ∃ (j : Fin 800000) (c : Fin 1), i = ix2 j c := ⟨i 0, i 1, eq_ix2 i⟩
    obtain rfl : c = 0 := Subsingleton.elim _ _
    exact col_apply d j

theorem agg_chain (s d : S800000.Idx → BitVec 32) (h : S50000x64.Idx → EReal) :
    Host.scatterAdd (F := Ideal) scatter_S50000x64_S800000x1_S800000x64_1_0_0_1
      (broadcastInDim S50000x64 ![] bcast_S_S50000x64 (constant (F := Ideal) S_ FTy.f32 0#32))
      (broadcastInDim S800000x1 ![0] bcast_S800000_S800000x1_0 d)
      (Host.gather gather_S50000x64_S800000x1_S800000x64_1_0_n_n_0_1_164 h
        (broadcastInDim S800000x1 ![0] bcast_S800000_S800000x1_0
          (select (cmpi CmpIPredicate.slt s (broadcastInDim S800000 ![] bcast_S_S800000 (constantI S_ 32 0#32)))
            (addi s (broadcastInDim S800000 ![] bcast_S_S800000 (constantI S_ 32 50000#32))) s)))
      = Spec.agg (sColOf s) (dColOf d) h := by
  rw [src_col, dst_col]
  exact agg_of_records (sColOf s) (dColOf d) h _ (fun i => Ideal.ofBits_zero_f32)

theorem host1_v14 :
    (StableHlo.after (hostOps1 (F := Ideal)) W (Proc.devRef .tc main_v14) : S50000x64.Idx → EReal)
      = Spec.agg (sColOf (W (Proc.devRef .tc main_v1))) (dColOf (W (Proc.devRef .tc main_v3))) (W (Proc.devRef .tc main_v4)) := by
  after_results
  exact agg_chain _ _ _

theorem host2_v27 :
    (StableHlo.after (hostOps2 (F := Ideal)) W (Proc.devRef .tc main_v27) : S50000x64.Idx → EReal)
      = Spec.agg (sColOf (W (Proc.devRef .tc main_v1))) (dColOf (W (Proc.devRef .tc main_v3))) (W (Proc.devRef .tc main_v17)) := by
  after_results_simp
  exact agg_chain _ _ _

theorem host3_v48 :
    (StableHlo.after (hostOps3 (F := Ideal)) W (Proc.devRef .tc main_v48) : S50000x64.Idx → EReal)
      = Spec.agg (sColOf (W (Proc.devRef .tc main_v1))) (dColOf (W (Proc.devRef .tc main_v3))) (W (Proc.devRef .tc main_v38)) := by
  after_results_simp
  exact agg_chain _ _ _

theorem host4_v69 :
    (StableHlo.after (hostOps4 (F := Ideal)) W (Proc.devRef .tc main_v69) : S50000x64.Idx → EReal)
      = Spec.agg (sColOf (W (Proc.devRef .tc main_v1))) (dColOf (W (Proc.devRef .tc main_v3))) (W (Proc.devRef .tc main_v59)) := by
  after_results_simp
  exact agg_chain _ _ _

theorem host5_v90 :
    (StableHlo.after (hostOps5 (F := Ideal)) W (Proc.devRef .tc main_v90) : S50000x64.Idx → EReal)
      = Spec.agg (sColOf (W (Proc.devRef .tc main_v1))) (dColOf (W (Proc.devRef .tc main_v3))) (W (Proc.devRef .tc main_v80)) := by
  after_results_simp
  exact agg_chain _ _ _

theorem host1_v15 :
    (StableHlo.after (hostOps1 (F := Ideal)) W (Proc.devRef .tc main_v15) : S1x64.Idx → EReal)
      = rowMat (W (Proc.devRef .tc main_arg4)) := by
  after_results
  exact shapeCast_rowMat _ _

theorem host1_v16 :
    (StableHlo.after (hostOps1 (F := Ideal)) W (Proc.devRef .tc main_v16) : S1x64.Idx → EReal)
      = rowMat (W (Proc.devRef .tc main_arg6)) := by
  after_results
  exact shapeCast_rowMat _ _

end Cert.KernelIdeal.HandVal
end
-- ==== Proof.Val.HostSlices.lean ====
import proofs.«400867_j53901839564968_2_alg».proof.Proof.Val.HostLayout
noncomputable section
namespace Cert.KernelIdeal.HandVal
open Cert.KernelIdeal Cert.KernelIdeal.Gen Cert.Spec
open Idealize.ShloMosaic Idealize.ShloMosaic.ValueIdx
open Idealize.ShloMosaic.StableHlo

variable (W : Valuation τ sig (Elt Ideal))

theorem host2_v29 : (StableHlo.after (hostOps2 (F := Ideal)) W (Proc.devRef .tc main_v29) : S64x64.Idx → EReal)
    = Spec.slab (W (Proc.devRef .tc main_arg7)) 0 := by
  after_results
  exact slab_of_slice _ 0 (by decide) _ _

theorem host2_v33 : (StableHlo.after (hostOps2 (F := Ideal)) W (Proc.devRef .tc main_v33) : S64x64.Idx → EReal)
    = Spec.slab (W (Proc.devRef .tc main_arg9)) 0 := by
  after_results
  exact slab_of_slice _ 0 (by decide) _ _

theorem host2_v36 : (StableHlo.after (hostOps2 (F := Ideal)) W (Proc.devRef .tc main_v36) : S1x64.Idx → EReal)
    = rowMat (Spec.srow (W (Proc.devRef .tc main_arg8)) 0) := by
  after_results
  exact row_of_slice _ 0 (by decide) _ _ _

theorem host2_v37 : (StableHlo.after (hostOps2 (F := Ideal)) W (Proc.devRef .tc main_v37) : S1x64.Idx → EReal)
    = rowMat (Spec.srow (W (Proc.devRef .tc main_arg10)) 0) := by
  after_results
  exact row_of_slice _ 0 (by decide) _ _ _

theorem host3_v50 : (StableHlo.after (hostOps3 (F := Ideal)) W (Proc.devRef .tc main_v50) : S64x64.Idx → EReal)
    = Spec.slab (W (Proc.devRef .tc main_arg7)) 1 := by
  after_results
  exact slab_of_slice _ 1 (by decide) _ _

theorem host3_v54 : (StableHlo.after (hostOps3 (F := Ideal)) W (Proc.devRef .tc main_v54) : S64x64.Idx → EReal)
    = Spec.slab (W (Proc.devRef .tc main_arg9)) 1 := by
  after_results
  exact slab_of_slice _ 1 (by decide) _ _

theorem host3_v57 : (StableHlo.after (hostOps3 (F := Ideal)) W (Proc.devRef .tc main_v57) : S1x64.Idx → EReal)
    = rowMat (Spec.srow (W (Proc.devRef .tc main_arg8)) 1) := by
  after_results
  exact row_of_slice _ 1 (by decide) _ _ _

theorem host3_v58 : (StableHlo.after (hostOps3 (F := Ideal)) W (Proc.devRef .tc main_v58) : S1x64.Idx → EReal)
    = rowMat (Spec.srow (W (Proc.devRef .tc main_arg10)) 1) := by
  after_results
  exact row_of_slice _ 1 (by decide) _ _ _

theorem host4_v71 : (StableHlo.after (hostOps4 (F := Ideal)) W (Proc.devRef .tc main_v71) : S64x64.Idx → EReal)
    = Spec.slab (W (Proc.devRef .tc main_arg7)) 2 := by
  after_results
  exact slab_of_slice _ 2 (by decide) _ _

theorem host4_v75 : (StableHlo.after (hostOps4 (F := Ideal)) W (Proc.devRef .tc main_v75) : S64x64.Idx → EReal)
    = Spec.slab (W (Proc.devRef .tc main_arg9)) 2 := by
  after_results
  exact slab_of_slice _ 2 (by decide) _ _

theorem host4_v78 : (StableHlo.after (hostOps4 (F := Ideal)) W (Proc.devRef .tc main_v78) : S1x64.Idx → EReal)
    = rowMat (Spec.srow (W (Proc.devRef .tc main_arg8)) 2) := by
  after_results
  exact row_of_slice _ 2 (by decide) _ _ _

theorem host4_v79 : (StableHlo.after (hostOps4 (F := Ideal)) W (Proc.devRef .tc main_v79) : S1x64.Idx → EReal)
    = rowMat (Spec.srow (W (Proc.devRef .tc main_arg10)) 2) := by
  after_results
  exact row_of_slice _ 2 (by decide) _ _ _

theorem host5_v92 : (StableHlo.after (hostOps5 (F := Ideal)) W (Proc.devRef .tc main_v92) : S64x64.Idx → EReal)
    = Spec.slab (W (Proc.devRef .tc main_arg7)) 3 := by
  after_results
  exact slab_of_slice _ 3 (by decide) _ _

theorem host5_v96 : (StableHlo.after (hostOps5 (F := Ideal)) W (Proc.devRef .tc main_v96) : S64x64.Idx → EReal)
    = Spec.slab (W (Proc.devRef .tc main_arg9)) 3 := by
  after_results
  exact slab_of_slice _ 3 (by decide) _ _

theorem host5_v99 : (StableHlo.after (hostOps5 (F := Ideal)) W (Proc.devRef .tc main_v99) : S1x64.Idx → EReal)
    = rowMat (Spec.srow (W (Proc.devRef .tc main_arg8)) 3) := by
  after_results
  exact row_of_slice _ 3 (by decide) _ _ _

theorem host5_v100 : (StableHlo.after (hostOps5 (F := Ideal)) W (Proc.devRef .tc main_v100) : S1x64.Idx → EReal)
    = rowMat (Spec.srow (W (Proc.devRef .tc main_arg10)) 3) := by
  after_results
  exact row_of_slice _ 3 (by decide) _ _ _

end Cert.KernelIdeal.HandVal
end
-- ==== Proof.Val.Host6.lean ====
import proofs.«400867_j53901839564968_2_alg».proof.Proof.Val.HostLayout
noncomputable section
namespace Cert.KernelIdeal.HandVal
open Cert.KernelIdeal Cert.KernelIdeal.Gen Cert.Spec
open Idealize.ShloMosaic Idealize.ShloMosaic.ValueIdx
open Idealize.ShloMosaic.StableHlo

variable (W : Valuation τ sig (Elt Ideal))

theorem host6_v102 : (StableHlo.after (hostOps6 (F := Ideal)) W (Proc.devRef .tc main_v102) : S50000x1.Idx → BitVec 32)
    = bIdx (W (Proc.devRef .tc main_arg2)) := by
  after_results
  exact shapeCast_col _ _

theorem host6_v103 : (StableHlo.after (hostOps6 (F := Ideal)) W (Proc.devRef .tc main_v103) : S1x64.Idx → EReal)
    = rowMat (W (Proc.devRef .tc main_arg12)) := by
  after_results
  exact shapeCast_rowMat _ _

theorem host6_v104 : (StableHlo.after (hostOps6 (F := Ideal)) W (Proc.devRef .tc main_v104) : S1x64.Idx → EReal)
    = rowMat (W (Proc.devRef .tc main_arg14)) := by
  after_results
  exact shapeCast_rowMat _ _

theorem host6_v105 : (StableHlo.after (hostOps6 (F := Ideal)) W (Proc.devRef .tc main_v105) : S1x64.Idx → EReal)
    = rowMat (W (Proc.devRef .tc main_arg15)) := by
  after_results
  exact shapeCast_rowMat _ _

theorem host6_v106 : (StableHlo.after (hostOps6 (F := Ideal)) W (Proc.devRef .tc main_v106) : S1x64.Idx → EReal)
    = rowMat (W (Proc.devRef .tc main_arg16)) := by
  after_results
  exact shapeCast_rowMat _ _

theorem host6_v107 : (StableHlo.after (hostOps6 (F := Ideal)) W (Proc.devRef .tc main_v107) : S1x10.Idx → EReal)
    = rowMat (W (Proc.devRef .tc main_arg18)) := by
  after_results
  exact shapeCast_rowMat _ _

end Cert.KernelIdeal.HandVal
end
-- ==== Proof.Val.MatmulAt.lean ====
import proofs.«400867_j53901839564968_2_alg».proof.Proof.Gen.KernelIdeal.Skeleton
import Idealize.ShloMosaic.Lib.StackMember
import Idealize.ShloMosaic.Lib.Pipeline.Value
import Idealize.ShloMosaic.Lib.ValueLayout
import proofs.«400867_j53901839564968_2_alg».proof.Proof.Spec
noncomputable section
namespace Cert.KernelIdeal.HandVal
open Cert.KernelIdeal.Gen Idealize.ShloMosaic Idealize.ShloMosaic.ValueIdx

theorem zero_offsets : (![0, 0] : Fin 2 → Nat) = fun _ => 0 := funext fun a => by fin_cases a <;> rfl

theorem ix2_ext {n c : Nat} {i : (⟨2, ![n, c]⟩ : Shape).Idx} {a : Fin n} {b : Fin c} (h0 : (i 0).val = a.val)
    (h1 : (i 1).val = b.val) : i = ix2 a b :=
  funext fun x => Fin.ext (match x with | ⟨0, _⟩ => h0 | ⟨1, _⟩ => h1)

theorem mem_rowBlock (i : S50000x64.Idx) {off : Fin 2 → Nat} {inb} (h0 : off 0 = (i 0).val / 5000 * 5000) (h1 : off 1 = 0) :
    i ∈ (Rect.unit (s := S50000x64) off S5000x64.size inb).set :=
  Rect.mem_set_unit.mpr fun a => match a with
    | ⟨0, _⟩ => by show off 0 ≤ (i 0).val ∧ (i 0).val < off 0 + 5000; omega
    | ⟨1, _⟩ => by show off 1 ≤ (i 1).val ∧ (i 1).val < off 1 + 64; have : (i 1).val < 64 := (i 1).isLt; omega

theorem row_exists {N : Nat} (t : Fin N) (hN : N = 10) (p : Fin 5000) : ∃ r : Fin 50000, r.val = 5000 * t.val + p.val :=
  ⟨⟨_, by have := t.isLt; have := p.isLt; omega⟩, rfl⟩

theorem point_exists {N : Nat} (hN : N = 10) (i : S50000x64.Idx) : ∃ t : Fin N, t.val = (i 0).val / 5000 :=
  ⟨⟨_, by have : (i 0).val < 50000 := (i 0).isLt; omega⟩, rfl⟩

-- a product accumulated from zero has the value of the plain product of the same two factors
theorem matmul_plain_apply {m k n : Nat} {φ₁ φ₂ : FTy} (a : FVec Ideal ⟨2, ![m, k]⟩ φ₁) (b : FVec Ideal ⟨2, ![k, n]⟩ φ₂)
    (p : Fin m) (q : Fin n) :
    FloatOps.matmul (DotDims.plain m k n) none a b (constant (F := Ideal) ⟨2, ![m, n]⟩ .f32 0x00000000#32) (ix2 p q)
      = ∑ c : Fin k, a (ix2 p c) * b (ix2 c q) :=
  (Ideal.matmul_constant_zero_apply _ none a b _).trans
    ((Ideal.dotGeneral_apply _ none _ a b _).symm.trans (StackMember.dotGeneral_plain_apply none a b p q))

theorem matmul_layer_apply {φ₁ φ₂ : FTy} (a : FVec Ideal S5000x64 φ₁) (b : FVec Ideal S64x64 φ₂) (p : Fin 5000) (q : Fin 64) :
    FloatOps.matmul dot_S5000x64_S64x64_S5000x64_1_0_0_1_n_n none a b (constant (F := Ideal) S5000x64 .f32 0x00000000#32) (ix2 p q)
      = ∑ k : Fin 64, a (ix2 p k) * b (ix2 k q) :=
  matmul_plain_apply a b p q

end Cert.KernelIdeal.HandVal
end
-- ==== Proof.Val.Pay0.lean ====
import proofs.«400867_j53901839564968_2_alg».proof.Proof.Val.MatmulAt
noncomputable section
namespace Cert.KernelIdeal.HandVal
open Cert.KernelIdeal.Gen Idealize.ShloMosaic Idealize.ShloMosaic.ValueIdx

theorem pay0_apply (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) :=
  matmul_plain_apply (truncf .bf16 x0 bitsLt_bf16_f32) (truncf .bf16 x1 bitsLt_bf16_f32) p q

end Cert.KernelIdeal.HandVal
end
-- ==== Proof.Val.Fin0.lean ====
import proofs.«400867_j53901839564968_2_alg».proof.Proof.KI.Reg0
import proofs.«400867_j53901839564968_2_alg».proof.Proof.Val.Pay0
noncomputable section
namespace Cert.KernelIdeal.HandVal
open Cert.KernelIdeal Cert.KernelIdeal.Gen Cert.KernelIdeal.Hand Cert.Spec
open Idealize.ShloMosaic Idealize.ShloMosaic.TcCoe Idealize.ShloMosaic.ValueIdx

variable (V : (c : Dev nD) → (b : Ref sig .tc) → Buf (Elt Ideal) ((c : Thread nD τ).loc b))

abbrev feat0 (c : Dev nD) : Mat 50000 128 := V c (Pipeline.arrRef spec0 0)
abbrev wgt0 (c : Dev nD) : Mat 128 64 := V c (Pipeline.arrRef spec0 1)

theorem block_indices0 : ∀ t : Fin cfg0.N, win0_0.index t 0 = t.val ∧ win0_2.index t 0 = t.val :=
  (by decide +kernel : ∀ t : Fin grid0.N, _)

-- the node block at point t is rows 5000 t … 5000 t + 4999 of the feature array; the weight block is the whole array
theorem flushed0_eq (c : Dev nD) (t : Fin cfg0.N) :
    (dat0 (F := Ideal) V c).flushed 2 t = ((cfg0.win 2).blk t).view.read (Elt Ideal) (Spec.mm (feat0 V c) (wgt0 V c)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x64) zero_offsets]
  obtain ⟨e0, e2⟩ := block_indices0 t
  have h1 : (iblk0 V c 1 t : Vec Ideal S128x64 .f32) = wgt0 V c := View.ld_unit_zero (funext fun a => by fin_cases a <;> rfl) _ _
  funext j
  obtain ⟨p, q, rfl⟩ : ∃ (p : Fin 5000) (q : Fin 64), j = ix2 p q := ⟨j 0, j 1, eq_ix2 j⟩
  obtain ⟨r, hr⟩ := row_exists t N_0 p
  have h0 : ∀ k, (iblk0 V c 0 t : Vec Ideal S5000x128 .f32) (ix2 p k) = feat0 V c (ix2 r k) := fun k => by
    show V c _ _ = _
    exact congrArg _ (ix2_ext (by show win0_0.index t 0 * 5000 + 1 * p.val = _; omega) (by show 0 * 128 + 1 * k.val = _; omega))
  have h2 : ((cfg0.win 2).blk t).view.emb (ix2 p q) = (ix2 r q : S50000x64.Idx) :=
    ix2_ext (by show win0_2.index t 0 * 5000 + 1 * p.val = _; omega) (by show 0 * 64 + 1 * q.val = _; omega)
  show k0_pay1 (F := Ideal) _ _ (ix2 p q) = Spec.mm (feat0 V c) (wgt0 V c) (((cfg0.win 2).blk t).view.emb (ix2 p q))
  rw [pay0_apply, h2, h1]
  simp only [h0]
  rfl

theorem final0 (c : Dev nD) : (dat0 (F := Ideal) V c).arrAt 2 cfg0.N = Spec.mm (feat0 V c) (wgt0 V c) :=
  (dat0 (F := Ideal) V c).arrAt_eq_of_cover 2 (Spec.mm (feat0 V c) (wgt0 V c)) (fun t _ => flushed0_eq V c t) fun i => by
    obtain ⟨t, ht⟩ := point_exists N_0 i
    refine ⟨t, flush0_2 t, ?_⟩
    show i ∈ ((View.whole (Pipeline.arrRef spec0 2)).slice (win0_2.rect t)).set
    rw [View.set_slice_whole]
    exact mem_rowBlock i (by show win0_2.index t 0 * 5000 = _; rw [(block_indices0 t).right, ht]) rfl

end Cert.KernelIdeal.HandVal
end
-- ==== Proof.Val.Pay1.lean ====
import proofs.«400867_j53901839564968_2_alg».proof.Proof.Val.MatmulAt
noncomputable section
namespace Cert.KernelIdeal.HandVal
open Cert.KernelIdeal.Gen Idealize.ShloMosaic Idealize.ShloMosaic.ValueIdx

theorem pay1_apply (x0 x1 : Vec Ideal S5000x64 .f32) (x2 : Vec Ideal S1x64 .f32) (x3 : Vec Ideal S64x64 .f32)
    (x4 : Vec Ideal S1x64 .f32) (p : Fin 5000) (q : Fin 64) :
    k1_pay1 (F := Ideal) x0 x1 x2 x3 x4 (ix2 p q)
      = max ((∑ k : Fin 64, max (x0 (ix2 p k) + x1 (ix2 p k) + x2 (ix2 (0 : Fin 1) k)) 0 * x3 (ix2 k q)) + x4 (ix2 (0 : Fin 1) q)) 0 := by
  unfold k1_pay1
  simp only [shapeCast_self, maximumf_apply, addf_apply, broadcast_apply, truncf_apply, broadcastTo_1b_ab_apply, matmul_layer_apply,
    show FloatOps.ofBits (F := Ideal) FTy.f32 0x00000000#32 = (0 : EReal) from Ideal.ofBits_zero_f32]

end Cert.KernelIdeal.HandVal
end
-- ==== Proof.Val.Fin1.lean ====
import proofs.«400867_j53901839564968_2_alg».proof.Proof.KI.Reg1
import proofs.«400867_j53901839564968_2_alg».proof.Proof.Val.Pay1
noncomputable section
namespace Cert.KernelIdeal.HandVal
open Cert.KernelIdeal Cert.KernelIdeal.Gen Cert.KernelIdeal.Hand Cert.Spec
open Idealize.ShloMosaic Idealize.ShloMosaic.TcCoe Idealize.ShloMosaic.ValueIdx

variable (V : (c : Dev nD) → (b : Ref sig .tc) → Buf (Elt Ideal) ((c : Thread nD τ).loc b))

abbrev G1 (a0 a1 : Mat 50000 64) (a2 : Mat 1 64) (a3 : Mat 64 64) (a4 : Mat 1 64) : Mat 50000 64 :=
  Spec.relu (Spec.addRow1 (Spec.mm (Spec.relu (Spec.addRow1 (Spec.add a0 a1) a2)) a3) a4)

abbrev layer1 (c : Dev nD) : Mat 50000 64 :=
  G1 (V c (Pipeline.arrRef spec1 0)) (V c (Pipeline.arrRef spec1 1)) (V c (Pipeline.arrRef spec1 2)) (V c (Pipeline.arrRef spec1 3)) (V c (Pipeline.arrRef spec1 4))

theorem block_indices1 : ∀ t : Fin cfg1.N, win1_0.index t 0 = t.val ∧ win1_1.index t 0 = t.val ∧ win1_5.index t 0 = t.val :=
  (by decide +kernel : ∀ t : Fin grid1.N, _)

-- each node block at point t is rows 5000 t … 5000 t + 4999 of its array; each parameter block is the whole array
theorem flushed1_eq (c : Dev nD) (t : Fin cfg1.N) :
    (dat1 (F := Ideal) V c).flushed 5 t = ((cfg1.win 5).blk t).view.read (Elt Ideal) (layer1 V c) := by
  show (cfg1.win 5).cut (grid1.coords t) ((dat1 V c).after 5 t) = _
  rw [after1_5]
  unfold out1_5
  rw [View.canon_unit_zero zero_offsets]
  simp only [View.ld_unit_zero (S := S5000x64) zero_offsets, View.ld_unit_zero (S := S1x64) zero_offsets, View.ld_unit_zero (S := S64x64) zero_offsets]
  obtain ⟨e0, e1, e5⟩ := block_indices1 t
  have h2 : (iblk1 V c 2 t : Vec Ideal S1x64 .f32) = V c (Pipeline.arrRef spec1 2) := View.ld_unit_zero (funext fun a => by fin_cases a <;> rfl) _ _
  have h3 : (iblk1 V c 3 t : Vec Ideal S64x64 .f32) = V c (Pipeline.arrRef spec1 3) := View.ld_unit_zero (funext fun a => by fin_cases a <;> rfl) _ _
  have h4 : (iblk1 V c 4 t : Vec Ideal S1x64 .f32) = V c (Pipeline.arrRef spec1 4) := View.ld_unit_zero (funext fun a => by fin_cases a <;> rfl) _ _
  funext j
  obtain ⟨p, q, rfl⟩ : ∃ (p : Fin 5000) (q : Fin 64), j = ix2 p q := ⟨j 0, j 1, eq_ix2 j⟩
  obtain ⟨r, hr⟩ := row_exists t N_1 p
  have h0 : ∀ k, (iblk1 V c 0 t : Vec Ideal S5000x64 .f32) (ix2 p k) = V c (Pipeline.arrRef spec1 0) (ix2 r k) := fun k => by
    show V c _ _ = _
    exact congrArg _ (ix2_ext (by show win1_0.index t 0 * 5000 + 1 * p.val = _; omega) (by show 0 * 64 + 1 * k.val = _; omega))
  have h1 : ∀ k, (iblk1 V c 1 t : Vec Ideal S5000x64 .f32) (ix2 p k) = V c (Pipeline.arrRef spec1 1) (ix2 r k) := fun k => by
    show V c _ _ = _
    exact congrArg _ (ix2_ext (by show win1_1.index t 0 * 5000 + 1 * p.val = _; omega) (by show 0 * 64 + 1 * k.val = _; omega))
  have h5 : ((cfg1.win 5).blk t).view.emb (ix2 p q) = (ix2 r q : S50000x64.Idx) :=
    ix2_ext (by show win1_5.index t 0 * 5000 + 1 * p.val = _; omega) (by show 0 * 64 + 1 * q.val = _; omega)
  show k1_pay1 (F := Ideal) _ _ _ _ _ (ix2 p q) = layer1 V c (((cfg1.win 5).blk t).view.emb (ix2 p q))
  rw [pay1_apply, h5, h2, h3, h4]
  simp only [h0, h1]
  rfl

theorem final1 (c : Dev nD) : (dat1 (F := Ideal) V c).arrAt 5 cfg1.N
    = G1 (V c (Pipeline.arrRef spec1 0)) (V c (Pipeline.arrRef spec1 1)) (V c (Pipeline.arrRef spec1 2)) (V c (Pipeline.arrRef spec1 3)) (V c (Pipeline.arrRef spec1 4)) :=
  (dat1 (F := Ideal) V c).arrAt_eq_of_cover 5 (layer1 V c) (fun t _ => flushed1_eq V c t) fun i => by
    obtain ⟨t, ht⟩ := point_exists N_1 i
    refine ⟨t, flush1_5 t, ?_⟩
    show i ∈ ((View.whole (Pipeline.arrRef spec1 5)).slice (win1_5.rect t)).set
    rw [View.set_slice_whole]
    exact mem_rowBlock i (by show win1_5.index t 0 * 5000 = _; rw [(block_indices1 t).right.right, ht]) rfl

end Cert.KernelIdeal.HandVal
end
-- ==== Proof.Val.Pay2.lean ====
import proofs.«400867_j53901839564968_2_alg».proof.Proof.Val.MatmulAt
noncomputable section
namespace Cert.KernelIdeal.HandVal
open Cert.KernelIdeal.Gen Idealize.ShloMosaic Idealize.ShloMosaic.ValueIdx

theorem pay2_apply (x0 x1 : Vec Ideal S5000x64 .f32) (w1 : Vec Ideal S64x64 .f32) (b1 : Vec Ideal S1x64 .f32)
    (w2 : Vec Ideal S64x64 .f32) (b2 : Vec Ideal S1x64 .f32) (p : Fin 5000) (q : Fin 64) :
    k2_pay1 (F := Ideal) x0 x1 w1 b1 w2 b2 (ix2 p q)
      = max ((∑ k : Fin 64, max ((∑ j : Fin 64, (x0 (ix2 p j) + x1 (ix2 p j)) * w1 (ix2 j k)) + b1 (ix2 (0 : Fin 1) k)) 0
          * w2 (ix2 k q)) + b2 (ix2 (0 : Fin 1) q)) 0 := by
  unfold k2_pay1
  simp only [shapeCast_self, maximumf_apply, addf_apply, broadcast_apply, truncf_apply, broadcastTo_1b_ab_apply, matmul_layer_apply,
    show FloatOps.ofBits (F := Ideal) FTy.f32 0x00000000#32 = (0 : EReal) from Ideal.ofBits_zero_f32]

end Cert.KernelIdeal.HandVal
end
-- ==== Proof.Val.Fin2.lean ====
import proofs.«400867_j53901839564968_2_alg».proof.Proof.KI.Reg2
import proofs.«400867_j53901839564968_2_alg».proof.Proof.Val.Pay2
noncomputable section
namespace Cert.KernelIdeal.HandVal
open Cert.KernelIdeal Cert.KernelIdeal.Gen Cert.KernelIdeal.Hand Cert.Spec
open Idealize.ShloMosaic Idealize.ShloMosaic.TcCoe Idealize.ShloMosaic.ValueIdx

variable (V : (c : Dev nD) → (b : Ref sig .tc) → Buf (Elt Ideal) ((c : Thread nD τ).loc b))

abbrev aggr2 (c : Dev nD) : Mat 50000 64 := V c (Pipeline.arrRef spec2 0)
abbrev self2 (c : Dev nD) : Mat 50000 64 := V c (Pipeline.arrRef spec2 1)
abbrev wgtA2 (c : Dev nD) : Mat 64 64 := V c (Pipeline.arrRef spec2 2)
abbrev biasA2 (c : Dev nD) : Mat 1 64 := V c (Pipeline.arrRef spec2 3)
abbrev wgtB2 (c : Dev nD) : Mat 64 64 := V c (Pipeline.arrRef spec2 4)
abbrev biasB2 (c : Dev nD) : Mat 1 64 := V c (Pipeline.arrRef spec2 5)

abbrev layer2 (c : Dev nD) : Mat 50000 64 :=
  Spec.relu (Spec.addRow1 (Spec.mm (Spec.relu (Spec.addRow1 (Spec.mm (Spec.add (aggr2 V c) (self2 V c)) (wgtA2 V c)) (biasA2 V c))) (wgtB2 V c)) (biasB2 V c))

theorem block_indices2 : ∀ t : Fin cfg2.N, win2_0.index t 0 = t.val ∧ win2_1.index t 0 = t.val ∧ win2_6.index t 0 = t.val :=
  (by decide +kernel : ∀ t : Fin grid2.N, _)

-- each node block at point t is rows 5000 t … 5000 t + 4999 of its array; each parameter block is the whole array
theorem flushed2_eq (c : Dev nD) (t : Fin cfg2.N) :
    (dat2 (F := Ideal) V c).flushed 6 t = ((cfg2.win 6).blk t).view.read (Elt Ideal) (layer2 V c) := by
  show (cfg2.win 6).cut (grid2.coords t) ((dat2 V c).after 6 t) = _
  rw [after2_6]
  unfold out2_6
  rw [View.canon_unit_zero zero_offsets]
  simp only [View.ld_unit_zero (S := S5000x64) zero_offsets, View.ld_unit_zero (S := S64x64) zero_offsets, View.ld_unit_zero (S := S1x64) zero_offsets]
  obtain ⟨ea, eb, eo⟩ := block_indices2 t
  have hc : (iblk2 V c 2 t : Vec Ideal S64x64 .f32) = wgtA2 V c := View.ld_unit_zero (funext fun a => by fin_cases a <;> rfl) _ _
  have hd : (iblk2 V c 3 t : Vec Ideal S1x64 .f32) = biasA2 V c := View.ld_unit_zero (funext fun a => by fin_cases a <;> rfl) _ _
  have he : (iblk2 V c 4 t : Vec Ideal S64x64 .f32) = wgtB2 V c := View.ld_unit_zero (funext fun a => by fin_cases a <;> rfl) _ _
  have hf : (iblk2 V c 5 t : Vec Ideal S1x64 .f32) = biasB2 V c := View.ld_unit_zero (funext fun a => by fin_cases a <;> rfl) _ _
  funext j
  obtain ⟨p, q, rfl⟩ : ∃ (p : Fin 5000) (q : Fin 64), j = ix2 p q := ⟨j 0, j 1, eq_ix2 j⟩
  obtain ⟨r, hr⟩ := row_exists t N_2 p
  have ha : ∀ k, (iblk2 V c 0 t : Vec Ideal S5000x64 .f32) (ix2 p k) = aggr2 V c (ix2 r k) := fun k => by
    show V c _ _ = _
    exact congrArg _ (ix2_ext (by show win2_0.index t 0 * 5000 + 1 * p.val = _; omega) (by show 0 * 64 + 1 * k.val = _; omega))
  have hb : ∀ k, (iblk2 V c 1 t : Vec Ideal S5000x64 .f32) (ix2 p k) = self2 V c (ix2 r k) := fun k => by
    show V c _ _ = _
    exact congrArg _ (ix2_ext (by show win2_1.index t 0 * 5000 + 1 * p.val = _; omega) (by show 0 * 64 + 1 * k.val = _; omega))
  have ho : ((cfg2.win 6).blk t).view.emb (ix2 p q) = (ix2 r q : S50000x64.Idx) :=
    ix2_ext (by show win2_6.index t 0 * 5000 + 1 * p.val = _; omega) (by show 0 * 64 + 1 * q.val = _; omega)
  show k2_pay1 (F := Ideal) _ _ _ _ _ _ (ix2 p q) = layer2 V c (((cfg2.win 6).blk t).view.emb (ix2 p q))
  rw [pay2_apply, ho, hc, hd, he, hf]
  simp only [ha, hb]
  rfl

theorem final2 (c : Dev nD) : (dat2 (F := Ideal) V c).arrAt 6 cfg2.N = layer2 V c :=
  (dat2 (F := Ideal) V c).arrAt_eq_of_cover 6 (layer2 V c) (fun t _ => flushed2_eq V c t) fun i => by
    obtain ⟨t, ht⟩ := point_exists N_2 i
    refine ⟨t, flush2_6 t, ?_⟩
    show i ∈ ((View.whole (Pipeline.arrRef spec2 6)).slice (win2_6.rect t)).set
    rw [View.set_slice_whole]
    exact mem_rowBlock i (by show win2_6.index t 0 * 5000 = _; rw [(block_indices2 t).right.right, ht]) rfl

end Cert.KernelIdeal.HandVal
end
-- ==== Proof.Val.Fin3.lean ====
import proofs.«400867_j53901839564968_2_alg».proof.Proof.KI.Reg3
import proofs.«400867_j53901839564968_2_alg».proof.Proof.Val.Pay2
noncomputable section
namespace Cert.KernelIdeal.HandVal
open Cert.KernelIdeal Cert.KernelIdeal.Gen Cert.KernelIdeal.Hand Cert.Spec
open Idealize.ShloMosaic Idealize.ShloMosaic.TcCoe Idealize.ShloMosaic.ValueIdx

variable (V : (c : Dev nD) → (b : Ref sig .tc) → Buf (Elt Ideal) ((c : Thread nD τ).loc b))

abbrev aggr3 (c : Dev nD) : Mat 50000 64 := V c (Pipeline.arrRef spec3 0)
abbrev self3 (c : Dev nD) : Mat 50000 64 := V c (Pipeline.arrRef spec3 1)
abbrev wgtA3 (c : Dev nD) : Mat 64 64 := V c (Pipeline.arrRef spec3 2)
abbrev biasA3 (c : Dev nD) : Mat 1 64 := V c (Pipeline.arrRef spec3 3)
abbrev wgtB3 (c : Dev nD) : Mat 64 64 := V c (Pipeline.arrRef spec3 4)
abbrev biasB3 (c : Dev nD) : Mat 1 64 := V c (Pipeline.arrRef spec3 5)

abbrev layer3 (c : Dev nD) : Mat 50000 64 :=
  Spec.relu (Spec.addRow1 (Spec.mm (Spec.relu (Spec.addRow1 (Spec.mm (Spec.add (aggr3 V c) (self3 V c)) (wgtA3 V c)) (biasA3 V c))) (wgtB3 V c)) (biasB3 V c))

theorem block_indices3 : ∀ t : Fin cfg3.N, win3_0.index t 0 = t.val ∧ win3_1.index t 0 = t.val ∧ win3_6.index t 0 = t.val :=
  (by decide +kernel : ∀ t : Fin grid3.N, _)

-- each node block at point t is rows 5000 t … 5000 t + 4999 of its array; each parameter block is the whole array
theorem flushed3_eq (c : Dev nD) (t : Fin cfg3.N) :
    (dat3 (F := Ideal) V c).flushed 6 t = ((cfg3.win 6).blk t).view.read (Elt Ideal) (layer3 V c) := by
  show (cfg3.win 6).cut (grid3.coords t) ((dat3 V c).after 6 t) = _
  rw [after3_6]
  unfold out3_6
  rw [View.canon_unit_zero zero_offsets]
  simp only [View.ld_unit_zero (S := S5000x64) zero_offsets, View.ld_unit_zero (S := S64x64) zero_offsets, View.ld_unit_zero (S := S1x64) zero_offsets]
  obtain ⟨ea, eb, eo⟩ := block_indices3 t
  have hc : (iblk3 V c 2 t : Vec Ideal S64x64 .f32) = wgtA3 V c := View.ld_unit_zero (funext fun a => by fin_cases a <;> rfl) _ _
  have hd : (iblk3 V c 3 t : Vec Ideal S1x64 .f32) = biasA3 V c := View.ld_unit_zero (funext fun a => by fin_cases a <;> rfl) _ _
  have he : (iblk3 V c 4 t : Vec Ideal S64x64 .f32) = wgtB3 V c := View.ld_unit_zero (funext fun a => by fin_cases a <;> rfl) _ _
  have hf : (iblk3 V c 5 t : Vec Ideal S1x64 .f32) = biasB3 V c := View.ld_unit_zero (funext fun a => by fin_cases a <;> rfl) _ _
  funext j
  obtain ⟨p, q, rfl⟩ : ∃ (p : Fin 5000) (q : Fin 64), j = ix2 p q := ⟨j 0, j 1, eq_ix2 j⟩
  obtain ⟨r, hr⟩ := row_exists t N_3 p
  have ha : ∀ k, (iblk3 V c 0 t : Vec Ideal S5000x64 .f32) (ix2 p k) = aggr3 V c (ix2 r k) := fun k => by
    show V c _ _ = _
    exact congrArg _ (ix2_ext (by show win3_0.index t 0 * 5000 + 1 * p.val = _; omega) (by show 0 * 64 + 1 * k.val = _; omega))
  have hb : ∀ k, (iblk3 V c 1 t : Vec Ideal S5000x64 .f32) (ix2 p k) = self3 V c (ix2 r k) := fun k => by
    show V c _ _ = _
    exact congrArg _ (ix2_ext (by show win3_1.index t 0 * 5000 + 1 * p.val = _; omega) (by show 0 * 64 + 1 * k.val = _; omega))
  have ho : ((cfg3.win 6).blk t).view.emb (ix2 p q) = (ix2 r q : S50000x64.Idx) :=
    ix2_ext (by show win3_6.index t 0 * 5000 + 1 * p.val = _; omega) (by show 0 * 64 + 1 * q.val = _; omega)
  show k2_pay1 (F := Ideal) _ _ _ _ _ _ (ix2 p q) = layer3 V c (((cfg3.win 6).blk t).view.emb (ix2 p q))
  rw [pay2_apply, ho, hc, hd, he, hf]
  simp only [ha, hb]
  rfl

theorem final3 (c : Dev nD) : (dat3 (F := Ideal) V c).arrAt 6 cfg3.N = layer3 V c :=
  (dat3 (F := Ideal) V c).arrAt_eq_of_cover 6 (layer3 V c) (fun t _ => flushed3_eq V c t) fun i => by
    obtain ⟨t, ht⟩ := point_exists N_3 i
    refine ⟨t, flush3_6 t, ?_⟩
    show i ∈ ((View.whole (Pipeline.arrRef spec3 6)).slice (win3_6.rect t)).set
    rw [View.set_slice_whole]
    exact mem_rowBlock i (by show win3_6.index t 0 * 5000 = _; rw [(block_indices3 t).right.right, ht]) rfl

end Cert.KernelIdeal.HandVal
end
-- ==== Proof.Val.Fin4.lean ====
import proofs.«400867_j53901839564968_2_alg».proof.Proof.KI.Reg4
import proofs.«400867_j53901839564968_2_alg».proof.Proof.Val.Pay2
noncomputable section
namespace Cert.KernelIdeal.HandVal
open Cert.KernelIdeal Cert.KernelIdeal.Gen Cert.KernelIdeal.Hand Cert.Spec
open Idealize.ShloMosaic Idealize.ShloMosaic.TcCoe Idealize.ShloMosaic.ValueIdx

variable (V : (c : Dev nD) → (b : Ref sig .tc) → Buf (Elt Ideal) ((c : Thread nD τ).loc b))

abbrev aggr4 (c : Dev nD) : Mat 50000 64 := V c (Pipeline.arrRef spec4 0)
abbrev self4 (c : Dev nD) : Mat 50000 64 := V c (Pipeline.arrRef spec4 1)
abbrev wgtA4 (c : Dev nD) : Mat 64 64 := V c (Pipeline.arrRef spec4 2)
abbrev biasA4 (c : Dev nD) : Mat 1 64 := V c (Pipeline.arrRef spec4 3)
abbrev wgtB4 (c : Dev nD) : Mat 64 64 := V c (Pipeline.arrRef spec4 4)
abbrev biasB4 (c : Dev nD) : Mat 1 64 := V c (Pipeline.arrRef spec4 5)

abbrev layer4 (c : Dev nD) : Mat 50000 64 :=
  Spec.relu (Spec.addRow1 (Spec.mm (Spec.relu (Spec.addRow1 (Spec.mm (Spec.add (aggr4 V c) (self4 V c)) (wgtA4 V c)) (biasA4 V c))) (wgtB4 V c)) (biasB4 V c))

theorem block_indices4 : ∀ t : Fin cfg4.N, win4_0.index t 0 = t.val ∧ win4_1.index t 0 = t.val ∧ win4_6.index t 0 = t.val :=
  (by decide +kernel : ∀ t : Fin grid4.N, _)

-- each node block at point t is rows 5000 t … 5000 t + 4999 of its array; each parameter block is the whole array
theorem flushed4_eq (c : Dev nD) (t : Fin cfg4.N) :
    (dat4 (F := Ideal) V c).flushed 6 t = ((cfg4.win 6).blk t).view.read (Elt Ideal) (layer4 V c) := by
  show (cfg4.win 6).cut (grid4.coords t) ((dat4 V c).after 6 t) = _
  rw [after4_6]
  unfold out4_6
  rw [View.canon_unit_zero zero_offsets]
  simp only [View.ld_unit_zero (S := S5000x64) zero_offsets, View.ld_unit_zero (S := S64x64) zero_offsets, View.ld_unit_zero (S := S1x64) zero_offsets]
  obtain ⟨ea, eb, eo⟩ := block_indices4 t
  have hc : (iblk4 V c 2 t : Vec Ideal S64x64 .f32) = wgtA4 V c := View.ld_unit_zero (funext fun a => by fin_cases a <;> rfl) _ _
  have hd : (iblk4 V c 3 t : Vec Ideal S1x64 .f32) = biasA4 V c := View.ld_unit_zero (funext fun a => by fin_cases a <;> rfl) _ _
  have he : (iblk4 V c 4 t : Vec Ideal S64x64 .f32) = wgtB4 V c := View.ld_unit_zero (funext fun a => by fin_cases a <;> rfl) _ _
  have hf : (iblk4 V c 5 t : Vec Ideal S1x64 .f32) = biasB4 V c := View.ld_unit_zero (funext fun a => by fin_cases a <;> rfl) _ _
  funext j
  obtain ⟨p, q, rfl⟩ : ∃ (p : Fin 5000) (q : Fin 64), j = ix2 p q := ⟨j 0, j 1, eq_ix2 j⟩
  obtain ⟨r, hr⟩ := row_exists t N_4 p
  have ha : ∀ k, (iblk4 V c 0 t : Vec Ideal S5000x64 .f32) (ix2 p k) = aggr4 V c (ix2 r k) := fun k => by
    show V c _ _ = _
    exact congrArg _ (ix2_ext (by show win4_0.index t 0 * 5000 + 1 * p.val = _; omega) (by show 0 * 64 + 1 * k.val = _; omega))
  have hb : ∀ k, (iblk4 V c 1 t : Vec Ideal S5000x64 .f32) (ix2 p k) = self4 V c (ix2 r k) := fun k => by
    show V c _ _ = _
    exact congrArg _ (ix2_ext (by show win4_1.index t 0 * 5000 + 1 * p.val = _; omega) (by show 0 * 64 + 1 * k.val = _; omega))
  have ho : ((cfg4.win 6).blk t).view.emb (ix2 p q) = (ix2 r q : S50000x64.Idx) :=
    ix2_ext (by show win4_6.index t 0 * 5000 + 1 * p.val = _; omega) (by show 0 * 64 + 1 * q.val = _; omega)
  show k2_pay1 (F := Ideal) _ _ _ _ _ _ (ix2 p q) = layer4 V c (((cfg4.win 6).blk t).view.emb (ix2 p q))
  rw [pay2_apply, ho, hc, hd, he, hf]
  simp only [ha, hb]
  rfl

theorem final4 (c : Dev nD) : (dat4 (F := Ideal) V c).arrAt 6 cfg4.N = layer4 V c :=
  (dat4 (F := Ideal) V c).arrAt_eq_of_cover 6 (layer4 V c) (fun t _ => flushed4_eq V c t) fun i => by
    obtain ⟨t, ht⟩ := point_exists N_4 i
    refine ⟨t, flush4_6 t, ?_⟩
    show i ∈ ((View.whole (Pipeline.arrRef spec4 6)).slice (win4_6.rect t)).set
    rw [View.set_slice_whole]
    exact mem_rowBlock i (by show win4_6.index t 0 * 5000 = _; rw [(block_indices4 t).right.right, ht]) rfl

end Cert.KernelIdeal.HandVal
end
-- ==== Proof.Val.Fin5.lean ====
import proofs.«400867_j53901839564968_2_alg».proof.Proof.KI.Reg5
import proofs.«400867_j53901839564968_2_alg».proof.Proof.Val.Pay2
noncomputable section
namespace Cert.KernelIdeal.HandVal
open Cert.KernelIdeal Cert.KernelIdeal.Gen Cert.KernelIdeal.Hand Cert.Spec
open Idealize.ShloMosaic Idealize.ShloMosaic.TcCoe Idealize.ShloMosaic.ValueIdx

variable (V : (c : Dev nD) → (b : Ref sig .tc) → Buf (Elt Ideal) ((c : Thread nD τ).loc b))

abbrev aggr5 (c : Dev nD) : Mat 50000 64 := V c (Pipeline.arrRef spec5 0)
abbrev self5 (c : Dev nD) : Mat 50000 64 := V c (Pipeline.arrRef spec5 1)
abbrev wgtA5 (c : Dev nD) : Mat 64 64 := V c (Pipeline.arrRef spec5 2)
abbrev biasA5 (c : Dev nD) : Mat 1 64 := V c (Pipeline.arrRef spec5 3)
abbrev wgtB5 (c : Dev nD) : Mat 64 64 := V c (Pipeline.arrRef spec5 4)
abbrev biasB5 (c : Dev nD) : Mat 1 64 := V c (Pipeline.arrRef spec5 5)

abbrev layer5 (c : Dev nD) : Mat 50000 64 :=
  Spec.relu (Spec.addRow1 (Spec.mm (Spec.relu (Spec.addRow1 (Spec.mm (Spec.add (aggr5 V c) (self5 V c)) (wgtA5 V c)) (biasA5 V c))) (wgtB5 V c)) (biasB5 V c))

theorem block_indices5 : ∀ t : Fin cfg5.N, win5_0.index t 0 = t.val ∧ win5_1.index t 0 = t.val ∧ win5_6.index t 0 = t.val :=
  (by decide +kernel : ∀ t : Fin grid5.N, _)

-- each node block at point t is rows 5000 t … 5000 t + 4999 of its array; each parameter block is the whole array
theorem flushed5_eq (c : Dev nD) (t : Fin cfg5.N) :
    (dat5 (F := Ideal) V c).flushed 6 t = ((cfg5.win 6).blk t).view.read (Elt Ideal) (layer5 V c) := by
  show (cfg5.win 6).cut (grid5.coords t) ((dat5 V c).after 6 t) = _
  rw [after5_6]
  unfold out5_6
  rw [View.canon_unit_zero zero_offsets]
  simp only [View.ld_unit_zero (S := S5000x64) zero_offsets, View.ld_unit_zero (S := S64x64) zero_offsets, View.ld_unit_zero (S := S1x64) zero_offsets]
  obtain ⟨ea, eb, eo⟩ := block_indices5 t
  have hc : (iblk5 V c 2 t : Vec Ideal S64x64 .f32) = wgtA5 V c := View.ld_unit_zero (funext fun a => by fin_cases a <;> rfl) _ _
  have hd : (iblk5 V c 3 t : Vec Ideal S1x64 .f32) = biasA5 V c := View.ld_unit_zero (funext fun a => by fin_cases a <;> rfl) _ _
  have he : (iblk5 V c 4 t : Vec Ideal S64x64 .f32) = wgtB5 V c := View.ld_unit_zero (funext fun a => by fin_cases a <;> rfl) _ _
  have hf : (iblk5 V c 5 t : Vec Ideal S1x64 .f32) = biasB5 V c := View.ld_unit_zero (funext fun a => by fin_cases a <;> rfl) _ _
  funext j
  obtain ⟨p, q, rfl⟩ : ∃ (p : Fin 5000) (q : Fin 64), j = ix2 p q := ⟨j 0, j 1, eq_ix2 j⟩
  obtain ⟨r, hr⟩ := row_exists t N_5 p
  have ha : ∀ k, (iblk5 V c 0 t : Vec Ideal S5000x64 .f32) (ix2 p k) = aggr5 V c (ix2 r k) := fun k => by
    show V c _ _ = _
    exact congrArg _ (ix2_ext (by show win5_0.index t 0 * 5000 + 1 * p.val = _; omega) (by show 0 * 64 + 1 * k.val = _; omega))
  have hb : ∀ k, (iblk5 V c 1 t : Vec Ideal S5000x64 .f32) (ix2 p k) = self5 V c (ix2 r k) := fun k => by
    show V c _ _ = _
    exact congrArg _ (ix2_ext (by show win5_1.index t 0 * 5000 + 1 * p.val = _; omega) (by show 0 * 64 + 1 * k.val = _; omega))
  have ho : ((cfg5.win 6).blk t).view.emb (ix2 p q) = (ix2 r q : S50000x64.Idx) :=
    ix2_ext (by show win5_6.index t 0 * 5000 + 1 * p.val = _; omega) (by show 0 * 64 + 1 * q.val = _; omega)
  show k2_pay1 (F := Ideal) _ _ _ _ _ _ (ix2 p q) = layer5 V c (((cfg5.win 6).blk t).view.emb (ix2 p q))
  rw [pay2_apply, ho, hc, hd, he, hf]
  simp only [ha, hb]
  rfl

theorem final5 (c : Dev nD) : (dat5 (F := Ideal) V c).arrAt 6 cfg5.N = layer5 V c :=
  (dat5 (F := Ideal) V c).arrAt_eq_of_cover 6 (layer5 V c) (fun t _ => flushed5_eq V c t) fun i => by
    obtain ⟨t, ht⟩ := point_exists N_5 i
    refine ⟨t, flush5_6 t, ?_⟩
    show i ∈ ((View.whole (Pipeline.arrRef spec5 6)).slice (win5_6.rect t)).set
    rw [View.set_slice_whole]
    exact mem_rowBlock i (by show win5_6.index t 0 * 5000 = _; rw [(block_indices5 t).right.right, ht]) rfl

end Cert.KernelIdeal.HandVal
end
-- ==== Proof.KI.Reg6Exit.lean ====
import proofs.«400867_j53901839564968_2_alg».proof.Proof.Gen.KernelIdeal.Launch
import proofs.«400867_j53901839564968_2_alg».proof.Proof.Gen.KernelIdeal.Skeleton
import proofs.«400867_j53901839564968_2_alg».proof.Proof.Gen.KernelIdeal.Points
import proofs.«400867_j53901839564968_2_alg».proof.Proof.KI.Reg6
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

theorem h24_6 : 24 < cfg6.N := by have : cfg6.N = 25 := N_6; omega

abbrev t24_6 : Fin cfg6.N := ⟨24, h24_6⟩

theorem flush6_14_iff (t : Fin cfg6.N) : (cfg6.win 14).flush t = true ↔ t = t24_6 := by
  rw [flush6_14]
  have hN : t.val < 25 := lt_of_lt_of_eq t.isLt (show cfg6.N = 25 from N_6)
  constructor
  · intro h; apply Fin.ext; show t.val = 24; omega
  · intro h; subst h; rfl

theorem index6_14 : ∀ (t : Fin cfg6.N) (a : Fin 2), win6_14.index t a = 0 :=
  (by decide +kernel : ∀ (t : Fin grid6.N) (a : Fin 2), win6_14.index t a = 0)

theorem emb6_14 (j : S128x10.Idx) : ((cfg6.win 14).blk t24_6).view.emb j = j :=
  funext fun a => Fin.ext (Window.rect_emb_val_of_index_zero win6_14 t24_6 a (index6_14 _ a) j)

theorem covered6_14 (i : S128x10.Idx) : i ∈ ((cfg6.win 14).blk t24_6).view.set := by
  rw [← emb6_14 i]; exact View.emb_mem_set _ i

theorem arrAt6_out (c : Dev nD) : (dat6 V c).arrAt 14 cfg6.N = (outsAt6 V c 24 h24_6).1 := by
  refine (dat6 V c).arrAt_eq_of_cover 14 _ (fun t hf => ?_) (fun i => ⟨t24_6, (flush6_14_iff t24_6).mpr rfl, covered6_14 i⟩)
  obtain rfl := (flush6_14_iff t).mp hf
  show (cfg6.win 14).cut (grid6.coords t24_6) ((dat6 V c).after 14 t24_6) = _
  rw [after6_14]
  funext j
  show (outsAt6 V c 24 h24_6).1 j = (outsAt6 V c 24 h24_6).1 (((cfg6.win 14).blk t24_6).view.emb j)
  rw [emb6_14]

theorem h23_6 : 23 < cfg6.N := by have : cfg6.N = 25 := N_6; omega

theorem outsAt6_last (c : Dev nD) :
    outsAt6 V c 24 h24_6 = (out6_C_14 c (grid6.coords t24_6) (ms6_0 t24_6) (hs6_0 t24_6) (ms6_1 t24_6) (hs6_1 t24_6) (ms6_2 t24_6) (hs6_2 t24_6) (ms6_3 t24_6) (hs6_3 t24_6) (ms6_4 t24_6) (hs6_4 t24_6) (ms6_5 t24_6) (hs6_5 t24_6) (ms6_6 t24_6) (hs6_6 t24_6) (ms6_7 t24_6) (hs6_7 t24_6) (ms6_8 t24_6) (hs6_8 t24_6) (ms6_9 t24_6) (hs6_9 t24_6) (ms6_10 t24_6) (hs6_10 t24_6) (ms6_11 t24_6) (hs6_11 t24_6) (ms6_12 t24_6) (hs6_12 t24_6) (ms6_13 t24_6) (hs6_13 t24_6) (ms6_14 t24_6) (hs6_14 t24_6) scM6_0 hscM6_0 (fun h => Nat.succ_ne_zero 23 ((hcond6_0 t24_6).mp h)) ((hcond6_1 t24_6).mpr rfl) (iblk6 V c 0 t24_6) (iblk6 V c 1 t24_6) (iblk6 V c 2 t24_6) (iblk6 V c 3 t24_6) (iblk6 V c 4 t24_6) (iblk6 V c 5 t24_6) (iblk6 V c 6 t24_6) (iblk6 V c 7 t24_6) (iblk6 V c 8 t24_6) (iblk6 V c 9 t24_6) (iblk6 V c 10 t24_6) (iblk6 V c 11 t24_6) (iblk6 V c 12 t24_6) (iblk6 V c 13 t24_6) (outsAt6 V c 23 h23_6).2,
      sout6_C_0 c (grid6.coords t24_6) (ms6_0 t24_6) (hs6_0 t24_6) (ms6_1 t24_6) (hs6_1 t24_6) (ms6_2 t24_6) (hs6_2 t24_6) (ms6_3 t24_6) (hs6_3 t24_6) (ms6_4 t24_6) (hs6_4 t24_6) (ms6_5 t24_6) (hs6_5 t24_6) (ms6_6 t24_6) (hs6_6 t24_6) (ms6_7 t24_6) (hs6_7 t24_6) (ms6_8 t24_6) (hs6_8 t24_6) (ms6_9 t24_6) (hs6_9 t24_6) (ms6_10 t24_6) (hs6_10 t24_6) (ms6_11 t24_6) (hs6_11 t24_6) (ms6_12 t24_6) (hs6_12 t24_6) (ms6_13 t24_6) (hs6_13 t24_6) (ms6_14 t24_6) (hs6_14 t24_6) scM6_0 hscM6_0 (fun h => Nat.succ_ne_zero 23 ((hcond6_0 t24_6).mp h)) ((hcond6_1 t24_6).mpr rfl) (iblk6 V c 0 t24_6) (iblk6 V c 1 t24_6) (iblk6 V c 2 t24_6) (iblk6 V c 3 t24_6) (iblk6 V c 4 t24_6) (iblk6 V c 5 t24_6) (iblk6 V c 6 t24_6) (iblk6 V c 7 t24_6) (iblk6 V c 8 t24_6) (iblk6 V c 9 t24_6) (iblk6 V c 10 t24_6) (iblk6 V c 11 t24_6) (iblk6 V c 12 t24_6) (iblk6 V c 13 t24_6) (outsAt6 V c 23 h23_6).2) :=
  outsAt6_C V c t24_6 (Nat.succ_ne_zero 23) rfl

end Cert.KernelIdeal.Hand
end
-- ==== Proof.Val.Dots6.lean ====
import proofs.«400867_j53901839564968_2_alg».proof.Proof.Gen.KernelIdeal.Skeleton
import Idealize.ShloMosaic.Lib.StackMember
noncomputable section
namespace Cert.KernelIdeal.HandVal
open Cert.KernelIdeal Cert.KernelIdeal.Gen
open Idealize.ShloMosaic Idealize.ShloMosaic.ValueIdx Idealize.ShloMosaic.StackMember
open scoped BigOperators

-- A block product read at an entry is the accumulator's entry plus the host product's entry.
theorem mmP_apply {M K N : Nat} {φ₁ φ₂ : FTy} (l : FVec Ideal ⟨2, ![M, K]⟩ φ₁) (r : FVec Ideal ⟨2, ![K, N]⟩ φ₂)
    (acc : FVec Ideal ⟨2, ![M, N]⟩ .f32) (p : Fin M) (q : Fin N) :
    matmul (DotDims.plain M K N) none l r acc (ix2 p q) = acc (ix2 p q) + ∑ k : Fin K, l (ix2 p k) * r (ix2 k q) :=
  congrArg (acc (ix2 p q) + ·) ((Ideal.dotGeneral_apply _ none _ l r _).symm.trans (dotGeneral_plain_apply none l r p q))

theorem mmJ_apply {φ₁ φ₂ : FTy} (l : FVec Ideal S2000x64 φ₁) (r : FVec Ideal S64x64 φ₂) (acc : FVec Ideal S2000x64 .f32) (p : Fin 2000) (q : Fin 64) :
    matmul dot_S2000x64_S64x64_S2000x64_1_0_0_1_n_n none l r acc (ix2 p q) = acc (ix2 p q) + ∑ k : Fin 64, l (ix2 p k) * r (ix2 k q) :=
  mmP_apply l r acc p q

theorem mmC1_apply {φ₁ φ₂ : FTy} (l : FVec Ideal S128x64 φ₁) (r : FVec Ideal S64x64 φ₂) (acc : FVec Ideal S128x64 .f32) (p : Fin 128) (q : Fin 64) :
    matmul dot_S128x64_S64x64_S128x64_1_0_0_1_n_n none l r acc (ix2 p q) = acc (ix2 p q) + ∑ k : Fin 64, l (ix2 p k) * r (ix2 k q) :=
  mmP_apply l r acc p q

theorem mmC2_apply {φ₁ φ₂ : FTy} (l : FVec Ideal S128x64 φ₁) (r : FVec Ideal S64x10 φ₂) (acc : FVec Ideal S128x10 .f32) (p : Fin 128) (q : Fin 10) :
    matmul dot_S128x64_S64x10_S128x10_1_0_0_1_n_n none l r acc (ix2 p q) = acc (ix2 p q) + ∑ k : Fin 64, l (ix2 p k) * r (ix2 k q) :=
  mmP_apply l r acc p q

theorem mmT_apply {φ₁ φ₂ : FTy} (l : FVec Ideal S2000x128 φ₁) (r : FVec Ideal S2000x64 φ₂) (acc : FVec Ideal S128x64 .f32) (g : Fin 128) (q : Fin 64) :
    matmul dot_S2000x128_S2000x64_S128x64_0_0_1_1_n_n none l r acc (ix2 g q) = acc (ix2 g q) + ∑ k : Fin 2000, l (ix2 k g) * r (ix2 k q) := by
  simp only [matmul]
  rw [Ideal.matmul_apply, ← Equiv.sum_comp (contrEquiv1 dot_S2000x128_S2000x64_S128x64_0_0_1_1_n_n 2000 rfl rfl).symm]
  refine congrArg (acc (ix2 g q) + ·) (Finset.sum_congr rfl fun k _ => ?_)
  have hk := contrEquiv1_symm_val dot_S2000x128_S2000x64_S128x64_0_0_1_1_n_n 2000 rfl rfl k
  have el : dot_S2000x128_S2000x64_S128x64_0_0_1_1_n_n.lhsIdx (ix2 g q) ((contrEquiv1 dot_S2000x128_S2000x64_S128x64_0_0_1_1_n_n 2000 rfl rfl).symm k) = ix2 k g :=
    Shape.idx_ext₂ ((dot_S2000x128_S2000x64_S128x64_0_0_1_1_n_n.lhsIdx_val_of_single rfl _ _).trans hk) (by
      unfold DotDims.lhsIdx
      rw [dif_neg (show ¬(1 : Fin S2000x128.rank) ∈ dot_S2000x128_S2000x64_S128x64_0_0_1_1_n_n.lhsBatch by decide), dif_pos (show (1 : Fin S2000x128.rank) ∈ dot_S2000x128_S2000x64_S128x64_0_0_1_1_n_n.lhsNonContracting by decide)]
      rfl)
  have er : dot_S2000x128_S2000x64_S128x64_0_0_1_1_n_n.rhsIdx (ix2 g q) ((contrEquiv1 dot_S2000x128_S2000x64_S128x64_0_0_1_1_n_n 2000 rfl rfl).symm k) = ix2 k q :=
    Shape.idx_ext₂ ((dot_S2000x128_S2000x64_S128x64_0_0_1_1_n_n.rhsIdx_val_of_single rfl _ _).trans hk) (by
      unfold DotDims.rhsIdx
      rw [dif_neg (show ¬(1 : Fin S2000x64.rank) ∈ dot_S2000x128_S2000x64_S128x64_0_0_1_1_n_n.rhsBatch by decide), dif_pos (show (1 : Fin S2000x64.rank) ∈ dot_S2000x128_S2000x64_S128x64_0_0_1_1_n_n.rhsNonContracting by decide)]
      rfl)
  rw [el, er]

end Cert.KernelIdeal.HandVal
end
-- ==== Proof.Val.Pay6.lean ====
import proofs.«400867_j53901839564968_2_alg».proof.Proof.Val.Dots6
import proofs.«400867_j53901839564968_2_alg».proof.Proof.Spec
import Idealize.ShloMosaic.Lib.Pipeline.Value
import Idealize.ShloMosaic.Lib.ValueLayout
noncomputable section
namespace Cert.KernelIdeal.HandVal
open Cert.KernelIdeal Cert.KernelIdeal.Gen Cert.Spec
open Idealize.ShloMosaic Idealize.ShloMosaic.ValueIdx
open scoped BigOperators

theorem scalar_zero : (Scalar.ofBits (F := Ideal) .f32 0x00000000#32 : EReal) = 0 := Ideal.ofBits_zero_f32

theorem slice_blk (v3 : Vec Ideal S320x64 .f32) (o : Nat) (k5 : Fin 5) (ho : o = 64 * k5.val) (h : S320x64.Slices ![o, 0] S64x64)
    (k q : Fin 64) : extractStridedSlice S64x64 ![o, 0] v3 h (ix2 k q) = blk v3 k5 (ix2 k q) :=
  slice2_axis0_apply o v3 h k q ⟨64 * k5.val + k.val, by have := k5.isLt; have := k.isLt; omega⟩ (by subst ho; rfl)

theorem bcast_col {α : Type} (v : S2000x1.Idx → α) (h : S2000x1.Broadcasts S2000x128) (r : Fin 2000) (g : Fin 128) :
    broadcastTo S2000x128 v h (ix2 r g) = v (ix2 r (0 : Fin 1)) := by
  refine broadcastTo_apply v h (ix2 r g) (ix2 r (0 : Fin 1)) fun ax => ?_
  match ax with
  | ⟨0, _⟩ =>
    show r.val = if (2000 : ℕ) = 1 then 0 else r.val
    rw [if_neg (by decide)]
  | ⟨1, _⟩ => rfl

theorem onehot_eq (b : BitVec 32) (g : Fin 128) :
    FloatOps.sitofp (F := Ideal) .f32 ((IntOp.cmpi .eq b (BitVec.ofNat 32 g.val)).setWidth 32) = member b g := by
  unfold member
  show ((((BitVec.ofBool (b == BitVec.ofNat 32 g.val)).setWidth 32).toInt : ℝ) : EReal) = _
  by_cases h : b = BitVec.ofNat 32 g.val
  · rw [if_pos h, beq_iff_eq.2 h]
    have e : ((BitVec.ofBool true).setWidth 32).toInt = 1 := by decide
    rw [e]; simp
  · rw [if_neg h, beq_eq_false_iff_ne.2 h]
    have e : ((BitVec.ofBool false).setWidth 32).toInt = 0 := by decide
    rw [e]; simp

theorem jkpool_pay6_apply (v3 : Vec Ideal S320x64 .f32) (v5 v12 v19 v26 : Vec Ideal S2000x64 .f32) (r : Fin 2000) (q : Fin 64) :
    k6_pay6 (F := Ideal) v3 v5 v12 v19 v26 (ix2 r q)
      = ((((0 : EReal) + mm v5 (blk v3 0) (ix2 r q)) + mm v12 (blk v3 1) (ix2 r q)) + mm v19 (blk v3 2) (ix2 r q))
          + mm v26 (blk v3 3) (ix2 r q) := by
  unfold k6_pay6
  simp only [addf_apply, mmJ_apply, constant_apply, Ideal.ofBits_zero_f32, zero_add, broadcast_apply, truncf_apply, shapeCast_self, scalar_zero,
    slice_blk v3 0 0 rfl, slice_blk v3 64 1 rfl, slice_blk v3 128 2 rfl, slice_blk v3 192 3 rfl]
  rfl

theorem jkpool_pay7_apply (v33 : Vec Ideal S2000x64 .f32) (r : Fin 2000) (k : Fin 64) :
    k6_pay7 (F := Ideal) v33 (ix2 r k) = v33 (ix2 r k) := by
  unfold k6_pay7
  simp only [truncf_apply, shapeCast_self]

theorem jkpool_pay8_apply (v3 : Vec Ideal S320x64 .f32) (k q : Fin 64) :
    k6_pay8 (F := Ideal) v3 (ix2 k q) = blk v3 4 (ix2 k q) := by
  unfold k6_pay8
  simp only [truncf_apply, slice_blk v3 256 4 rfl]

def jkBlk (jkw : Mat 320 64) (jkb : Mat 1 64) (h0 h1 h2 h3 h4 : Mat 2000 64) : Mat 2000 64 := fun i =>
  (((((0 : EReal) + mm h0 (blk jkw 0) i) + mm h1 (blk jkw 1) i) + mm h2 (blk jkw 2) i) + mm h3 (blk jkw 3) i)
    + mm h4 (blk jkw 4) i + jkb (ix2 (0 : Fin 1) (i 1))

theorem onehot_apply (v44 : IVec S2000x1 32) (r : Fin 2000) (g : Fin 128) :
    (sitofp (F := Ideal) .f32 (extui 32 (cmpi .eq (broadcastTo S2000x128 v44 broadcasts_S2000x1_S2000x128)
        (iota .tc S2000x128 32 [1] iota_S2000x128_d1_w32)) natLt_1_32) : FVec Ideal S2000x128 .f32) (ix2 r g)
      = member (v44 (ix2 r (0 : Fin 1))) g := by
  show FloatOps.sitofp (F := Ideal) .f32 ((IntOp.cmpi .eq
      (broadcastTo S2000x128 v44 broadcasts_S2000x1_S2000x128 (ix2 r g))
      (iota .tc S2000x128 32 [1] iota_S2000x128_d1_w32 (ix2 r g))).setWidth 32) = _
  rw [iota_single_apply, bcast_col]
  exact onehot_eq _ g

theorem jkpool_pay1_apply (v32 : FVec Ideal S2000x64 .f32) (v35 : FVec Ideal S2000x64 .bf16) (v37 : FVec Ideal S64x64 .bf16)
    (cst_16 : FVec Ideal S2000x64 .f32) (v40 : Vec Ideal S1x64 .f32) (v44 : Vec Ideal S2000x1 .i32) (v54 : Vec Ideal S128x64 .f32)
    (g : Fin 128) (q : Fin 64) :
    k6_pay1 (F := Ideal) v32 v35 v37 cst_16 v40 v44 v54 (ix2 g q)
      = v54 (ix2 g q) + ∑ r : Fin 2000, member (v44 (ix2 r (0 : Fin 1))) g
          * ((v32 (ix2 r q) + (cst_16 (ix2 r q) + ∑ k : Fin 64, v35 (ix2 r k) * v37 (ix2 k q))) + v40 (ix2 (0 : Fin 1) q)) := by
  unfold k6_pay1
  simp only [shapeCast_self, addf_apply]
  rw [mmT_apply]
  simp only [truncf_apply, addf_apply, mmJ_apply, broadcastTo_1b_ab_apply, constant_apply, Ideal.ofBits_zero_f32, zero_add]
  exact congrArg (v54 (ix2 g q) + ·) (Finset.sum_congr rfl fun r _ => congrArg (· * _) (onehot_apply v44 r g))

theorem jkpool_pay5_apply (g : Fin 128) (q : Fin 64) : k6_pay5 (F := Ideal) (ix2 g q) = 0 := by
  unfold k6_pay5
  simp only [shapeCast_self, broadcast_apply, scalar_zero]

theorem scratch_step (v3 : Vec Ideal S320x64 .f32) (v5 v12 v19 v26 v33 : Vec Ideal S2000x64 .f32) (v40 : Vec Ideal S1x64 .f32)
    (v44 : Vec Ideal S2000x1 .i32) (v54 : Vec Ideal S128x64 .f32) (g : Fin 128) (q : Fin 64) :
    k6_pay1 (F := Ideal) (k6_pay6 v3 v5 v12 v19 v26) (k6_pay7 v33) (k6_pay8 v3) (constant S2000x64 .f32 0x00000000#32) v40 v44 v54 (ix2 g q)
      = v54 (ix2 g q) + ∑ r : Fin 2000, member (v44 (ix2 r (0 : Fin 1))) g * jkBlk v3 v40 v5 v12 v19 v26 v33 (ix2 r q) := by
  rw [jkpool_pay1_apply]
  refine congrArg (v54 (ix2 g q) + ·) (Finset.sum_congr rfl fun r _ => congrArg (member (v44 (ix2 r (0 : Fin 1))) g * ·) ?_)
  rw [jkpool_pay6_apply]
  unfold jkBlk
  simp only [jkpool_pay7_apply, jkpool_pay8_apply, constant_apply, Ideal.ofBits_zero_f32, zero_add]
  rfl

theorem rsqrt_apply {s : Shape} {φ : FTy} (a : FVec Ideal s φ) (i : s.Idx) : rsqrt a i = Ideal.rsqrt (a i) := rfl

theorem lift_eq (q : Fin 64) (p : Fin 128) : reduces_S128x64_S64.lift (ix1 q) p = ix2 p q :=
  funext fun a => Fin.ext (by match a with | ⟨0, _⟩ => rfl | ⟨1, _⟩ => rfl)

theorem colsum_apply (x : FVec Ideal S128x64 .f32) (hφ : FKind.Formats .f32)
    (hacc : (0x00000000#32 : BitVec 32) = 0x00000000#32) (q : Fin 64) :
    shapeCast S1x64 (multiReduction (F := Ideal) .add [0] S64 x 0x00000000#32 reduces_S128x64_S64 hφ hacc) shapeCasts_S64_S1x64
        (ix2 (0 : Fin 1) q) = ∑ p : Fin 128, x (ix2 p q) := by
  refine (shapeCast_a_1a_apply _ shapeCasts_S64_S1x64 (0 : Fin 1) q).trans ?_
  refine (Ideal.multiReduction_add_single x 0x00000000#32 reduces_S128x64_S64 hφ hacc (ix1 q)).trans ?_
  exact Finset.sum_congr rfl fun p _ => congrArg x (lift_eq q p)

def clfT (g : Mat 128 64) (w1 : Mat 64 64) (b1 : Mat 1 64) (r : Fin 128) (q : Fin 64) : EReal :=
  mm g w1 (ix2 r q) + b1 (ix2 (0 : Fin 1) q)

def clfD (g : Mat 128 64) (w1 : Mat 64 64) (b1 : Mat 1 64) (r : Fin 128) (q : Fin 64) : EReal :=
  clfT g w1 b1 r q - Ideal.div (∑ r' : Fin 128, clfT g w1 b1 r' q) c128

def clfH (g : Mat 128 64) (w1 : Mat 64 64) (b1 gamma beta : Mat 1 64) (r : Fin 128) (q : Fin 64) : EReal :=
  max (clfD g w1 b1 r q * Ideal.rsqrt (Ideal.div (∑ r' : Fin 128, clfD g w1 b1 r' q * clfD g w1 b1 r' q) c128 + eps)
    * gamma (ix2 (0 : Fin 1) q) + beta (ix2 (0 : Fin 1) q)) 0

theorem jkpool_pay4_apply (v62 : Vec Ideal S128x64 .f32) (v63 : Vec Ideal S64x64 .f32) (v67 v89 v93 : Vec Ideal S1x64 .f32) (p : Fin 128) (q : Fin 64) :
    k6_pay4 (F := Ideal) v62 v63 v67 v89 v93 (ix2 p q) = clfH v62 v63 v67 v89 v93 p q := by
  unfold k6_pay4
  simp only [truncf_apply, maximumf_apply, addf_apply, mulf_apply, subf_apply, divf_apply, rsqrt_apply, broadcast_apply,
    broadcastTo_1b_ab_apply, shapeCast_self, mmC1_apply, constant_apply, Ideal.ofBits_zero_f32, zero_add, scalar_zero]
  rw [colsum_apply, colsum_apply]
  simp only [truncf_apply, addf_apply, mulf_apply, subf_apply, divf_apply, broadcast_apply,
    broadcastTo_1b_ab_apply, shapeCast_self, mmC1_apply, constant_apply, Ideal.ofBits_zero_f32, zero_add]
  rw [colsum_apply]
  simp only [truncf_apply, addf_apply, broadcastTo_1b_ab_apply, shapeCast_self, mmC1_apply, constant_apply, Ideal.ofBits_zero_f32, zero_add]
  rfl

theorem jkpool_pay3_apply (v99 : Vec Ideal S64x10 .f32) (k : Fin 64) (q : Fin 10) : k6_pay3 (F := Ideal) v99 (ix2 k q) = v99 (ix2 k q) := by
  unfold k6_pay3
  simp only [truncf_apply]

theorem jkpool_pay2_apply (v100 : FVec Ideal S64x10 .bf16) (v101 : FVec Ideal S128x64 .bf16) (cst_46 : FVec Ideal S128x10 .f32)
    (v103 : Vec Ideal S1x10 .f32) (p : Fin 128) (q : Fin 10) :
    k6_pay2 (F := Ideal) v100 v101 cst_46 v103 (ix2 p q)
      = (cst_46 (ix2 p q) + ∑ k : Fin 64, v101 (ix2 p k) * v100 (ix2 k q)) + v103 (ix2 (0 : Fin 1) q) := by
  unfold k6_pay2
  simp only [addf_apply, mmC2_apply, broadcastTo_1b_ab_apply, shapeCast_self]

theorem clfK_apply (w1 : Mat 64 64) (b1 gamma beta : Mat 1 64) (w2 : Mat 64 10) (b2 : Mat 1 10) (g : Mat 128 64) (p : Fin 128) (q : Fin 10) :
    clfK w1 b1 gamma beta w2 b2 g (ix2 p q) = (∑ k : Fin 64, clfH g w1 b1 gamma beta p k * w2 (ix2 k q)) + b2 (ix2 (0 : Fin 1) q) := by
  unfold clfK clf clfH clfD clfT colMean addRow relu
  simp only [zero_add]
  rfl

theorem out_eq (v62 : Vec Ideal S128x64 .f32) (v63 : Vec Ideal S64x64 .f32) (v67 v89 v93 : Vec Ideal S1x64 .f32)
    (v99 : Vec Ideal S64x10 .f32) (v103 : Vec Ideal S1x10 .f32) :
    k6_pay2 (F := Ideal) (k6_pay3 v99) (k6_pay4 v62 v63 v67 v89 v93) (constant S128x10 .f32 0x00000000#32) v103
      = clfK v63 v67 v89 v93 v99 v103 v62 := by
  funext i
  obtain ⟨p, q, rfl⟩ : ∃ (p : Fin 128) (q : Fin 10), i = ix2 p q := ⟨i 0, i 1, eq_ix2 i⟩
  rw [jkpool_pay2_apply, clfK_apply]
  simp only [jkpool_pay3_apply, jkpool_pay4_apply, constant_apply, Ideal.ofBits_zero_f32, zero_add]

end Cert.KernelIdeal.HandVal
end
-- ==== Proof.Val.Acc6.lean ====
import proofs.«400867_j53901839564968_2_alg».proof.Proof.Gen.KernelIdeal.Launch
import proofs.«400867_j53901839564968_2_alg».proof.Proof.Gen.KernelIdeal.Skeleton
import proofs.«400867_j53901839564968_2_alg».proof.Proof.Gen.KernelIdeal.Points
import Idealize.ShloMosaic.Lib.Pipeline.Value
import proofs.«400867_j53901839564968_2_alg».proof.Proof.Spec
import proofs.«400867_j53901839564968_2_alg».proof.Proof.Val.Pay6
noncomputable section
namespace Cert.KernelIdeal.HandVal
open Cert.KernelIdeal Cert.KernelIdeal.Gen Cert.Spec
open Idealize.ShloMosaic Idealize.ShloMosaic.TcCoe Idealize.ShloMosaic.ValueIdx

variable (V : (c : Dev nD) → (b : Ref sig .tc) → Buf (Elt Ideal) ((c : Thread nD τ).loc b)) (c : Dev nD) (t : Fin cfg6.N)

abbrev hs6 : Fin 5 → Mat 50000 64 :=
  ![V c (Pipeline.arrRef spec6 0), V c (Pipeline.arrRef spec6 1), V c (Pipeline.arrRef spec6 2), V c (Pipeline.arrRef spec6 3),
    V c (Pipeline.arrRef spec6 4)]
abbrev jkw6 : Mat 320 64 := V c (Pipeline.arrRef spec6 5)
abbrev jkb6 : Mat 1 64 := V c (Pipeline.arrRef spec6 6)
abbrev bat6 : ICol 50000 := V c (Pipeline.arrRef spec6 7)
abbrev proj6 : Mat 50000 64 := Spec.jkK (hs6 V c) (jkw6 V c) (jkb6 V c)

def blkOf6 (c : Dev nD) (w : Fin cfg6.W) (t : Fin cfg6.N) : ((cfg6.win w).xblock (cfg6.grid.coords t)).Idx → Elt Ideal (cfg6.win w).elt :=
  ((cfg6.win w).blk t).view.read (Elt Ideal) (V c (Pipeline.arrRef spec6 w))

theorem block_indices6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

theorem block_indices6b : ∀ t : Fin cfg6.N, win6_8.index t (0 : Fin 2) = 0 ∧ win6_8.index t (1 : Fin 2) = 0
    ∧ win6_9.index t (0 : Fin 2) = 0 ∧ win6_9.index t (1 : Fin 2) = 0
    ∧ win6_10.index t (0 : Fin 2) = 0 ∧ win6_10.index t (1 : Fin 2) = 0
    ∧ win6_11.index t (0 : Fin 2) = 0 ∧ win6_11.index t (1 : Fin 2) = 0
    ∧ win6_12.index t (0 : Fin 2) = 0 ∧ win6_12.index t (1 : Fin 2) = 0
    ∧ win6_13.index t (0 : Fin 2) = 0 ∧ win6_13.index t (1 : Fin 2) = 0 :=
  (by decide +kernel : ∀ t : Fin grid6.N, _)

theorem at_t {i B y t : Nat} (h : i = t) : i * B + 1 * y = B * t + y := by rw [h, Nat.mul_comm, Nat.one_mul]
theorem at_0 {i B y : Nat} (h : i = 0) : i * B + 1 * y = y := by rw [h, Nat.zero_mul, Nat.zero_add, Nat.one_mul]
theorem lt6 (r : Fin 2000) : 2000 * t.val + r.val < 50000 := by
  have := t.isLt; have h : cfg6.N = 25 := N_6; have := r.isLt; omega

theorem hid_block6_0 (r : Fin 2000) (j : Fin 64) :
    (blkOf6 V c 0 t : Vec Ideal S2000x64 .f32) (ix2 r j) = hs6 V c 0 (ix2 ⟨2000 * t.val + r.val, lt6 t r⟩ j) :=
  congrArg (hs6 V c 0) (Shape.idx_ext₂ (at_t (block_indices6 t).1) (at_0 (block_indices6 t).2.1))

theorem hid_block6_1 (r : Fin 2000) (j : Fin 64) :
    (blkOf6 V c 1 t : Vec Ideal S2000x64 .f32) (ix2 r j) = hs6 V c 1 (ix2 ⟨2000 * t.val + r.val, lt6 t r⟩ j) :=
  congrArg (hs6 V c 1) (Shape.idx_ext₂ (at_t (block_indices6 t).2.2.1) (at_0 (block_indices6 t).2.2.2.1))

theorem hid_block6_2 (r : Fin 2000) (j : Fin 64) :
    (blkOf6 V c 2 t : Vec Ideal S2000x64 .f32) (ix2 r j) = hs6 V c 2 (ix2 ⟨2000 * t.val + r.val, lt6 t r⟩ j) :=
  congrArg (hs6 V c 2) (Shape.idx_ext₂ (at_t (block_indices6 t).2.2.2.2.1) (at_0 (block_indices6 t).2.2.2.2.2.1))

theorem hid_block6_3 (r : Fin 2000) (j : Fin 64) :
    (blkOf6 V c 3 t : Vec Ideal S2000x64 .f32) (ix2 r j) = hs6 V c 3 (ix2 ⟨2000 * t.val + r.val, lt6 t r⟩ j) :=
  congrArg (hs6 V c 3) (Shape.idx_ext₂ (at_t (block_indices6 t).2.2.2.2.2.2.1) (at_0 (block_indices6 t).2.2.2.2.2.2.2.1))

theorem hid_block6_4 (r : Fin 2000) (j : Fin 64) :
    (blkOf6 V c 4 t : Vec Ideal S2000x64 .f32) (ix2 r j) = hs6 V c 4 (ix2 ⟨2000 * t.val + r.val, lt6 t r⟩ j) :=
  congrArg (hs6 V c 4) (Shape.idx_ext₂ (at_t (block_indices6 t).2.2.2.2.2.2.2.2.1) (at_0 (block_indices6 t).2.2.2.2.2.2.2.2.2.1))

theorem jkw_block6 : (blkOf6 V c 5 t : Vec Ideal S320x64 .f32) = jkw6 V c :=
  funext fun _ => congrArg (jkw6 V c) (Shape.idx_ext₂ (at_0 (block_indices6 t).2.2.2.2.2.2.2.2.2.2.1) (at_0 (block_indices6 t).2.2.2.2.2.2.2.2.2.2.2.1))

theorem jkb_block6 : (blkOf6 V c 6 t : Vec Ideal S1x64 .f32) = jkb6 V c :=
  funext fun _ => congrArg (jkb6 V c) (Shape.idx_ext₂ (at_0 (block_indices6 t).2.2.2.2.2.2.2.2.2.2.2.2.1) (at_0 (block_indices6 t).2.2.2.2.2.2.2.2.2.2.2.2.2.1))

theorem bat_block6 (r : Fin 2000) (z : Fin 1) :
    (blkOf6 V c 7 t : Vec Ideal S2000x1 .i32) (ix2 r z) = bat6 V c (ix2 ⟨2000 * t.val + r.val, lt6 t r⟩ z) :=
  congrArg (bat6 V c) (Shape.idx_ext₂ (at_t (block_indices6 t).2.2.2.2.2.2.2.2.2.2.2.2.2.2.1) (at_0 (block_indices6 t).2.2.2.2.2.2.2.2.2.2.2.2.2.2.2))

-- A product's row reads only that row of its left factor.
theorem mm_block6 (k : Fin 5) (x : Mat 2000 64) (a : Mat 50000 64) (r : Fin 2000) (R : Fin 50000)
    (q : Fin 64) (h : ∀ j : Fin 64, x (ix2 r j) = a (ix2 R j)) :
    Spec.mm x (Spec.blk (blkOf6 V c 5 t) k) (ix2 r q) = Spec.mm a (Spec.blk (jkw6 V c) k) (ix2 R q) := by
  rw [jkw_block6 V c t]
  exact Finset.sum_congr rfl fun j _ => congrArg (· * _) (h j)

theorem jkBlk_block6 (r : Fin 2000) (q : Fin 64) :
    jkBlk (blkOf6 V c 5 t) (blkOf6 V c 6 t) (blkOf6 V c 0 t) (blkOf6 V c 1 t)
        (blkOf6 V c 2 t) (blkOf6 V c 3 t) (blkOf6 V c 4 t) (ix2 r q)
      = proj6 V c (ix2 ⟨2000 * t.val + r.val, lt6 t r⟩ q) :=
  congrArg₂ (· + ·) (congrArg₂ (· + ·) (congrArg₂ (· + ·) (congrArg₂ (· + ·) (congrArg₂ (· + ·)
    (congrArg ((0 : EReal) + ·) (mm_block6 V c t 0 _ (hs6 V c 0) r _ q (hid_block6_0 V c t r)))
    (mm_block6 V c t 1 _ (hs6 V c 1) r _ q (hid_block6_1 V c t r)))
    (mm_block6 V c t 2 _ (hs6 V c 2) r _ q (hid_block6_2 V c t r)))
    (mm_block6 V c t 3 _ (hs6 V c 3) r _ q (hid_block6_3 V c t r)))
    (mm_block6 V c t 4 _ (hs6 V c 4) r _ q (hid_block6_4 V c t r)))
    (congrFun (jkb_block6 V c t) _)

theorem acc_step6 (s : Vec Ideal S128x64 .f32) (g : Fin 128) (q : Fin 64) :
    k6_pay1 (F := Ideal) (k6_pay6 (blkOf6 V c 5 t) (blkOf6 V c 0 t) (blkOf6 V c 1 t) (blkOf6 V c 2 t) (blkOf6 V c 3 t))
        (k6_pay7 (blkOf6 V c 4 t)) (k6_pay8 (blkOf6 V c 5 t)) (constant S2000x64 .f32 0x00000000#32)
        (blkOf6 V c 6 t) (blkOf6 V c 7 t) s (ix2 g q)
      = s (ix2 g q) + Spec.part (bat6 V c) (proj6 V c) ⟨t.val, by have := t.isLt; have h : cfg6.N = 25 := N_6; omega⟩ (ix2 g q) := by
  refine (scratch_step _ _ _ _ _ _ _ _ s g q).trans (congrArg (s (ix2 g q) + ·) ?_)
  unfold Spec.part
  exact Finset.sum_congr rfl fun r _ => by rw [bat_block6 V c t r 0, jkBlk_block6 V c t r q]

theorem cw1_block6 : (blkOf6 V c 8 t : Vec Ideal S64x64 .f32) = (V c (Pipeline.arrRef spec6 8) : Mat 64 64) :=
  funext fun _ => congrArg (V c (Pipeline.arrRef spec6 8) : Mat 64 64) (Shape.idx_ext₂ (at_0 (block_indices6b t).1) (at_0 (block_indices6b t).2.1))

theorem cb1_block6 : (blkOf6 V c 9 t : Vec Ideal S1x64 .f32) = (V c (Pipeline.arrRef spec6 9) : Mat 1 64) :=
  funext fun _ => congrArg (V c (Pipeline.arrRef spec6 9) : Mat 1 64) (Shape.idx_ext₂ (at_0 (block_indices6b t).2.2.1) (at_0 (block_indices6b t).2.2.2.1))

theorem gam_block6 : (blkOf6 V c 10 t : Vec Ideal S1x64 .f32) = (V c (Pipeline.arrRef spec6 10) : Mat 1 64) :=
  funext fun _ => congrArg (V c (Pipeline.arrRef spec6 10) : Mat 1 64) (Shape.idx_ext₂ (at_0 (block_indices6b t).2.2.2.2.1) (at_0 (block_indices6b t).2.2.2.2.2.1))

theorem bet_block6 : (blkOf6 V c 11 t : Vec Ideal S1x64 .f32) = (V c (Pipeline.arrRef spec6 11) : Mat 1 64) :=
  funext fun _ => congrArg (V c (Pipeline.arrRef spec6 11) : Mat 1 64) (Shape.idx_ext₂ (at_0 (block_indices6b t).2.2.2.2.2.2.1) (at_0 (block_indices6b t).2.2.2.2.2.2.2.1))

theorem cw2_block6 : (blkOf6 V c 12 t : Vec Ideal S64x10 .f32) = (V c (Pipeline.arrRef spec6 12) : Mat 64 10) :=
  funext fun _ => congrArg (V c (Pipeline.arrRef spec6 12) : Mat 64 10) (Shape.idx_ext₂ (at_0 (block_indices6b t).2.2.2.2.2.2.2.2.1) (at_0 (block_indices6b t).2.2.2.2.2.2.2.2.2.1))

theorem cb2_block6 : (blkOf6 V c 13 t : Vec Ideal S1x10 .f32) = (V c (Pipeline.arrRef spec6 13) : Mat 1 10) :=
  funext fun _ => congrArg (V c (Pipeline.arrRef spec6 13) : Mat 1 10) (Shape.idx_ext₂ (at_0 (block_indices6b t).2.2.2.2.2.2.2.2.2.2.1) (at_0 (block_indices6b t).2.2.2.2.2.2.2.2.2.2.2))

end Cert.KernelIdeal.HandVal
end
-- ==== Proof.Val.Scr6.lean ====
import proofs.«400867_j53901839564968_2_alg».proof.Proof.KI.Reg6
import proofs.«400867_j53901839564968_2_alg».proof.Proof.Val.Acc6
noncomputable section
namespace Cert.KernelIdeal.HandVal
open Cert.KernelIdeal Cert.KernelIdeal.Gen Cert.Spec
open Idealize.ShloMosaic Idealize.ShloMosaic.TcCoe
open Idealize.ShloMosaic.ValueIdx
open Cert.KernelIdeal.Hand

variable (V : (c : Dev nD) → (b : Ref sig .tc) → Buf (Elt Ideal) ((c : Thread nD τ).loc b))

theorem acc6_blocks (c : Dev nD) (t : Fin cfg6.N) (s : Vec Ideal S128x64 .f32) :
    acc6 (F := Ideal) (iblk6 V c 0 t) (iblk6 V c 1 t) (iblk6 V c 2 t) (iblk6 V c 3 t) (iblk6 V c 4 t) (iblk6 V c 5 t) (iblk6 V c 6 t) (iblk6 V c 7 t) s
      = fun i => s i + Spec.part (bat6 V c) (proj6 V c) ⟨t.val, by have := t.isLt; have h : cfg6.N = 25 := N_6; omega⟩ i := by
  funext i
  obtain ⟨g, q, rfl⟩ : ∃ (g : Fin 128) (q : Fin 64), i = ix2 g q := ⟨i 0, i 1, eq_ix2 i⟩
  unfold acc6
  exact acc_step6 V c t s g q

theorem scratch6_eq (c : Dev nD) (n : ℕ) (hn : n < cfg6.N) :
    ((outsAt6 (F := Ideal) V c n hn).2 : Mat 128 64)
      = Spec.accK (bat6 V c) (proj6 V c) n (by have h : cfg6.N = 25 := N_6; omega) := by
  induction n with
  | zero =>
    have h := outsAt6_A (F := Ideal) V c ⟨0, hn⟩ rfl (show ¬ (0 : ℕ) = 24 from by decide)
    refine (congrArg Prod.snd h).trans ?_
    rw [sout6_A_eq, acc6_blocks V c ⟨0, hn⟩]
    funext i
    obtain ⟨g, q, rfl⟩ : ∃ (g : Fin 128) (q : Fin 64), i = ix2 g q := ⟨i 0, i 1, eq_ix2 i⟩
    show k6_pay5 (F := Ideal) (ix2 g q) + _ = (0 : EReal) + _
    rw [jkpool_pay5_apply]
  | succ n ih =>
    have hprev : n < cfg6.N := Nat.lt_of_succ_lt hn
    have ihn := ih hprev
    by_cases h1 : n + 1 = 24
    · have h := outsAt6_C (F := Ideal) V c ⟨n + 1, hn⟩ (Nat.succ_ne_zero n) h1
      refine (congrArg Prod.snd h).trans ?_
      rw [sout6_C_eq, acc6_blocks V c ⟨n + 1, hn⟩]
      funext i
      show (outsAt6 (F := Ideal) V c n _).2 i + _ = Spec.accK (bat6 V c) (proj6 V c) n _ i + _
      rw [show ((outsAt6 (F := Ideal) V c n hprev).2 : Mat 128 64) = _ from ihn]
    · have h := outsAt6_B (F := Ideal) V c ⟨n + 1, hn⟩ (Nat.succ_ne_zero n) h1
      refine (congrArg Prod.snd h).trans ?_
      rw [sout6_B_eq, acc6_blocks V c ⟨n + 1, hn⟩]
      funext i
      show (outsAt6 (F := Ideal) V c n _).2 i + _ = Spec.accK (bat6 V c) (proj6 V c) n _ i + _
      rw [show ((outsAt6 (F := Ideal) V c n hprev).2 : Mat 128 64) = _ from ihn]

end Cert.KernelIdeal.HandVal
end
-- ==== Proof.Val.Fin6.lean ====
import proofs.«400867_j53901839564968_2_alg».proof.Proof.KI.Reg6Exit
import proofs.«400867_j53901839564968_2_alg».proof.Proof.Val.Scr6
noncomputable section
namespace Cert.KernelIdeal.HandVal
open Cert.KernelIdeal Cert.KernelIdeal.Gen Cert.Spec
open Idealize.ShloMosaic Idealize.ShloMosaic.TcCoe
open Cert.KernelIdeal.Hand

variable (V : (c : Dev nD) → (b : Ref sig .tc) → Buf (Elt Ideal) ((c : Thread nD τ).loc b))

abbrev cw1_6 (c : Dev nD) : Mat 64 64 := V c (Pipeline.arrRef spec6 8)
abbrev cb1_6 (c : Dev nD) : Mat 1 64 := V c (Pipeline.arrRef spec6 9)
abbrev gam_6 (c : Dev nD) : Mat 1 64 := V c (Pipeline.arrRef spec6 10)
abbrev bet_6 (c : Dev nD) : Mat 1 64 := V c (Pipeline.arrRef spec6 11)
abbrev cw2_6 (c : Dev nD) : Mat 64 10 := V c (Pipeline.arrRef spec6 12)
abbrev cb2_6 (c : Dev nD) : Mat 1 10 := V c (Pipeline.arrRef spec6 13)

theorem clf6_eq (s : Vec Ideal S128x64 .f32) (x8 : Vec Ideal S64x64 .f32) (x9 x10 x11 : Vec Ideal S1x64 .f32)
    (x12 : Vec Ideal S64x10 .f32) (x13 : Vec Ideal S1x10 .f32) :
    clf6 (F := Ideal) s x8 x9 x10 x11 x12 x13 = clfK x8 x9 x10 x11 x12 x13 s := by
  unfold clf6
  exact out_eq s x8 x9 x10 x11 x12 x13

theorem clfK_congr {w1 w1' : Mat 64 64} {b1 b1' gamma gamma' beta beta' : Mat 1 64} {w2 w2' : Mat 64 10} {b2 b2' : Mat 1 10}
    {g g' : Mat 128 64} (h1 : w1 = w1') (h2 : b1 = b1') (h3 : gamma = gamma') (h4 : beta = beta') (h5 : w2 = w2') (h6 : b2 = b2')
    (h7 : g = g') : clfK w1 b1 gamma beta w2 b2 g = clfK w1' b1' gamma' beta' w2' b2' g' := by
  subst h1 h2 h3 h4 h5 h6 h7; rfl

theorem acc6_last (c : Dev nD) :
    (acc6 (F := Ideal) (iblk6 V c 0 t24_6) (iblk6 V c 1 t24_6) (iblk6 V c 2 t24_6) (iblk6 V c 3 t24_6) (iblk6 V c 4 t24_6) (iblk6 V c 5 t24_6) (iblk6 V c 6 t24_6) (iblk6 V c 7 t24_6) (outsAt6 (F := Ideal) V c 23 h23_6).2 : Mat 128 64)
      = Spec.accK (bat6 V c) (proj6 V c) 24 (by decide) := by
  rw [acc6_blocks V c t24_6, scratch6_eq V c 23 h23_6]
  rfl

theorem out6_last (c : Dev nD) :
    ((outsAt6 (F := Ideal) V c 24 h24_6).1 : Mat 128 10)
      = Spec.clfK (cw1_6 V c) (cb1_6 V c) (gam_6 V c) (bet_6 V c) (cw2_6 V c) (cb2_6 V c)
          (Spec.accK (bat6 V c) (proj6 V c) 24 (by decide)) := by
  rw [show outsAt6 (F := Ideal) V c 24 h24_6 = _ from outsAt6_last (F := Ideal) V c]
  dsimp only
  rw [out6_C_eq (F := Ideal)]
  refine (clf6_eq _ _ _ _ _ _ _).trans ?_
  exact clfK_congr (cw1_block6 V c t24_6) (cb1_block6 V c t24_6) (gam_block6 V c t24_6) (bet_block6 V c t24_6)
    (cw2_block6 V c t24_6) (cb2_block6 V c t24_6) (acc6_last V c)

theorem final6 (c : Dev nD) :
    ((dat6 (F := Ideal) V c).arrAt 14 cfg6.N : Mat 128 10)
      = Spec.clfK (cw1_6 V c) (cb1_6 V c) (gam_6 V c) (bet_6 V c) (cw2_6 V c) (cb2_6 V c)
          (Spec.accK (bat6 V c) (proj6 V c) 24 (by decide)) :=
  (arrAt6_out (F := Ideal) V c).trans (out6_last V c)

end Cert.KernelIdeal.HandVal
end
-- ==== Proof.LibSumBlocks.lean ====
import Mathlib.Data.Fintype.BigOperators
import Mathlib.Logic.Equiv.Fin.Basic

theorem Fin.rowMajor_lt {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

theorem Fin.sum_rowMajor2 {M : Type*} [AddCommMonoid M] (m n : ℕ) (f : Fin (m * n) → M) :
    ∑ e, f e = ∑ a : Fin m, ∑ b : Fin n, f ⟨a.val * n + b.val, Fin.rowMajor_lt a b⟩ := by
  rw [← Fintype.sum_prod_type' (f := fun (a : Fin m) (b : Fin n) => f ⟨a.val * n + b.val, Fin.rowMajor_lt a b⟩)]
  exact (Fintype.sum_equiv finProdFinEquiv (fun p : Fin m × Fin n => f ⟨p.1.val * n + p.2.val, Fin.rowMajor_lt p.1 p.2⟩) f
    (fun p => congrArg f (Fin.ext (by simp [Nat.mul_comm, Nat.add_comm])))).symm
-- ==== Proof.Math.Layer0.lean ====
import proofs.«400867_j53901839564968_2_alg».proof.Proof.Spec
import proofs.«400867_j53901839564968_2_alg».proof.Proof.LibSumBlocks
import Mathlib.Data.EReal.Operations
import Mathlib.Algebra.BigOperators.Ring.Finset

noncomputable section

namespace Cert.Spec

open Idealize.ShloMosaic Idealize.ShloMosaic.ValueIdx
open scoped BigOperators

theorem addRow1_eq {n c : Nat} (a : Mat n c) (b : Row c) (b' : Mat 1 c)
    (hb : ∀ q : Fin c, b' (ix2 (0 : Fin 1) q) = b (ix1 q)) : addRow1 a b' = addRow a b := by
  funext i
  exact congrArg (fun t => a i + t) (hb (i 1))

theorem coe_sum_real {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

theorem real_segsum_mm {R d : Nat} (c : Fin R → Prop) [DecidablePred c] (a : Fin R → Fin d → ℝ) (y v : Fin d → ℝ) :
    ((0 : ℝ) + ∑ j : Fin R, if c j then ∑ k : Fin d, a j k * v k else 0) + ∑ k : Fin d, y k * v k
      = ∑ k : Fin d, (((0 : ℝ) + ∑ j : Fin R, if c j then a j k else 0) + y k) * v k := by
  simp only [zero_add, add_mul, Finset.sum_add_distrib, Finset.sum_mul, ite_mul, zero_mul]
  congr 1
  rw [Finset.sum_comm]
  refine Finset.sum_congr rfl (fun j _ => ?_)
  split_ifs <;> simp

theorem ereal_segsum_mm {R d : Nat} (c : Fin R → Prop) [DecidablePred c] (a : Fin R → Fin d → ℝ) (y v : Fin d → ℝ) :
    ((0 : EReal) + ∑ j : Fin R, if c j then ∑ k : Fin d, (a j k : EReal) * (v k : EReal) else 0)
        + ∑ k : Fin d, (y k : EReal) * (v k : EReal)
      = ∑ k : Fin d, (((0 : EReal) + ∑ j : Fin R, if c j then (a j k : EReal) else 0) + (y k : EReal)) * (v k : EReal) := by
  have hL : ((((0 : ℝ) + ∑ j : Fin R, if c j then ∑ k : Fin d, a j k * v k else 0) + ∑ k : Fin d, y k * v k : ℝ) : EReal)
      = ((0 : EReal) + ∑ j : Fin R, if c j then ∑ k : Fin d, (a j k : EReal) * (v k : EReal) else 0)
        + ∑ k : Fin d, (y k : EReal) * (v k : EReal) := by
    simp only [EReal.coe_add, EReal.coe_mul, coe_sum_real, EReal.coe_zero, apply_ite Real.toEReal]
  have hR : ((∑ k : Fin d, (((0 : ℝ) + ∑ j : Fin R, if c j then a j k else 0) + y k) * v k : ℝ) : EReal)
      = ∑ k : Fin d, (((0 : EReal) + ∑ j : Fin R, if c j then (a j k : EReal) else 0) + (y k : EReal)) * (v k : EReal) := by
    simp only [EReal.coe_add, EReal.coe_mul, coe_sum_real, EReal.coe_zero, apply_ite Real.toEReal]
  rw [← hL, ← hR, real_segsum_mm]

theorem agg_add_mm (sI dI : ICol 800000) {d : Nat} (x : Mat 50000 d) (w : Mat d 64)
    (hx : ∀ i, x i ≠ ⊤ ∧ x i ≠ ⊥) (hw : ∀ i, w i ≠ ⊤ ∧ w i ≠ ⊥) :
    add (agg sI dI (mm x w)) (mm x w) = mm (add (agg sI dI x) x) w := by
  obtain ⟨xr, ex⟩ : ∃ xr : (⟨2, ![50000, d]⟩ : Shape).Idx → ℝ, x = fun j => (xr j : EReal) :=
    ⟨fun j => (x j).toReal, funext fun j => (EReal.coe_toReal (hx j).1 (hx j).2).symm⟩
  obtain ⟨wr, ew⟩ : ∃ wr : (⟨2, ![d, 64]⟩ : Shape).Idx → ℝ, w = fun j => (wr j : EReal) :=
    ⟨fun j => (w j).toReal, funext fun j => (EReal.coe_toReal (hw j).1 (hw j).2).symm⟩
  subst ex ew
  funext i
  exact ereal_segsum_mm (fun j : Fin 800000 => (dI (ix2 j (0 : Fin 1))).toInt = ((i 0).val : Int))
    (fun j k => xr (ix2 (rowOf 50000 (by decide) (sI (ix2 j (0 : Fin 1)))) k))
    (fun k => xr (ix2 (i 0) k)) (fun k => wr (ix2 k (i 1)))

theorem layer0K_eq (sI dI : ICol 800000) (w1 : Mat 128 64) (b1 : Row 64) (b1' : Mat 1 64)
    (hb1 : ∀ q : Fin 64, b1' (ix2 (0 : Fin 1) q) = b1 (ix1 q)) (w2 : Mat 64 64) (b2 : Row 64) (b2' : Mat 1 64)
    (hb2 : ∀ q : Fin 64, b2' (ix2 (0 : Fin 1) q) = b2 (ix1 q)) (x : Mat 50000 128)
    (hx : ∀ i, x i ≠ ⊤ ∧ x i ≠ ⊥) (hw : ∀ i, w1 i ≠ ⊤ ∧ w1 i ≠ ⊥) :
    layer0K sI dI w1 b1' w2 b2' x = layer sI dI w1 b1 w2 b2 x := by
  unfold layer0K layer
  rw [addRow1_eq _ b1 b1' hb1, addRow1_eq _ b2 b2' hb2, agg_add_mm sI dI x w1 hx hw]

theorem layerK_eq (sI dI : ICol 800000) (w1 : Mat 64 64) (b1 : Row 64) (b1' : Mat 1 64)
    (hb1 : ∀ q : Fin 64, b1' (ix2 (0 : Fin 1) q) = b1 (ix1 q)) (w2 : Mat 64 64) (b2 : Row 64) (b2' : Mat 1 64)
    (hb2 : ∀ q : Fin 64, b2' (ix2 (0 : Fin 1) q) = b2 (ix1 q)) (h : Mat 50000 64) :
    layerK sI dI w1 b1' w2 b2' h = layer sI dI w1 b1 w2 b2 h := by
  unfold layerK layer
  rw [addRow1_eq _ b1 b1' hb1, addRow1_eq _ b2 b2' hb2]

end Cert.Spec

end
-- ==== Proof.Math.Jk.lean ====
import proofs.«400867_j53901839564968_2_alg».proof.Proof.Spec
import proofs.«400867_j53901839564968_2_alg».proof.Proof.LibSumBlocks
import Mathlib.Algebra.BigOperators.Fin

noncomputable section

namespace Cert.Spec

open Idealize.ShloMosaic Idealize.ShloMosaic.ValueIdx
open scoped BigOperators

theorem cat5_apply (hs : Fin 5 → Mat 50000 64) (n : Fin 50000) (j : Fin 320) (a : Fin 5) (b : Fin 64)
    (hj : j.val = a.val * 64 + b.val) : cat5 hs (ix2 n j) = hs a (ix2 n b) := by
  have ha : (⟨j.val / 64, by have := j.isLt; omega⟩ : Fin 5) = a :=
    Fin.ext (by show j.val / 64 = a.val; have := b.isLt; omega)
  have hb : (⟨j.val % 64, Nat.mod_lt _ (by decide)⟩ : Fin 64) = b :=
    Fin.ext (by show j.val % 64 = b.val; have := b.isLt; omega)
  show hs ⟨j.val / 64, _⟩ (ix2 n ⟨j.val % 64, _⟩) = hs a (ix2 n b)
  rw [ha, hb]

theorem blk_apply (jkw : Mat 320 64) (a : Fin 5) (b q : Fin 64) (j : Fin 320)
    (hj : j.val = a.val * 64 + b.val) : blk jkw a (ix2 b q) = jkw (ix2 j q) := by
  have e : (⟨64 * a.val + b.val, by have := b.isLt; have := a.isLt; omega⟩ : Fin 320) = j :=
    Fin.ext (by show 64 * a.val + b.val = j.val; omega)
  show jkw (ix2 ⟨64 * a.val + b.val, _⟩ q) = jkw (ix2 j q)
  rw [e]

theorem mm_cat5 (hs : Fin 5 → Mat 50000 64) (jkw : Mat 320 64) (n : Fin 50000) (q : Fin 64) :
    ∑ j : Fin 320, cat5 hs (ix2 n j) * jkw (ix2 j q) = ∑ a : Fin 5, mm (hs a) (blk jkw a) (ix2 n q) := by
  rw [show (∑ j : Fin 320, cat5 hs (ix2 n j) * jkw (ix2 j q))
      = ∑ a : Fin 5, ∑ b : Fin 64, cat5 hs (ix2 n ⟨a.val * 64 + b.val, Fin.rowMajor_lt a b⟩)
          * jkw (ix2 ⟨a.val * 64 + b.val, Fin.rowMajor_lt a b⟩ q)
      from Fin.sum_rowMajor2 5 64 (fun j : Fin 320 => cat5 hs (ix2 n j) * jkw (ix2 j q))]
  refine Finset.sum_congr rfl (fun a _ => ?_)
  show _ = ∑ b : Fin 64, hs a (ix2 n b) * blk jkw a (ix2 b q)
  refine Finset.sum_congr rfl (fun b _ => ?_)
  rw [cat5_apply hs n _ a b rfl, blk_apply jkw a b q ⟨a.val * 64 + b.val, Fin.rowMajor_lt a b⟩ rfl]

theorem jkK_eq (hs : Fin 5 → Mat 50000 64) (jkw : Mat 320 64) (jkb : Row 64) (jkb' : Mat 1 64)
    (hb : ∀ q : Fin 64, jkb' (ix2 (0 : Fin 1) q) = jkb (ix1 q)) :
    jkK hs jkw jkb' = addRow (mm (cat5 hs) jkw) jkb := by
  funext i
  obtain ⟨n, q, rfl⟩ : ∃ n q, i = ix2 n q := ⟨i 0, i 1, eq_ix2 i⟩
  show (((((0 : EReal) + mm (hs 0) (blk jkw 0) (ix2 n q)) + mm (hs 1) (blk jkw 1) (ix2 n q))
        + mm (hs 2) (blk jkw 2) (ix2 n q)) + mm (hs 3) (blk jkw 3) (ix2 n q)) + mm (hs 4) (blk jkw 4) (ix2 n q)
        + jkb' (ix2 (0 : Fin 1) q)
      = (∑ j : Fin 320, cat5 hs (ix2 n j) * jkw (ix2 j q)) + jkb (ix1 q)
  rw [mm_cat5, hb, Fin.sum_univ_five, zero_add]

end Cert.Spec

end
-- ==== Proof.Math.Pool.lean ====
import proofs.«400867_j53901839564968_2_alg».proof.Proof.Spec
import proofs.«400867_j53901839564968_2_alg».proof.Proof.LibSumBlocks
import Mathlib.Algebra.BigOperators.Fin
import Mathlib.Data.EReal.Basic

set_option maxRecDepth 16384

noncomputable section

namespace Cert.Spec

open Idealize.ShloMosaic Idealize.ShloMosaic.ValueIdx
open scoped BigOperators

theorem eq_ofNat_iff_toInt (b : BitVec 32) (g : Fin 128) :
    b = BitVec.ofNat 32 g.val ↔ b.toInt = (g.val : Int) := by
  have hg := g.isLt
  have hb : b.toNat < 2 ^ 32 := b.isLt
  have hm : g.val % 2 ^ 32 = g.val := Nat.mod_eq_of_lt (by omega)
  constructor
  · intro h
    subst h
    rw [BitVec.toInt_eq_toNat_cond, BitVec.toNat_ofNat, hm]
    split_ifs <;> omega
  · intro h
    apply BitVec.eq_of_toNat_eq
    rw [BitVec.toNat_ofNat, hm]
    rw [BitVec.toInt_eq_toNat_cond] at h
    split_ifs at h <;> omega

theorem member_mul (b : BitVec 32) (g : Fin 128) (v : EReal) :
    member b g * v = if b.toInt = (g.val : Int) then v else 0 := by
  unfold member
  by_cases h : b = BitVec.ofNat 32 g.val
  · rw [if_pos h, if_pos ((eq_ofNat_iff_toInt b g).1 h), one_mul]
  · rw [if_neg h, if_neg (fun h' => h ((eq_ofNat_iff_toInt b g).2 h')), zero_mul]

theorem accK_eq_sum (bI : ICol 50000) (h : Mat 50000 64) :
    ∀ (t : ℕ) (ht : t < 25) (i : (⟨2, ![128, 64]⟩ : Shape).Idx),
      accK bI h t ht i = (0 : EReal) + ∑ s : Fin (t + 1), part bI h ⟨s.val, by have := s.isLt; omega⟩ i
  | 0, ht, i => by
    show (0 : EReal) + part bI h ⟨0, ht⟩ i = _
    rw [Fin.sum_univ_one]
    rfl
  | t + 1, ht, i => by
    show accK bI h t (by omega) i + part bI h ⟨t + 1, ht⟩ i = _
    rw [accK_eq_sum bI h t (by omega) i, add_assoc]
    exact congrArg _ (Fin.sum_univ_castSucc
      (fun s : Fin (t + 1 + 1) => part bI h ⟨s.val, by have := s.isLt; omega⟩ i)).symm

theorem sum_25x2000 {M : Type*} [AddCommMonoid M] (f : Fin 50000 → M) :
    ∑ j, f j = ∑ t : Fin 25, ∑ r : Fin 2000, f ⟨t.val * 2000 + r.val, by omega⟩ :=
  Fin.sum_rowMajor2 25 2000 f

theorem accK_eq (bI : ICol 50000) (h : Mat 50000 64) :
    accK bI h 24 (by decide) = segSum bI h := by
  funext i
  obtain ⟨g, q, rfl⟩ : ∃ g q, i = ix2 g q := ⟨i 0, i 1, eq_ix2 i⟩
  rw [accK_eq_sum]
  show (0 : EReal) + ∑ s : Fin 25, part bI h s (ix2 g q)
      = (0 : EReal) + ∑ j : Fin 50000, if (bI (ix2 j (0 : Fin 1))).toInt = (g.val : Int) then h (ix2 j q) else 0
  refine congrArg (fun u => (0 : EReal) + u) ?_
  rw [sum_25x2000 (fun j : Fin 50000 => if (bI (ix2 j (0 : Fin 1))).toInt = (g.val : Int) then h (ix2 j q) else 0)]
  refine Finset.sum_congr rfl (fun t _ => ?_)
  show ∑ r : Fin 2000, member (bI (ix2 ⟨2000 * t.val + r.val, _⟩ (0 : Fin 1))) g * h (ix2 ⟨2000 * t.val + r.val, _⟩ q) = _
  refine Finset.sum_congr rfl (fun r _ => ?_)
  have e : (⟨2000 * t.val + r.val, by have := r.isLt; have := t.isLt; omega⟩ : Fin 50000)
      = ⟨t.val * 2000 + r.val, by have := r.isLt; have := t.isLt; omega⟩ :=
    Fin.ext (by show 2000 * t.val + r.val = t.val * 2000 + r.val; omega)
  rw [member_mul, e]

end Cert.Spec

end
-- ==== Proof.Math.Clf.lean ====
import proofs.«400867_j53901839564968_2_alg».proof.Proof.Spec
import proofs.«400867_j53901839564968_2_alg».proof.Proof.LibSumBlocks

noncomputable section

namespace Cert.Spec

open Idealize.ShloMosaic Idealize.ShloMosaic.ValueIdx
open scoped BigOperators

theorem row_of_one {c : Nat} (b : Row c) (b' : Mat 1 c)
    (hb : ∀ q : Fin c, b' (ix2 (0 : Fin 1) q) = b (ix1 q)) :
    (fun q : (⟨1, ![c]⟩ : Shape).Idx => b' (ix2 (0 : Fin 1) (q 0))) = b := by
  funext q
  exact (hb (q 0)).trans (congrArg b (eq_ix1 q).symm)

theorem clfK_eq (w1 : Mat 64 64) (b1 gamma beta : Row 64) (b1' gamma' beta' : Mat 1 64)
    (hb1 : ∀ q : Fin 64, b1' (ix2 (0 : Fin 1) q) = b1 (ix1 q))
    (hg : ∀ q : Fin 64, gamma' (ix2 (0 : Fin 1) q) = gamma (ix1 q))
    (hbeta : ∀ q : Fin 64, beta' (ix2 (0 : Fin 1) q) = beta (ix1 q))
    (w2 : Mat 64 10) (b2 : Row 10) (b2' : Mat 1 10)
    (hb2 : ∀ q : Fin 10, b2' (ix2 (0 : Fin 1) q) = b2 (ix1 q)) (g : Mat 128 64) :
    clfK w1 b1' gamma' beta' w2 b2' g = clf w1 b1 gamma beta w2 b2 g := by
  unfold clfK
  rw [row_of_one b1 b1' hb1, row_of_one gamma gamma' hg, row_of_one beta beta' hbeta, row_of_one b2 b2' hb2]

end Cert.Spec

end
-- ==== Proof.Val.Spine.lean ====
import proofs.«400867_j53901839564968_2_alg».proof.Proof.Math.Layer0
import proofs.«400867_j53901839564968_2_alg».proof.Proof.Math.Jk
import proofs.«400867_j53901839564968_2_alg».proof.Proof.Math.Pool
import proofs.«400867_j53901839564968_2_alg».proof.Proof.Math.Clf

noncomputable section
namespace Cert.Spec
open Idealize.ShloMosaic Idealize.ShloMosaic.ValueIdx

variable (sI dI : ICol 800000) (x : Mat 50000 128) (w1_0 : Mat 128 64) (b1_0 : Row 64) (w2_0 : Mat 64 64)
    (b2_0 : Row 64) (w1r : Stack) (b1r : Mat 4 64) (w2r : Stack) (b2r : Mat 4 64)

theorem hidden_succ (k : Nat) (hk : k + 1 < 5) :
    hidden sI dI x w1_0 b1_0 w2_0 b2_0 w1r b1r w2r b2r ⟨k + 1, hk⟩ =
      layer sI dI (slab w1r ⟨k, by omega⟩) (srow b1r ⟨k, by omega⟩) (slab w2r ⟨k, by omega⟩) (srow b2r ⟨k, by omega⟩)
        (hidden sI dI x w1_0 b1_0 w2_0 b2_0 w1r b1r w2r b2r ⟨k, by omega⟩) := by
  rw [hidden.eq_def]

theorem hidden_zero :
    hidden sI dI x w1_0 b1_0 w2_0 b2_0 w1r b1r w2r b2r ⟨0, by decide⟩ = layer sI dI w1_0 b1_0 w2_0 b2_0 x := by
  rw [hidden.eq_def]

theorem net_of_stages (sI dI : ICol 800000) (bI : ICol 50000) (x : Mat 50000 128) (w1_0 : Mat 128 64) (b1_0 : Row 64)
    (w2_0 : Mat 64 64) (b2_0 : Row 64) (w1r : Stack) (b1r : Mat 4 64) (w2r : Stack) (b2r : Mat 4 64) (jkw : Mat 320 64)
    (jkb : Row 64) (cw1 : Mat 64 64) (cb1 gamma beta : Row 64) (cw2 : Mat 64 10) (cb2 : Row 10)
    (hx : ∀ i, x i ≠ ⊤ ∧ x i ≠ ⊥) (hw : ∀ i, w1_0 i ≠ ⊤ ∧ w1_0 i ≠ ⊥)
    (b1_0' b2_0' : Mat 1 64) (hb1_0 : ∀ q : Fin 64, b1_0' (ix2 (0 : Fin 1) q) = b1_0 (ix1 q))
    (hb2_0 : ∀ q : Fin 64, b2_0' (ix2 (0 : Fin 1) q) = b2_0 (ix1 q))
    (b1' b2' : Fin 4 → Mat 1 64) (hb1 : ∀ (k : Fin 4) (q : Fin 64), b1' k (ix2 (0 : Fin 1) q) = srow b1r k (ix1 q))
    (hb2 : ∀ (k : Fin 4) (q : Fin 64), b2' k (ix2 (0 : Fin 1) q) = srow b2r k (ix1 q))
    (jkb' cb1' gamma' beta' : Mat 1 64) (cb2' : Mat 1 10)
    (hjkb : ∀ q : Fin 64, jkb' (ix2 (0 : Fin 1) q) = jkb (ix1 q))
    (hcb1 : ∀ q : Fin 64, cb1' (ix2 (0 : Fin 1) q) = cb1 (ix1 q))
    (hgamma : ∀ q : Fin 64, gamma' (ix2 (0 : Fin 1) q) = gamma (ix1 q))
    (hbeta : ∀ q : Fin 64, beta' (ix2 (0 : Fin 1) q) = beta (ix1 q))
    (hcb2 : ∀ q : Fin 10, cb2' (ix2 (0 : Fin 1) q) = cb2 (ix1 q))
    (g0 g1 g2 g3 g4 : Mat 50000 64)
    (hg0 : g0 = layer0K sI dI w1_0 b1_0' w2_0 b2_0' x)
    (hg1 : g1 = layerK sI dI (slab w1r 0) (b1' 0) (slab w2r 0) (b2' 0) g0)
    (hg2 : g2 = layerK sI dI (slab w1r 1) (b1' 1) (slab w2r 1) (b2' 1) g1)
    (hg3 : g3 = layerK sI dI (slab w1r 2) (b1' 2) (slab w2r 2) (b2' 2) g2)
    (hg4 : g4 = layerK sI dI (slab w1r 3) (b1' 3) (slab w2r 3) (b2' 3) g3)
    (out : Mat 128 10)
    (hout : out = clfK cw1 cb1' gamma' beta' cw2 cb2' (accK bI (jkK ![g0, g1, g2, g3, g4] jkw jkb') 24 (by decide))) :
    out = net sI dI bI x w1_0 b1_0 w2_0 b2_0 w1r b1r w2r b2r jkw jkb cw1 cb1 gamma beta cw2 cb2 := by
  have e0 : g0 = hidden sI dI x w1_0 b1_0 w2_0 b2_0 w1r b1r w2r b2r 0 := by
    rw [hg0, layer0K_eq sI dI w1_0 b1_0 b1_0' hb1_0 w2_0 b2_0 b2_0' hb2_0 x hx hw]
    exact (hidden_zero sI dI x w1_0 b1_0 w2_0 b2_0 w1r b1r w2r b2r).symm
  have step : ∀ (k : Fin 4) {g g' : Mat 50000 64}, g' = layerK sI dI (slab w1r k) (b1' k) (slab w2r k) (b2' k) g →
      g = hidden sI dI x w1_0 b1_0 w2_0 b2_0 w1r b1r w2r b2r k.castSucc → g' = hidden sI dI x w1_0 b1_0 w2_0 b2_0 w1r b1r w2r b2r k.succ := by
    intro k g g' hg e
    rw [hg, layerK_eq sI dI _ (srow b1r k) (b1' k) (hb1 k) _ (srow b2r k) (b2' k) (hb2 k), e]
    exact (hidden_succ sI dI x w1_0 b1_0 w2_0 b2_0 w1r b1r w2r b2r k.val (by have := k.isLt; omega)).symm
  have e1 := step 0 hg1 e0
  have e2 := step 1 hg2 e1
  have e3 := step 2 hg3 e2
  have e4 := step 3 hg4 e3
  have ehs : (![g0, g1, g2, g3, g4] : Fin 5 → Mat 50000 64) = hidden sI dI x w1_0 b1_0 w2_0 b2_0 w1r b1r w2r b2r := by
    funext k
    match k with
    | ⟨0, _⟩ => exact e0
    | ⟨1, _⟩ => exact e1
    | ⟨2, _⟩ => exact e2
    | ⟨3, _⟩ => exact e3
    | ⟨4, _⟩ => exact e4
  rw [hout, ehs, jkK_eq _ jkw jkb jkb' hjkb, accK_eq, clfK_eq cw1 cb1 gamma beta cb1' gamma' beta' hcb1 hgamma hbeta cw2 cb2 cb2' hcb2]
  rfl

end Cert.Spec
end
-- ==== Proof.Val.Chain.lean ====
import proofs.«400867_j53901839564968_2_alg».proof.Proof.KI.Run
import proofs.«400867_j53901839564968_2_alg».proof.Proof.KI.Walk
import proofs.«400867_j53901839564968_2_alg».proof.Proof.Val.Host
import proofs.«400867_j53901839564968_2_alg».proof.Proof.Val.HostSlices
import proofs.«400867_j53901839564968_2_alg».proof.Proof.Val.Host6
import proofs.«400867_j53901839564968_2_alg».proof.Proof.Val.Fin0
import proofs.«400867_j53901839564968_2_alg».proof.Proof.Val.Fin1
import proofs.«400867_j53901839564968_2_alg».proof.Proof.Val.Fin2
import proofs.«400867_j53901839564968_2_alg».proof.Proof.Val.Fin3
import proofs.«400867_j53901839564968_2_alg».proof.Proof.Val.Fin4
import proofs.«400867_j53901839564968_2_alg».proof.Proof.Val.Fin5
import proofs.«400867_j53901839564968_2_alg».proof.Proof.Val.Fin6
import proofs.«400867_j53901839564968_2_alg».proof.Proof.Val.Spine
noncomputable section
namespace Cert.KernelIdeal.HandVal
open Cert.KernelIdeal Cert.KernelIdeal.Gen Cert.KernelIdeal.Hand Cert.Spec
open Idealize.ShloMosaic Idealize.ShloMosaic.TcCoe Idealize.ShloMosaic.ValueIdx

variable (m : (ℓ : Loc nD τ sig) → Buf (Elt Ideal) ℓ) (ρ : Dev nD → PrngReg) (c : Dev nD)

abbrev launchArr (r : Ref sig .tc) : Buf (Elt Ideal) ((c : Thread nD τ).loc r) := m ((c : Thread nD τ).loc r)
abbrev srcCol : ICol 800000 := sIdx (launchArr m c main_arg1)
abbrev dstCol : ICol 800000 := dIdx (launchArr m c main_arg1)
abbrev arrP : Mat 50000 64 := (dat0 (F := Ideal) (V1 m ρ) c).arrAt 2 cfg0.N
abbrev arrH0 : Mat 50000 64 := (dat1 (F := Ideal) (V3 m ρ) c).arrAt 5 cfg1.N
abbrev arrH1 : Mat 50000 64 := (dat2 (F := Ideal) (V5 m ρ) c).arrAt 6 cfg2.N
abbrev arrH2 : Mat 50000 64 := (dat3 (F := Ideal) (V7 m ρ) c).arrAt 6 cfg3.N
abbrev arrH3 : Mat 50000 64 := (dat4 (F := Ideal) (V9 m ρ) c).arrAt 6 cfg4.N
abbrev arrH4 : Mat 50000 64 := (dat5 (F := Ideal) (V11 m ρ) c).arrAt 6 cfg5.N

theorem srcCol_of (W : Valuation τ sig (Elt Ideal))
    (h : W (Proc.devRef .tc main_v1) = W1 m ρ c (Proc.devRef .tc main_v1)) :
    sColOf (W (Proc.devRef .tc main_v1)) = srcCol m c :=
  (congrArg sColOf h).trans (congrArg sColOf (host0_v1 (W0 m ρ c)))

theorem dstCol_of (W : Valuation τ sig (Elt Ideal))
    (h : W (Proc.devRef .tc main_v3) = W1 m ρ c (Proc.devRef .tc main_v3)) :
    dColOf (W (Proc.devRef .tc main_v3)) = dstCol m c :=
  (congrArg dColOf h).trans (congrArg dColOf (host0_v3 (W0 m ρ c)))

theorem chain_agg_congr {s s' d d' : ICol 800000} {h h' : Mat 50000 64} (hs : s = s') (hd : d = d') (hh : h = h') :
    agg s d h = agg s' d' h' := by subst hs hd hh; rfl

theorem chain_round0_congr {a0 a1 a0' a1' : Mat 50000 64} {a2 a4 a2' a4' : Mat 1 64} {a3 a3' : Mat 64 64}
    (h0 : a0 = a0') (h1 : a1 = a1') (h2 : a2 = a2') (h3 : a3 = a3') (h4 : a4 = a4') :
    relu (addRow1 (mm (relu (addRow1 (add a0 a1) a2)) a3) a4) = relu (addRow1 (mm (relu (addRow1 (add a0' a1') a2')) a3') a4') := by
  subst h0 h1 h2 h3 h4; rfl

theorem chain_round_congr {a0 a1 a0' a1' : Mat 50000 64} {a2 a4 a2' a4' : Mat 64 64} {a3 a5 a3' a5' : Mat 1 64}
    (h0 : a0 = a0') (h1 : a1 = a1') (h2 : a2 = a2') (h3 : a3 = a3') (h4 : a4 = a4') (h5 : a5 = a5') :
    relu (addRow1 (mm (relu (addRow1 (mm (add a0 a1) a2) a3)) a4) a5)
      = relu (addRow1 (mm (relu (addRow1 (mm (add a0' a1') a2') a3')) a4') a5') := by
  subst h0 h1 h2 h3 h4 h5; rfl

theorem chain_stage0 : arrP m ρ c = mm (launchArr m c main_arg0) (launchArr m c main_arg3) :=
  (final0 (V1 m ρ) c).trans (congrArg₂ mm (V1_main_arg0 m ρ c) (V1_main_arg3 m ρ c))

theorem chain_stage1 : arrH0 m ρ c = layer0K (srcCol m c) (dstCol m c) (launchArr m c main_arg3) (rowMat (launchArr m c main_arg4)) (launchArr m c main_arg5)
    (rowMat (launchArr m c main_arg6)) (launchArr m c main_arg0) :=
  (final1 (V3 m ρ) c).trans (chain_round0_congr
    ((host1_v14 (W2 m ρ c)).trans
      (chain_agg_congr (srcCol_of m ρ c _ (W2_main_v1 m ρ c)) (dstCol_of m ρ c _ (W2_main_v3 m ρ c)) ((W2_main_v4 m ρ c).trans (chain_stage0 m ρ c))))
    ((V3_main_v4 m ρ c).trans (chain_stage0 m ρ c))
    ((host1_v15 (W2 m ρ c)).trans (congrArg (fun a => rowMat a) (W2_main_arg4 m ρ c)))
    (V3_main_arg5 m ρ c)
    ((host1_v16 (W2 m ρ c)).trans (congrArg (fun a => rowMat a) (W2_main_arg6 m ρ c))))

theorem chain_stage2 : arrH1 m ρ c = layerK (srcCol m c) (dstCol m c) (slab (launchArr m c main_arg7) 0) (rowMat (srow (launchArr m c main_arg8) 0))
    (slab (launchArr m c main_arg9) 0) (rowMat (srow (launchArr m c main_arg10) 0)) (arrH0 m ρ c) :=
  (final2 (V5 m ρ) c).trans (chain_round_congr
    ((host2_v27 (W4 m ρ c)).trans
      (chain_agg_congr (srcCol_of m ρ c _ (W4_main_v1 m ρ c)) (dstCol_of m ρ c _ (W4_main_v3 m ρ c)) (W4_main_v17 m ρ c)))
    (V5_main_v17 m ρ c)
    ((host2_v29 (W4 m ρ c)).trans (congrArg (slab · 0) (W4_main_arg7 m ρ c)))
    ((host2_v36 (W4 m ρ c)).trans (congrArg (fun a => rowMat (srow a 0)) (W4_main_arg8 m ρ c)))
    ((host2_v33 (W4 m ρ c)).trans (congrArg (slab · 0) (W4_main_arg9 m ρ c)))
    ((host2_v37 (W4 m ρ c)).trans (congrArg (fun a => rowMat (srow a 0)) (W4_main_arg10 m ρ c))))

theorem chain_stage3 : arrH2 m ρ c = layerK (srcCol m c) (dstCol m c) (slab (launchArr m c main_arg7) 1) (rowMat (srow (launchArr m c main_arg8) 1))
    (slab (launchArr m c main_arg9) 1) (rowMat (srow (launchArr m c main_arg10) 1)) (arrH1 m ρ c) :=
  (final3 (V7 m ρ) c).trans (chain_round_congr
    ((host3_v48 (W6 m ρ c)).trans
      (chain_agg_congr (srcCol_of m ρ c _ (W6_main_v1 m ρ c)) (dstCol_of m ρ c _ (W6_main_v3 m ρ c)) (W6_main_v38 m ρ c)))
    (V7_main_v38 m ρ c)
    ((host3_v50 (W6 m ρ c)).trans (congrArg (slab · 1) (W6_main_arg7 m ρ c)))
    ((host3_v57 (W6 m ρ c)).trans (congrArg (fun a => rowMat (srow a 1)) (W6_main_arg8 m ρ c)))
    ((host3_v54 (W6 m ρ c)).trans (congrArg (slab · 1) (W6_main_arg9 m ρ c)))
    ((host3_v58 (W6 m ρ c)).trans (congrArg (fun a => rowMat (srow a 1)) (W6_main_arg10 m ρ c))))

theorem chain_stage4 : arrH3 m ρ c = layerK (srcCol m c) (dstCol m c) (slab (launchArr m c main_arg7) 2) (rowMat (srow (launchArr m c main_arg8) 2))
    (slab (launchArr m c main_arg9) 2) (rowMat (srow (launchArr m c main_arg10) 2)) (arrH2 m ρ c) :=
  (final4 (V9 m ρ) c).trans (chain_round_congr
    ((host4_v69 (W8 m ρ c)).trans
      (chain_agg_congr (srcCol_of m ρ c _ (W8_main_v1 m ρ c)) (dstCol_of m ρ c _ (W8_main_v3 m ρ c)) (W8_main_v59 m ρ c)))
    (V9_main_v59 m ρ c)
    ((host4_v71 (W8 m ρ c)).trans (congrArg (slab · 2) (W8_main_arg7 m ρ c)))
    ((host4_v78 (W8 m ρ c)).trans (congrArg (fun a => rowMat (srow a 2)) (W8_main_arg8 m ρ c)))
    ((host4_v75 (W8 m ρ c)).trans (congrArg (slab · 2) (W8_main_arg9 m ρ c)))
    ((host4_v79 (W8 m ρ c)).trans (congrArg (fun a => rowMat (srow a 2)) (W8_main_arg10 m ρ c))))

theorem chain_stage5 : arrH4 m ρ c = layerK (srcCol m c) (dstCol m c) (slab (launchArr m c main_arg7) 3) (rowMat (srow (launchArr m c main_arg8) 3))
    (slab (launchArr m c main_arg9) 3) (rowMat (srow (launchArr m c main_arg10) 3)) (arrH3 m ρ c) :=
  (final5 (V11 m ρ) c).trans (chain_round_congr
    ((host5_v90 (W10 m ρ c)).trans
      (chain_agg_congr (srcCol_of m ρ c _ (W10_main_v1 m ρ c)) (dstCol_of m ρ c _ (W10_main_v3 m ρ c)) (W10_main_v80 m ρ c)))
    (V11_main_v80 m ρ c)
    ((host5_v92 (W10 m ρ c)).trans (congrArg (slab · 3) (W10_main_arg7 m ρ c)))
    ((host5_v99 (W10 m ρ c)).trans (congrArg (fun a => rowMat (srow a 3)) (W10_main_arg8 m ρ c)))
    ((host5_v96 (W10 m ρ c)).trans (congrArg (slab · 3) (W10_main_arg9 m ρ c)))
    ((host5_v100 (W10 m ρ c)).trans (congrArg (fun a => rowMat (srow a 3)) (W10_main_arg10 m ρ c))))

theorem chain_pool_congr {b b' : ICol 50000} {g0 g1 g2 g3 g4 g0' g1' g2' g3' g4' : Mat 50000 64} {w w' : Mat 320 64} {r r' : Mat 1 64}
    (hb : b = b') (h0 : g0 = g0') (h1 : g1 = g1') (h2 : g2 = g2') (h3 : g3 = g3') (h4 : g4 = g4') (hw : w = w') (hr : r = r') :
    accK b (jkK ![g0, g1, g2, g3, g4] w r) 24 (by decide) = accK b' (jkK ![g0', g1', g2', g3', g4'] w' r') 24 (by decide) := by
  subst hb h0 h1 h2 h3 h4 hw hr; rfl

theorem chain_stage6 : (W14 (F := Ideal) m ρ c (Proc.devRef .tc main_v108) : Mat 128 10) =
    clfK (launchArr m c main_arg13) (rowMat (launchArr m c main_arg14)) (rowMat (launchArr m c main_arg15)) (rowMat (launchArr m c main_arg16))
      (launchArr m c main_arg17) (rowMat (c := 10) (launchArr m c main_arg18))
      (accK (bIdx (launchArr m c main_arg2))
        (jkK ![arrH0 m ρ c, arrH1 m ρ c, arrH2 m ρ c, arrH3 m ρ c, arrH4 m ρ c] (launchArr m c main_arg11) (rowMat (launchArr m c main_arg12))) 24 (by decide)) :=
  (W14_out m ρ c).trans ((final6 (V13 m ρ) c).trans (clfK_congr (V13_main_arg13 m ρ c)
    ((host6_v104 (W12 m ρ c)).trans (congrArg (fun a => rowMat a) (W12_main_arg14 m ρ c)))
    ((host6_v105 (W12 m ρ c)).trans (congrArg (fun a => rowMat a) (W12_main_arg15 m ρ c)))
    ((host6_v106 (W12 m ρ c)).trans (congrArg (fun a => rowMat a) (W12_main_arg16 m ρ c)))
    (V13_main_arg17 m ρ c)
    ((host6_v107 (W12 m ρ c)).trans (congrArg (fun a => rowMat (c := 10) a) (W12_main_arg18 m ρ c)))
    (chain_pool_congr ((host6_v102 (W12 m ρ c)).trans (congrArg (fun a => bIdx a) (W12_main_arg2 m ρ c)))
      (V13_main_v17 m ρ c) (V13_main_v38 m ρ c) (V13_main_v59 m ρ c) (V13_main_v80 m ρ c) (V13_main_v101 m ρ c) (V13_main_arg11 m ρ c)
      ((host6_v103 (W12 m ρ c)).trans (congrArg (fun a => rowMat a) (W12_main_arg12 m ρ c))))))

theorem kernel_value (m : (ℓ : Loc nD τ sig) → Buf (Elt Ideal) ℓ) (ρ : Dev nD → PrngReg) (c : Dev nD)
    (hx : ∀ i, m ((c : Thread nD τ).loc main_arg0) i ≠ (⊤ : EReal) ∧ m ((c : Thread nD τ).loc main_arg0) i ≠ (⊥ : EReal))
    (hw : ∀ i, m ((c : Thread nD τ).loc main_arg3) i ≠ (⊤ : EReal) ∧ m ((c : Thread nD τ).loc main_arg3) i ≠ (⊥ : EReal)) :
    W14 (F := Ideal) m ρ c (Proc.devRef .tc main_v108) =
      Spec.net (sIdx (m ((c : Thread nD τ).loc main_arg1))) (dIdx (m ((c : Thread nD τ).loc main_arg1)))
        (bIdx (m ((c : Thread nD τ).loc main_arg2)))
        (m ((c : Thread nD τ).loc main_arg0)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13))
        (m ((c : Thread nD τ).loc main_arg14)) (m ((c : Thread nD τ).loc main_arg15)) (m ((c : Thread nD τ).loc main_arg16))
        (m ((c : Thread nD τ).loc main_arg17)) (m ((c : Thread nD τ).loc main_arg18)) := by
  refine net_of_stages (srcCol m c) (dstCol m c) (bIdx (launchArr m c main_arg2)) (launchArr m c main_arg0) (launchArr m c main_arg3) (launchArr m c main_arg4)
    (launchArr m c main_arg5) (launchArr m c main_arg6) (launchArr m c main_arg7) (launchArr m c main_arg8) (launchArr m c main_arg9) (launchArr m c main_arg10)
    (launchArr m c main_arg11) (launchArr m c main_arg12) (launchArr m c main_arg13) (launchArr m c main_arg14) (launchArr m c main_arg15) (launchArr m c main_arg16)
    (launchArr m c main_arg17) (launchArr m c main_arg18) hx hw
    (rowMat (launchArr m c main_arg4)) (rowMat (launchArr m c main_arg6)) (fun _ => rfl) (fun _ => rfl)
    (fun k => rowMat (srow (launchArr m c main_arg8) k)) (fun k => rowMat (srow (launchArr m c main_arg10) k)) (fun _ _ => rfl) (fun _ _ => rfl)
    (rowMat (launchArr m c main_arg12)) (rowMat (launchArr m c main_arg14)) (rowMat (launchArr m c main_arg15)) (rowMat (launchArr m c main_arg16))
    (rowMat (c := 10) (launchArr m c main_arg18)) (fun _ => rfl) (fun _ => rfl) (fun _ => rfl) (fun _ => rfl) (fun _ => rfl)
    (arrH0 m ρ c) (arrH1 m ρ c) (arrH2 m ρ c) (arrH3 m ρ c) (arrH4 m ρ c)
    (chain_stage1 m ρ c) (chain_stage2 m ρ c) (chain_stage3 m ρ c) (chain_stage4 m ρ c) (chain_stage5 m ρ c) _ (chain_stage6 m ρ c)

end Cert.KernelIdeal.HandVal
end
-- ==== Proof.Val.IdxBridge.lean ====
import proofs.«400867_j53901839564968_2_alg».proof.Proof.Val.HostDefs
import proofs.«400867_j53901839564968_2_alg».proof.Proof.Ref.ReadP

noncomputable section
namespace Cert.KernelIdeal.HandVal
open Idealize.ShloMosaic Idealize.ShloMosaic.ValueIdx
open Cert.ReferenceIdeal Cert.ReferenceIdeal.Gen Cert.ReferenceIdeal.ReadP

theorem select_slt_zero (a : BitVec 32) :
    Scalar.select (IntOp.cmpi .slt a 0#32) (IntOp.addi a 50000#32) a = if a.slt 0#32 then a + 50000#32 else a := by
  unfold Scalar.select IntOp.cmpi IntOp.addi
  cases h : a.slt 0#32 <;> simp

theorem src_pos (i : S800000x1.Idx) : idx_main_v0 (idx_main_v1 (idx_main_v9 i)) = ix2 (0 : Fin 2) (i 0) := by
  funext a
  match a with
  | ⟨0, _⟩ => rfl
  | ⟨1, _⟩ => exact Fin.ext (Nat.mod_eq_of_lt (i 0).isLt)

theorem dst_pos (i : S800000x1.Idx) : idx_main_v2 (idx_main_v3 (idx_main_v12 i)) = ix2 (1 : Fin 2) (i 0) := by
  funext a
  match a with
  | ⟨0, _⟩ => rfl
  | ⟨1, _⟩ => exact Fin.ext (Nat.mod_eq_of_lt (i 0).isLt)

theorem sIdx_eq (e : S2x800000.Idx → BitVec 32) : sIdx e = val_main_v9 (F := Ideal) e := by
  funext i
  rw [val_main_v9_apply, val_main_v8_apply, val_main_v5_apply, val_main_v7_apply, val_main_v4_apply, val_main_v6_apply,
    val_main_c_apply, val_main_c_0_apply, val_main_v1_apply, val_main_v0_apply, src_pos, select_slt_zero]
  rfl

theorem dIdx_eq (e : S2x800000.Idx → BitVec 32) : dIdx e = val_main_v12 (F := Ideal) e := by
  funext i
  rw [val_main_v12_apply, val_main_v3_apply, val_main_v2_apply, dst_pos]
  rfl

theorem bIdx_eq (b : S50000.Idx → BitVec 32) : bIdx b = val_main_v147 (F := Ideal) b := by
  funext i
  rw [val_main_v147_apply]
  show b (ix1 (i 0)) = b (idx_main_v147 i)
  congr 1
  funext a
  match a with
  | ⟨0, _⟩ => rfl

end Cert.KernelIdeal.HandVal
end
-- ==== Proof.lean ====
import proofs.«400867_j53901839564968_2_alg».proof.Defs
import proofs.«400867_j53901839564968_2_alg».proof.Proof.Gen.Kernel
import proofs.«400867_j53901839564968_2_alg».proof.Proof.Gen.KernelIdeal
import proofs.«400867_j53901839564968_2_alg».proof.Proof.Gen.ReferenceIdeal
import proofs.«400867_j53901839564968_2_alg».proof.Proof.Gen.Pre_finite_inputs
import proofs.«400867_j53901839564968_2_alg».proof.Proof.Spec
import proofs.«400867_j53901839564968_2_alg».proof.Proof.Pre.Finite
import proofs.«400867_j53901839564968_2_alg».proof.Proof.K.Claims
import proofs.«400867_j53901839564968_2_alg».proof.Proof.KI.Claims
import proofs.«400867_j53901839564968_2_alg».proof.Proof.Ref.Claims
import proofs.«400867_j53901839564968_2_alg».proof.Proof.Ref.Net
import proofs.«400867_j53901839564968_2_alg».proof.Proof.Val.Chain
import proofs.«400867_j53901839564968_2_alg».proof.Proof.Val.IdxBridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ => Cert.ReferenceIdeal.RefValue.frame_ri m ρ

theorem preserves : Cert.preserves_Kernel_KernelIdeal := trivial

theorem algebraic : Cert.algebraic_KernelIdeal_ReferenceIdeal := by
  intro m ρ m' ρ' hpre hagree
  refine ⟨fun c => Cert.KernelIdeal.Hand.W14 (F := Ideal) m ρ c (Proc.devRef .tc Cert.KernelIdeal.main_v108),
    Cert.KernelIdeal.Hand.run_result (F := Ideal) m ρ, ?_⟩
  refine (θ_run Cert.ReferenceIdeal.defs _ _).mono (fun _ h c => ⟨(h c).1.trans ?_, (h c).2⟩)
    (Cert.ReferenceIdeal.RunH.run (F := Ideal) m' ρ')
  have hf := Cert.Proof.Finite.x_w1_finite _ _ _ _ _ _ _ _ _ _ _ _ _ _ _ _ _ _ _ (hpre c)
  have hk := Cert.KernelIdeal.HandVal.kernel_value m ρ c hf.1 hf.2
  obtain ⟨e0, e1, e2, e3, e4, e5, e6, e7, e8, e9, e10, e11, e12, e13, e14, e15, e16, e17, e18⟩ := hagree c
  refine Eq.trans ?_ hk.symm
  rw [Cert.ReferenceIdeal.RefValue.ref_eq_net, e0, e1, e2, e3, e4, e5, e6, e7, e8, e9, e10, e11, e12, e13, e14, e15, e16, e17, e18,
    ← Cert.KernelIdeal.HandVal.sIdx_eq, ← Cert.KernelIdeal.HandVal.dIdx_eq, ← Cert.KernelIdeal.HandVal.bIdx_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
